-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v58)) (v1 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_v50) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x3200000 : Shape := ⟨2, ![2, 3200000]⟩
abbrev S100000 : Shape := ⟨1, ![100000]⟩
abbrev S64x16 : Shape := ⟨2, ![64, 16]⟩
abbrev S16 : Shape := ⟨1, ![16]⟩
abbrev S16x32 : Shape := ⟨2, ![16, 32]⟩
abbrev S32 : Shape := ⟨1, ![32]⟩
abbrev S32x21 : Shape := ⟨2, ![32, 21]⟩
abbrev S21 : Shape := ⟨1, ![21]⟩
abbrev S32x10 : Shape := ⟨2, ![32, 10]⟩
abbrev S10 : Shape := ⟨1, ![10]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_
  bcast_S_S32x21 : S_.BroadcastsInDim S32x21 (![] : Fin 0 → Fin S32x21.rank)
  reducesTo_S32x21_S_d0_1 : S32x21.ReducesTo [0, 1] S_
  bcast_S_S21 : S_.BroadcastsInDim S21 (![] : Fin 0 → Fin S21.rank)
  reducesTo_S21_S_d0 : S21.ReducesTo [0] S_
  bcast_S_S32x10 : S_.BroadcastsInDim S32x10 (![] : Fin 0 → Fin S32x10.rank)
  reducesTo_S32x10_S_d0_1 : S32x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_arg13 : FVec F S10 .f32) (main_v48 : IVec S_ 1) (main_v49 : FVec F S32x10 .f32) (main_v50 : FVec F S32x10 .f32) : IVec S_ 1 :=
  let main_v51 : IVec S32x10 1 := cmpf .olt main_v49 main_v50
  let main_c_19 : IVec S_ 1 := constantI S_ 1 1#1
  let main_v52 : IVec S_ 1 := (fun x v => Host.reduce IntOp.andi x v reducesTo_S32x10_S_d0_1 h_S_) main_v51 main_c_19
  let main_v53 : IVec S_ 1 := andi main_v48 main_v52
  let main_v54 : FVec F S10 .f32 := Host.absf main_arg13
  let main_cst_20 : FVec F S_ .f32 := constant S_ .f32 0x7F800000#32
  let main_v55 : FVec F S10 .f32 := broadcastInDim S10 ![] bcast_S_S10 main_cst_20
  let main_v56 : IVec S10 1 := cmpf .olt main_v54 main_v55
  let main_c_21 : IVec S_ 1 := constantI S_ 1 1#1
  let main_v57 : IVec S_ 1 := (fun x v => Host.reduce IntOp.andi x v reducesTo_S10_S_d0 h_S_) main_v56 main_c_21
  let main_v58 : IVec S_ 1 := andi main_v53 main_v57
  main_v58

def fn_part2 {F : FTy → Type} [FloatOps F] (main_arg9 : FVec F S32x21 .f32) (main_arg10 : FVec F S21 .f32) (main_arg11 : FVec F S32x21 .f32) (main_arg12 : FVec F S32x10 .f32) (main_arg13 : FVec F S10 .f32) (main_v33 : IVec S_ 1) : IVec S_ 1 :=
  let main_v34 : FVec F S32x21 .f32 := Host.absf main_arg9
  let main_cst_12 : FVec F S_ .f32 := constant S_ .f32 0x7F800000#32
  let main_v35 : FVec F S32x21 .f32 := broadcastInDim S32x21 ![] bcast_S_S32x21 main_cst_12
  let main_v36 : IVec S32x21 1 := cmpf .olt main_v34 main_v35
  let main_c_13 : IVec S_ 1 := constantI S_ 1 1#1
  let main_v37 : IVec S_ 1 := (fun x v => Host.reduce IntOp.andi x v reducesTo_S32x21_S_d0_1 h_S_) main_v36 main_c_13
  let main_v38 : IVec S_ 1 := andi main_v33 main_v37
  let main_v39 : FVec F S21 .f32 := Host.absf main_arg10
  let main_cst_14 : FVec F S_ .f32 := constant S_ .f32 0x7F800000#32
  let main_v40 : FVec F S21 .f32 := broadcastInDim S21 ![] bcast_S_S21 main_cst_14
  let main_v41 : IVec S21 1 := cmpf .olt main_v39 main_v40
  let main_c_15 : IVec S_ 1 := constantI S_ 1 1#1
  let main_v42 : IVec S_ 1 := (fun x v => Host.reduce IntOp.andi x v reducesTo_S21_S_d0 h_S_) main_v41 main_c_15
  let main_v43 : IVec S_ 1 := andi main_v38 main_v42
  let main_v44 : FVec F S32x21 .f32 := Host.absf main_arg11
  let main_cst_16 : FVec F S_ .f32 := constant S_ .f32 0x7F800000#32
  let main_v45 : FVec F S32x21 .f32 := broadcastInDim S32x21 ![] bcast_S_S32x21 main_cst_16
  let main_v46 : IVec S32x21 1 := cmpf .olt main_v44 main_v45
  let main_c_17 : IVec S_ 1 := constantI S_ 1 1#1
  let main_v47 : IVec S_ 1 := (fun x v => Host.reduce IntOp.andi x v reducesTo_S32x21_S_d0_1 h_S_) main_v46 main_c_17
  let main_v48 : IVec S_ 1 := andi main_v43 main_v47
  let main_v49 : FVec F S32x10 .f32 := Host.absf main_arg12
  let main_cst_18 : FVec F S_ .f32 := constant S_ .f32 0x7F800000#32
  let main_v50 : FVec F S32x10 .f32 := broadcastInDim S32x10 ![] bcast_S_S32x10 main_cst_18
  fn_part3 (F := F) main_arg13 main_v48 main_v49 main_v50

def fn_part1 {F : FTy → Type} [FloatOps F] (main_arg6 : FVec F S16x32 .f32) (main_arg7 : FVec F S32 .f32) (main_arg8 : FVec F S16x32 .f32) (main_arg9 : FVec F S32x21 .f32) (main_arg10 : FVec F S21 .f32) (main_arg11 : FVec F S32x21 .f32) (main_arg12 : FVec F S32x10 .f32) (main_arg13 : FVec F S10 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S16x32 .f32 := Host.absf main_arg6
  let main_cst_6 : FVec F S_ .f32 := constant S_ .f32 0x7F800000#32
  let main_v20 : FVec F S16x32 .f32 := broadcastInDim S16x32 ![] bcast_S_S16x32 main_cst_6
  let main_v21 : IVec S16x32 1 := cmpf .olt main_v19 main_v20
  let main_c_7 : IVec S_ 1 := constantI S_ 1 1#1
  let main_v22 : IVec S_ 1 := (fun x v => Host.reduce IntOp.andi x v reducesTo_S16x32_S_d0_1 h_S_) main_v21 main_c_7
  let main_v23 : IVec S_ 1 := andi main_v18 main_v22
  let main_v24 : FVec F S32 .f32 := Host.absf main_arg7
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S16x32 .f32 := Host.absf main_arg8
  let main_cst_10 : FVec F S_ .f32 := constant S_ .f32 0x7F800000#32
  let main_v30 : FVec F S16x32 .f32 := broadcastInDim S16x32 ![] bcast_S_S16x32 main_cst_10
  let main_v31 : IVec S16x32 1 := cmpf .olt main_v29 main_v30
  let main_c_11 : IVec S_ 1 := constantI S_ 1 1#1
  let main_v32 : IVec S_ 1 := (fun x v => Host.reduce IntOp.andi x v reducesTo_S16x32_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S100000x64 .f32) (main_arg1 : IVec S2x3200000 32) (main_arg2 : IVec S100000 32) (main_arg3 : FVec F S64x16 .f32) (main_arg4 : FVec F S16 .f32) (main_arg5 : FVec F S64x16 .f32) (main_arg6 : FVec F S16x32 .f32) (main_arg7 : FVec F S32 .f32) (main_arg8 : FVec F S16x32 .f32) (main_arg9 : FVec F S32x21 .f32) (main_arg10 : FVec F S21 .f32) (main_arg11 : FVec F S32x21 .f32) (main_arg12 : FVec F S32x10 .f32) (main_arg13 : FVec F S10 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x16 .f32 := Host.absf main_arg3
  let main_cst_0 : FVec F S_ .f32 := constant S_ .f32 0x7F800000#32
  let main_v5 : FVec F S64x16 .f32 := broadcastInDim S64x16 ![] bcast_S_S64x16 main_cst_0
  let main_v6 : IVec S64x16 1 := cmpf .olt main_v4 main_v5
  let main_c_1 : IVec S_ 1 := constantI S_ 1 1#1
  let main_v7 : IVec S_ 1 := (fun x v => Host.reduce IntOp.andi x v reducesTo_S64x16_S_d0_1 h_S_) main_v6 main_c_1
  let main_v8 : IVec S_ 1 := andi main_v3 main_v7
  let main_v9 : FVec F S16 .f32 := Host.absf main_arg4
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S64x16 .f32 := Host.absf main_arg5
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg6 main_arg7 main_arg8 main_arg9 main_arg10 main_arg11 main_arg12 main_arg13 main_v13 main_v16
-- ==== Kernel.lean ====
abbrev S100000x64 : Shape := ⟨2, ![100000, 64]⟩
abbrev S2x3200000 : Shape := ⟨2, ![2, 3200000]⟩
abbrev S100000 : Shape := ⟨1, ![100000]⟩
abbrev S64x16 : Shape := ⟨2, ![64, 16]⟩
abbrev S16 : Shape := ⟨1, ![16]⟩
abbrev S16x32 : Shape := ⟨2, ![16, 32]⟩
abbrev S32 : Shape := ⟨1, ![32]⟩
abbrev S32x21 : Shape := ⟨2, ![32, 21]⟩
abbrev S21 : Shape := ⟨1, ![21]⟩
abbrev S32x10 : Shape := ⟨2, ![32, 10]⟩
abbrev S10 : Shape := ⟨1, ![10]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S100000x1 : Shape := ⟨2, ![100000, 1]⟩
abbrev S100000x16 : Shape := ⟨2, ![100000, 16]⟩
abbrev S10000x64 : Shape := ⟨2, ![10000, 64]⟩
abbrev S10000x16 : Shape := ⟨2, ![10000, 16]⟩
abbrev S3200000x16 : Shape := ⟨2, ![3200000, 16]⟩
abbrev S1x16 : Shape := ⟨2, ![1, 16]⟩
abbrev S5000x16 : Shape := ⟨2, ![5000, 16]⟩
abbrev S5000x64 : Shape := ⟨2, ![5000, 64]⟩
abbrev S5000x1 : Shape := ⟨2, ![5000, 1]⟩
abbrev S1x32 : Shape := ⟨2, ![1, 32]⟩
abbrev S100000x32 : Shape := ⟨2, ![100000, 32]⟩
abbrev S5000x32 : Shape := ⟨2, ![5000, 32]⟩
abbrev S100000x21 : Shape := ⟨2, ![100000, 21]⟩
abbrev S10000x32 : Shape := ⟨2, ![10000, 32]⟩
abbrev S10000x21 : Shape := ⟨2, ![10000, 21]⟩
abbrev S3200000x21 : Shape := ⟨2, ![3200000, 21]⟩
abbrev S1x21 : Shape := ⟨2, ![1, 21]⟩
abbrev S5000x21 : Shape := ⟨2, ![5000, 21]⟩
abbrev S64 : Shape := ⟨1, ![64]⟩
abbrev S64x1 : Shape := ⟨2, ![64, 1]⟩
abbrev S1x10 : Shape := ⟨2, ![1, 10]⟩
abbrev S64x10 : Shape := ⟨2, ![64, 10]⟩
abbrev S10000x1 : Shape := ⟨2, ![10000, 1]⟩
abbrev S64x32 : Shape := ⟨2, ![64, 32]⟩

abbrev nBuf : Space → Nat
  | .hbm => 89
  | .vmem => 52
  | .smem => 0
  | _ => 0

abbrev bufTy : (tb : Table) → Fin (tcTables nBuf tb) → BufTy
  | .hbm, ⟨0, _⟩ => ⟨S100000x64, .f32⟩
  | .hbm, ⟨1, _⟩ => ⟨S2x3200000, .i32⟩
  | .hbm, ⟨2, _⟩ => ⟨S100000, .i32⟩
  | .hbm, ⟨3, _⟩ => ⟨S64x16, .f32⟩
  | .hbm, ⟨4, _⟩ => ⟨S16, .f32⟩
  | .hbm, ⟨5, _⟩ => ⟨S64x16, .f32⟩
  | .hbm, ⟨6, _⟩ => ⟨S16x32, .f32⟩
  | .hbm, ⟨7, _⟩ => ⟨S32, .f32⟩
  | .hbm, ⟨8, _⟩ => ⟨S16x32, .f32⟩
  | .hbm, ⟨9, _⟩ => ⟨S32x21, .f32⟩
  | .hbm, ⟨10, _⟩ => ⟨S21, .f32⟩
  | .hbm, ⟨11, _⟩ => ⟨S32x21, .f32⟩
  | .hbm, ⟨12, _⟩ => ⟨S32x10, .f32⟩
  | .hbm, ⟨13, _⟩ => ⟨S10, .f32⟩
  | .hbm, ⟨14, _⟩ => ⟨S1x3200000, .i32⟩
  | .hbm, ⟨15, _⟩ => ⟨S3200000, .i32⟩
  | .hbm, ⟨16, _⟩ => ⟨S1x3200000, .i32⟩
  | .hbm, ⟨17, _⟩ => ⟨S3200000, .i32⟩
  | .hbm, ⟨18, _⟩ => ⟨S_, .f32⟩
  | .hbm, ⟨19, _⟩ => ⟨S3200000, .f32⟩
  | .hbm, ⟨20, _⟩ => ⟨S_, .f32⟩
  | .hbm, ⟨21, _⟩ => ⟨S100000, .f32⟩
  | .hbm, ⟨22, _⟩ => ⟨S3200000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S100000x16, .f32⟩
  | .hbm, ⟨32, _⟩ => ⟨S_, .i32⟩
  | .hbm, ⟨33, _⟩ => ⟨S3200000, .i32⟩
  | .hbm, ⟨34, _⟩ => ⟨S3200000, .i1⟩
  | .hbm, ⟨35, _⟩ => ⟨S_, .i32⟩
  | .hbm, ⟨36, _⟩ => ⟨S3200000, .i32⟩
  | .hbm, ⟨37, _⟩ => ⟨S3200000, .i32⟩
  | .hbm, ⟨38, _⟩ => ⟨S3200000, .i32⟩
  | .hbm, ⟨39, _⟩ => ⟨S3200000x1, .i32⟩
  | .hbm, ⟨40, _⟩ => ⟨S3200000x16, .f32⟩
  | .hbm, ⟨41, _⟩ => ⟨S_, .f32⟩
  | .hbm, ⟨42, _⟩ => ⟨S100000x16, .f32⟩
  | .hbm, ⟨43, _⟩ => ⟨S3200000x1, .i32⟩
  | .hbm, ⟨44, _⟩ => ⟨S100000x16, .f32⟩
  | .hbm, ⟨45, _⟩ => ⟨S1x16, .f32⟩
  | .hbm, ⟨46, _⟩ => ⟨S100000x16, .f32⟩
  | .hbm, ⟨47, _⟩ => ⟨S_, .i32⟩
  | .hbm, ⟨48, _⟩ => ⟨S3200000, .i32⟩
  | .hbm, ⟨49, _⟩ => ⟨S3200000, .i1⟩
  | .hbm, ⟨50, _⟩ => ⟨S_, .i32⟩
  | .hbm, ⟨51, _⟩ => ⟨S3200000, .i32⟩
  | .hbm, ⟨52, _⟩ => ⟨S3200000, .i32⟩
  | .hbm, ⟨53, _⟩ => ⟨S3200000, .i32⟩
  | .hbm, ⟨54, _⟩ => ⟨S3200000x1, .i32⟩
  | .hbm, ⟨55, _⟩ => ⟨S3200000x16, .f32⟩
  | .hbm, ⟨56, _⟩ => ⟨S_, .f32⟩
  | .hbm, ⟨57, _⟩ => ⟨S100000x16, .f32⟩
  | .hbm, ⟨58, _⟩ => ⟨S3200000x1, .i32⟩
  | .hbm, ⟨59, _⟩ => ⟨S100000x16, .f32⟩
  | .hbm, ⟨60, _⟩ => ⟨S1x32, .f32⟩
  | .hbm, ⟨61, _⟩ => ⟨S100000x32, .f32⟩
  | .hbm, ⟨62, _⟩ => ⟨S100000x32, .f32⟩
  | .hbm, ⟨63, _⟩ => ⟨S100000x21, .f32⟩
  | .hbm, ⟨64, _⟩ => ⟨S_, .i32⟩
  | .hbm, ⟨65, _⟩ => ⟨S3200000, .i32⟩
  | .hbm, ⟨66, _⟩ => ⟨S3200000, .i1⟩
  | .hbm, ⟨67, _⟩ => ⟨S_, .i32⟩
  | .hbm, ⟨68, _⟩ => ⟨S3200000, .i32⟩
  | .hbm, ⟨69, _⟩ => ⟨S3200000, .i32⟩
  | .hbm, ⟨70, _⟩ => ⟨S3200000, .i32⟩
  | .hbm, ⟨71, _⟩ => ⟨S3200000x1, .i32⟩
  | .hbm, ⟨72, _⟩ => ⟨S3200000x21, .f32⟩
  | .hbm, ⟨73, _⟩ => ⟨S_, .f32⟩
  | .hbm, ⟨74, _⟩ => ⟨S100000x21, .f32⟩
  | .hbm, ⟨75, _⟩ => ⟨S3200000x1, .i32⟩
  | .hbm, ⟨76, _⟩ => ⟨S100000x21, .f32⟩
  | .hbm, ⟨77, _⟩ => ⟨S1x21, .f32⟩
  | .hbm, ⟨78, _⟩ => ⟨S100000x21, .f32⟩
  | .hbm, ⟨79, _⟩ => ⟨S100000x1, .i32⟩
  | .hbm, ⟨80, _⟩ => ⟨S_, .f32⟩
  | .hbm, ⟨81, _⟩ => ⟨S100000, .f32⟩
  | .hbm, ⟨82, _⟩ => ⟨S_, .f32⟩
  | .hbm, ⟨83, _⟩ => ⟨S64, .f32⟩
  | .hbm, ⟨84, _⟩ => ⟨S100000x1, .i32⟩
  | .hbm, ⟨85, _⟩ => ⟨S64, .f32⟩
  | .hbm, ⟨86, _⟩ => ⟨S64x1, .f32⟩
  | .hbm, ⟨87, _⟩ => ⟨S1x10, .f32⟩
  | .hbm, ⟨88, _⟩ => ⟨S64x10, .f32⟩
  | .local _ .vmem, ⟨0, _⟩ => ⟨S10000x64, .f32⟩
  | .local _ .vmem, ⟨1, _⟩ => ⟨S10000x64, .f32⟩
  | .local _ .vmem, ⟨2, _⟩ => ⟨S64x16, .f32⟩
  | .local _ .vmem, ⟨3, _⟩ => ⟨S10000x16, .f32⟩
  | .local _ .vmem, ⟨4, _⟩ => ⟨S10000x16, .f32⟩
  | .local _ .vmem, ⟨5, _⟩ => ⟨S5000x16, .f32⟩
  | .local _ .vmem, ⟨6, _⟩ => ⟨S5000x16, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S64x16, .f32⟩
  | .local _ .vmem, ⟨12, _⟩ => ⟨S1x16, .f32⟩
  | .local _ .vmem, ⟨13, _⟩ => ⟨S5000x16, .f32⟩
  | .local _ .vmem, ⟨14, _⟩ => ⟨S5000x16, .f32⟩
  | .local _ .vmem, ⟨15, _⟩ => ⟨S5000x16, .f32⟩
  | .local _ .vmem, ⟨16, _⟩ => ⟨S5000x16, .f32⟩
  | .local _ .vmem, ⟨17, _⟩ => ⟨S5000x16, .f32⟩
  | .local _ .vmem, ⟨18, _⟩ => ⟨S5000x16, .f32⟩
  | .local _ .vmem, ⟨19, _⟩ => ⟨S5000x1, .f32⟩
  | .local _ .vmem, ⟨20, _⟩ => ⟨S5000x1, .f32⟩
  | .local _ .vmem, ⟨21, _⟩ => ⟨S16x32, .f32⟩
  | .local _ .vmem, ⟨22, _⟩ => ⟨S1x32, .f32⟩
  | .local _ .vmem, ⟨23, _⟩ => ⟨S16x32, .f32⟩
  | .local _ .vmem, ⟨24, _⟩ => ⟨S5000x32, .f32⟩
  | .local _ .vmem, ⟨25, _⟩ => ⟨S5000x32, .f32⟩
  | .local _ .vmem, ⟨26, _⟩ => ⟨S5000x32, .f32⟩
  | .local _ .vmem, ⟨27, _⟩ => ⟨S5000x32, .f32⟩
  | .local _ .vmem, ⟨28, _⟩ => ⟨S10000x32, .f32⟩
  | .local _ .vmem, ⟨29, _⟩ => ⟨S10000x32, .f32⟩
  | .local _ .vmem, ⟨30, _⟩ => ⟨S32x21, .f32⟩
  | .local _ .vmem, ⟨31, _⟩ => ⟨S10000x21, .f32⟩
  | .local _ .vmem, ⟨32, _⟩ => ⟨S10000x21, .f32⟩
  | .local _ .vmem, ⟨33, _⟩ => ⟨S5000x21, .f32⟩
  | .local _ .vmem, ⟨34, _⟩ => ⟨S5000x21, .f32⟩
  | .local _ .vmem, ⟨35, _⟩ => ⟨S5000x32, .f32⟩
  | .local _ .vmem, ⟨36, _⟩ => ⟨S5000x32, .f32⟩
  | .local _ .vmem, ⟨37, _⟩ => ⟨S5000x1, .f32⟩
  | .local _ .vmem, ⟨38, _⟩ => ⟨S5000x1, .f32⟩
  | .local _ .vmem, ⟨39, _⟩ => ⟨S32x21, .f32⟩
  | .local _ .vmem, ⟨40, _⟩ => ⟨S1x21, .f32⟩
  | .local _ .vmem, ⟨41, _⟩ => ⟨S5000x21, .f32⟩
  | .local _ .vmem, ⟨42, _⟩ => ⟨S5000x21, .f32⟩
  | .local _ .vmem, ⟨43, _⟩ => ⟨S10000x1, .i32⟩
  | .local _ .vmem, ⟨44, _⟩ => ⟨S10000x1, .i32⟩
  | .local _ .vmem, ⟨45, _⟩ => ⟨S10000x32, .f32⟩
  | .local _ .vmem, ⟨46, _⟩ => ⟨S10000x32, .f32⟩
  | .local _ .vmem, ⟨47, _⟩ => ⟨S64x1, .f32⟩
  | .local _ .vmem, ⟨48, _⟩ => ⟨S32x10, .f32⟩
  | .local _ .vmem, ⟨49, _⟩ => ⟨S1x10, .f32⟩
  | .local _ .vmem, ⟨50, _⟩ => ⟨S64x10, .f32⟩
  | .local _ .vmem, ⟨51, _⟩ => ⟨S64x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_3 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_4 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_5 : Ref sig .tc := ⟨.hbm, 47, rfl⟩
abbrev main_v26 : Ref sig .tc := ⟨.hbm, 48, rfl⟩
abbrev main_v27 : Ref sig .tc := ⟨.hbm, 49, rfl⟩
abbrev main_c_6 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37_0 : Ref sig .tc := ⟨.hbm, 61, rfl⟩
abbrev main_v37_1 : Ref sig .tc := ⟨.hbm, 62, rfl⟩
abbrev main_v38 : Ref sig .tc := ⟨.hbm, 63, rfl⟩
abbrev main_c_8 : Ref sig .tc := ⟨.hbm, 64, rfl⟩
abbrev main_v39 : Ref sig .tc := ⟨.hbm, 65, rfl⟩
abbrev main_v40 : Ref sig .tc := ⟨.hbm, 66, rfl⟩
abbrev main_c_9 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_10 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_11 : Ref sig .tc := ⟨.hbm, 80, rfl⟩
abbrev main_v52 : Ref sig .tc := ⟨.hbm, 81, rfl⟩
abbrev main_cst_12 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg6_1 : Ref sig .tc := ⟨.vmem, 25, rfl⟩
abbrev cc2_stg7_0 : Ref sig .tc := ⟨.vmem, 26, rfl⟩
abbrev cc2_stg7_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg2_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg1_1 : Ref sig .tc := ⟨.vmem, 36, rfl⟩
abbrev cc4_stg2_0 : Ref sig .tc := ⟨.vmem, 37, rfl⟩
abbrev cc4_stg2_1 : Ref sig .tc := ⟨.vmem, 38, rfl⟩
abbrev cc4_stg3_0 : Ref sig .tc := ⟨.vmem, 39, rfl⟩
abbrev cc4_stg4_0 : Ref sig .tc := ⟨.vmem, 40, rfl⟩
abbrev cc4_stg5_0 : Ref sig .tc := ⟨.vmem, 41, rfl⟩
abbrev cc4_stg5_1 : Ref sig .tc := ⟨.vmem, 42, rfl⟩
abbrev cc5_stg0_0 : Ref sig .tc := ⟨.vmem, 43, rfl⟩
abbrev cc5_stg0_1 : Ref sig .tc := ⟨.vmem, 44, rfl⟩
abbrev cc5_stg1_0 : Ref sig .tc := ⟨.vmem, 45, rfl⟩
abbrev cc5_stg1_1 : Ref sig .tc := ⟨.vmem, 46, rfl⟩
abbrev cc5_stg2_0 : Ref sig .tc := ⟨.vmem, 47, rfl⟩
abbrev cc5_stg3_0 : Ref sig .tc := ⟨.vmem, 48, rfl⟩
abbrev cc5_stg4_0 : Ref sig .tc := ⟨.vmem, 49, rfl⟩
abbrev cc5_stg5_0 : Ref sig .tc := ⟨.vmem, 50, rfl⟩
abbrev cc5_scratch0 : Ref sig .tc := ⟨.vmem, 51, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem6_1 : DmaSem sig := 25
abbrev cc2_sem7_0 : DmaSem sig := 26
abbrev cc2_sem7_1 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem2_1 : DmaSem sig := 32
abbrev cc4_sem0_0 : DmaSem sig := 33
abbrev cc4_sem0_1 : DmaSem sig := 34
abbrev cc4_sem1_0 : DmaSem sig := 35
abbrev cc4_sem1_1 : DmaSem sig := 36
abbrev cc4_sem2_0 : DmaSem sig := 37
abbrev cc4_sem2_1 : DmaSem sig := 38
abbrev cc4_sem3_0 : DmaSem sig := 39
abbrev cc4_sem4_0 : DmaSem sig := 40
abbrev cc4_sem5_0 : DmaSem sig := 41
abbrev cc4_sem5_1 : DmaSem sig := 42
abbrev cc5_sem0_0 : DmaSem sig := 43
abbrev cc5_sem0_1 : DmaSem sig := 44
abbrev cc5_sem1_0 : DmaSem sig := 45
abbrev cc5_sem1_1 : DmaSem sig := 46
abbrev cc5_sem2_0 : DmaSem sig := 47
abbrev cc5_sem3_0 : DmaSem sig := 48
abbrev cc5_sem4_0 : DmaSem sig := 49
abbrev cc5_sem5_0 : DmaSem sig := 50

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x16 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S16x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S16x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x32 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S5000x32 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S32x21 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x21 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x21 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x32 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S32x21 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x21 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x21 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![10], ![false]⟩

def k5_cond2 (i : grid5.Coords) : BitVec 1 :=
  let arg0 : BitVec 32 := BitVec.ofNat 32 (i 0).val
  let c9_i32 : BitVec 32 := 9#32
  let v20 : BitVec 1 := Scalar.cmpi .eq arg0 c9_i32
  let v21 : BitVec 32 := Scalar.extui v20
  let c0_i32_8 : BitVec 32 := 0#32
  let v22 : BitVec 1 := Scalar.cmpi .ne v21 c0_i32_8
  v22

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S10000x1 .i32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x32 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x1 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S32x10 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x10 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S64x10 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  shapeCasts_S100000_S100000x1 : S100000.ShapeCasts S100000x1
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x16_S64x16_0_0 : ∀ a, (![0, 0] : Fin 2 → Nat) a + S64x16.size a ≤ S64x16.size a
  h_S64x16 : 0 < S64x16.numel
  inb_S10000x16_S10000x16_0_0 : ∀ a, (![0, 0] : Fin 2 → Nat) a + S10000x16.size a ≤ S10000x16.size a
  h_S10000x16 : 0 < S10000x16.numel
  bcast_S_S100000x16 : S_.BroadcastsInDim S100000x16 (![] : Fin 0 → Fin S100000x16.rank)
  shapeCasts_S16_S1x16 : S16.ShapeCasts S1x16
  inb_S5000x16_S5000x16_0_0 : ∀ a, (![0, 0] : Fin 2 → Nat) a + S5000x16.size a ≤ S5000x16.size a
  h_S5000x16 : 0 < S5000x16.numel
  shapeCasts_S5000x16_S5000x16 : S5000x16.ShapeCasts S5000x16
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x16 : S5000x1.Broadcasts S5000x16
  inb_S5000x64_S5000x64_0_0 : ∀ a, (![0, 0] : Fin 2 → Nat) a + S5000x64.size a ≤ S5000x64.size a
  h_S5000x64 : 0 < S5000x64.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  shapeCasts_S32_S1x32 : S32.ShapeCasts S1x32
  inb_S16x32_S16x32_0_0 : ∀ a, (![0, 0] : Fin 2 → Nat) a + S16x32.size a ≤ S16x32.size a
  h_S16x32 : 0 < S16x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  inb_S32x21_S32x21_0_0 : ∀ a, (![0, 0] : Fin 2 → Nat) a + S32x21.size a ≤ S32x21.size a
  h_S32x21 : 0 < S32x21.numel
  inb_S10000x21_S10000x21_0_0 : ∀ a, (![0, 0] : Fin 2 → Nat) a + S10000x21.size a ≤ S10000x21.size a
  h_S10000x21 : 0 < S10000x21.numel
  bcast_S_S100000x21 : S_.BroadcastsInDim S100000x21 (![] : Fin 0 → Fin S100000x21.rank)
  shapeCasts_S21_S1x21 : S21.ShapeCasts S1x21
  inb_S5000x21_S5000x21_0_0 : ∀ a, (![0, 0] : Fin 2 → Nat) a + S5000x21.size a ≤ S5000x21.size a
  h_S5000x21 : 0 < S5000x21.numel
  shapeCasts_S5000x21_S5000x21 : S5000x21.ShapeCasts S5000x21
  broadcasts_S5000x1_S5000x21 : S5000x1.Broadcasts S5000x21
  shapeCasts_S5000x32_S5000x32 : S5000x32.ShapeCasts S5000x32
  inb_S1x21_S1x21_0_0 : ∀ a, (![0, 0] : Fin 2 → Nat) a + S1x21.size a ≤ S1x21.size a
  h_S1x21 : 0 < S1x21.numel
  shapeCasts_S1x21_S1x21 : S1x21.ShapeCasts S1x21
  broadcasts_S1x21_S5000x21 : S1x21.Broadcasts S5000x21
  bcast_S_S64 : S_.BroadcastsInDim S64 (![] : Fin 0 → Fin S64.rank)
  bcast_S100000_S100000x1_0 : S100000.BroadcastsInDim S100000x1 (![0] : Fin 1 → Fin S100000x1.rank)
  bcast_S64_S64x1_0 : S64.BroadcastsInDim S64x1 (![0] : Fin 1 → Fin S64x1.rank)
  shapeCasts_S10_S1x10 : S10.ShapeCasts S1x10
  inb_S64x32_S64x32_0_0 : ∀ a, (![0, 0] : Fin 2 → Nat) a + S64x32.size a ≤ S64x32.size a
  h_S64x32 : 0 < S64x32.numel
  shapeCasts_S64x32_S64x32 : S64x32.ShapeCasts S64x32
  iota_S10000x64_d1_w32 : S10000x64.Iotas .tc 32 [1]
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  natLt_1_32 : 1 < 32
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x32 : S64x1.Broadcasts S64x32
  inb_S32x10_S32x10_0_0 : ∀ a, (![0, 0] : Fin 2 → Nat) a + S32x10.size a ≤ S32x10.size a
  h_S32x10 : 0 < S32x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S64x10 : S1x10.Broadcasts S64x10
  inb_S64x10_S64x10_0_0 : ∀ a, (![0, 0] : Fin 2 → Nat) a + S64x10.size a ≤ S64x10.size a
  h_S64x10 : 0 < S64x10.numel
  scatter_S100000_S3200000x1_S3200000_n_0_0_1_wf : ScatterDims.WF S100000 S3200000x1 S3200000 [] [0] [0] 1
  dot_S10000x64_S64x16_S10000x16_1_0_0_1_n_n_wf : DotDims.WF S10000x64 S64x16 S10000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S5000x64_S64x16_S5000x16_1_0_0_1_n_n_wf : DotDims.WF S5000x64 S64x16 S5000x16 [1] [0] [0] [1] [] []
  dot_S5000x16_S16x32_S5000x32_1_0_0_1_n_n_wf : DotDims.WF S5000x16 S16x32 S5000x32 [1] [0] [0] [1] [] []
  dot_S10000x32_S32x21_S10000x21_1_0_0_1_n_n_wf : DotDims.WF S10000x32 S32x21 S10000x21 [1] [0] [0] [1] [] []
  gather_S100000x21_S3200000x1_S3200000x21_1_0_n_n_0_1_121_wf : GatherDims.WF S100000x21 S3200000x1 S3200000x21 [1] [0] [] [0] [] 1 ![1, 21]
  scatter_S100000x21_S3200000x1_S3200000x21_1_0_0_1_wf : ScatterDims.WF S100000x21 S3200000x1 S3200000x21 [1] [0] [0] 1
  dot_S5000x32_S32x21_S5000x21_1_0_0_1_n_n_wf : DotDims.WF S5000x32 S32x21 S5000x21 [1] [0] [0] [1] [] []
  scatter_S64_S100000x1_S100000_n_0_0_1_wf : ScatterDims.WF S64 S100000x1 S100000 [] [0] [0] 1
  dot_S10000x64_S10000x32_S64x32_0_0_1_1_n_n_wf : DotDims.WF S10000x64 S10000x32 S64x32 [0] [0] [1] [1] [] []
  dot_S64x32_S32x10_S64x10_1_0_0_1_n_n_wf : DotDims.WF S64x32 S32x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x16.size a ≤ S64x16.size a
  hwx0_1 : ∀ i : grid0.Coords, EltTy.bits .f32 = 32 ∨ (Rect.block (s := S64x16) S64x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S100000x16.size a
  hwx0_2 : ∀ i : grid0.Coords, EltTy.bits .f32 = 32 ∨ (Rect.block (s := S100000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x16.size a ≤ S64x16.size a
  hwx1_3 : ∀ i : grid1.Coords, EltTy.bits .f32 = 32 ∨ (Rect.block (s := S64x16) S64x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x16.size a ≤ S1x16.size a
  hwx1_4 : ∀ i : grid1.Coords, EltTy.bits .f32 = 32 ∨ (Rect.block (s := S1x16) S1x16.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x16.size a ≤ S100000x16.size a
  hwx1_5 : ∀ i : grid1.Coords, EltTy.bits .f32 = 32 ∨ (Rect.block (s := S100000x16) S5000x16.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S100000x16.size a
  hwx2_0 : ∀ i : grid2.Coords, EltTy.bits .f32 = 32 ∨ (Rect.block (s := S100000x16) S5000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x16.size a ≤ S100000x16.size a
  hwx2_1 : ∀ i : grid2.Coords, EltTy.bits .f32 = 32 ∨ (Rect.block (s := S100000x16) S5000x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S16x32.size a ≤ S16x32.size a
  hwx2_3 : ∀ i : grid2.Coords, EltTy.bits .f32 = 32 ∨ (Rect.block (s := S16x32) S16x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x32.size a ≤ S1x32.size a
  hwx2_4 : ∀ i : grid2.Coords, EltTy.bits .f32 = 32 ∨ (Rect.block (s := S1x32) S1x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S16x32.size a ≤ S16x32.size a
  hwx2_5 : ∀ i : grid2.Coords, EltTy.bits .f32 = 32 ∨ (Rect.block (s := S16x32) S16x32.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x32.size a ≤ S100000x32.size a
  hwx2_6 : ∀ i : grid2.Coords, EltTy.bits .f32 = 32 ∨ (Rect.block (s := S100000x32) S5000x32.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x32.size a ≤ S100000x32.size a
  hwx2_7 : ∀ i : grid2.Coords, EltTy.bits .f32 = 32 ∨ (Rect.block (s := S100000x32) S5000x32.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x32.size a ≤ S100000x32.size a
  hwx3_0 : ∀ i : grid3.Coords, EltTy.bits .f32 = 32 ∨ (Rect.block (s := S100000x32) S10000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S32x21.size a ≤ S32x21.size a
  hwx3_1 : ∀ i : grid3.Coords, EltTy.bits .f32 = 32 ∨ (Rect.block (s := S32x21) S32x21.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x21.size a ≤ S100000x21.size a
  hwx3_2 : ∀ i : grid3.Coords, EltTy.bits .f32 = 32 ∨ (Rect.block (s := S100000x21) S10000x21.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x21.size a ≤ S100000x21.size a
  hwx4_0 : ∀ i : grid4.Coords, EltTy.bits .f32 = 32 ∨ (Rect.block (s := S100000x21) S5000x21.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x32.size a ≤ S100000x32.size a
  hwx4_1 : ∀ i : grid4.Coords, EltTy.bits .f32 = 32 ∨ (Rect.block (s := S100000x32) S5000x32.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S100000x1.size a
  hwx4_2 : ∀ i : grid4.Coords, EltTy.bits .f32 = 32 ∨ (Rect.block (s := S100000x1) S5000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S32x21.size a ≤ S32x21.size a
  hwx4_3 : ∀ i : grid4.Coords, EltTy.bits .f32 = 32 ∨ (Rect.block (s := S32x21) S32x21.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x21.size a ≤ S1x21.size a
  hwx4_4 : ∀ i : grid4.Coords, EltTy.bits .f32 = 32 ∨ (Rect.block (s := S1x21) S1x21.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x21.size a ≤ S100000x21.size a
  hwx4_5 : ∀ i : grid4.Coords, EltTy.bits .f32 = 32 ∨ (Rect.block (s := S100000x21) S5000x21.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x1.size a ≤ S100000x1.size a
  hwx5_0 : ∀ i : grid5.Coords, EltTy.bits .i32 = 32 ∨ (Rect.block (s := S100000x1) S10000x1.size (cc5_transform_0 i) (hinb5_0 i)).WholeWords (EltTy.packing .i32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x32.size a ≤ S100000x32.size a
  hwx5_1 : ∀ i : grid5.Coords, EltTy.bits .f32 = 32 ∨ (Rect.block (s := S100000x32) S10000x32.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x1.size a ≤ S64x1.size a
  hwx5_2 : ∀ i : grid5.Coords, EltTy.bits .f32 = 32 ∨ (Rect.block (s := S64x1) S64x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S32x10.size a ≤ S32x10.size a
  hwx5_3 : ∀ i : grid5.Coords, EltTy.bits .f32 = 32 ∨ (Rect.block (s := S32x10) S32x10.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x10.size a ≤ S1x10.size a
  hwx5_4 : ∀ i : grid5.Coords, EltTy.bits .f32 = 32 ∨ (Rect.block (s := S1x10) S1x10.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S64x10.size a ≤ S64x10.size a
  hwx5_5 : ∀ i : grid5.Coords, EltTy.bits .f32 = 32 ∨ (Rect.block (s := S64x10) S64x10.size (cc5_transform_5 i) (hinb5_5 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf
def dot_S5000x16_S16x32_S5000x32_1_0_0_1_n_n : DotDims S5000x16 S16x32 S5000x32 where
  lhsContracting := [1]
  rhsContracting := [0]
  lhsNonContracting := [0]
  rhsNonContracting := [1]
  lhsBatch := []
  rhsBatch := []
  wf := dot_S5000x16_S16x32_S5000x32_1_0_0_1_n_n_wf
def dot_S10000x32_S32x21_S10000x21_1_0_0_1_n_n : DotDims S10000x32 S32x21 S10000x21 where
  lhsContracting := [1]
  rhsContracting := [0]
  lhsNonContracting := [0]
  rhsNonContracting := [1]
  lhsBatch := []
  rhsBatch := []
  wf := dot_S10000x32_S32x21_S10000x21_1_0_0_1_n_n_wf
def gather_S100000x21_S3200000x1_S3200000x21_1_0_n_n_0_1_121 : GatherDims S100000x21 S3200000x1 S3200000x21 where
  offsetDims := [1]
  collapsedSliceDims := [0]
  operandBatchingDims := []
  startIndicesBatchingDims := []
  startIndexMap := [0]
  indexVectorDim := 1
  sliceSizes := ![1, 21]
  wf := gather_S100000x21_S3200000x1_S3200000x21_1_0_n_n_0_1_121_wf
def scatter_S100000x21_S3200000x1_S3200000x21_1_0_0_1 : ScatterDims S100000x21 S3200000x1 S3200000x21 where
  updateWindowDims := [1]
  insertedWindowDims := [0]
  scatterDimsToOperandDims := [0]
  indexVectorDim := 1
  wf := scatter_S100000x21_S3200000x1_S3200000x21_1_0_0_1_wf
def dot_S5000x32_S32x21_S5000x21_1_0_0_1_n_n : DotDims S5000x32 S32x21 S5000x21 where
  lhsContracting := [1]
  rhsContracting := [0]
  lhsNonContracting := [0]
  rhsNonContracting := [1]
  lhsBatch := []
  rhsBatch := []
  wf := dot_S5000x32_S32x21_S5000x21_1_0_0_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S10000x64_S10000x32_S64x32_0_0_1_1_n_n : DotDims S10000x64 S10000x32 S64x32 where
  lhsContracting := [0]
  rhsContracting := [0]
  lhsNonContracting := [1]
  rhsNonContracting := [1]
  lhsBatch := []
  rhsBatch := []
  wf := dot_S10000x64_S10000x32_S64x32_0_0_1_1_n_n_wf
def dot_S64x32_S32x10_S64x10_1_0_0_1_n_n : DotDims S64x32 S32x10 S64x10 where
  lhsContracting := [1]
  rhsContracting := [0]
  lhsNonContracting := [0]
  rhsNonContracting := [1]
  lhsBatch := []
  rhsBatch := []
  wf := dot_S64x32_S32x10_S64x10_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v23) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S1x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S5000x16.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v35) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25) S5000x16.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S16x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v36) S1x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg8) S16x32.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v37_0) S5000x32.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v37_1) S5000x32.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v37_1) S10000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S32x21.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v38) S10000x21.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v48) S5000x21.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v37_1) S5000x32.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v12) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg11) S32x21.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v49) S1x21.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v50) S5000x21.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v51) S10000x1.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v37_0) S10000x32.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v56) S64x1.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg12) S32x10.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v57) S1x10.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v58) S64x10.size cc5_transform_5 reads5_5 true true 1 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev idle5 : Fin 6 → grid5.Coords → Bool := fun | 0 => fun _ => false | 1 => fun _ => false | 2 => fun _ => false | 3 => fun _ => false | 4 => fun _ => false | 5 => fun i => !(k5_cond2 i == 1#1) | ⟨_ + 6, h⟩ => absurd h (Nat.not_lt.2 (Nat.le_add_left _ _))

class Facts : Prop extends Facts₀ where

variable [Facts]
-- ==== ReferenceIdeal.lean ====
abbrev S100000x64 : Shape := ⟨2, ![100000, 64]⟩
abbrev S2x3200000 : Shape := ⟨2, ![2, 3200000]⟩
abbrev S100000 : Shape := ⟨1, ![100000]⟩
abbrev S64x16 : Shape := ⟨2, ![64, 16]⟩
abbrev S16 : Shape := ⟨1, ![16]⟩
abbrev S16x32 : Shape := ⟨2, ![16, 32]⟩
abbrev S32 : Shape := ⟨1, ![32]⟩
abbrev S32x21 : Shape := ⟨2, ![32, 21]⟩
abbrev S21 : Shape := ⟨1, ![21]⟩
abbrev S32x10 : Shape := ⟨2, ![32, 10]⟩
abbrev S10 : Shape := ⟨1, ![10]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x64 : Shape := ⟨2, ![3200000, 64]⟩
abbrev S100000x1 : Shape := ⟨2, ![100000, 1]⟩
abbrev S100000x16 : Shape := ⟨2, ![100000, 16]⟩
abbrev S1x16 : Shape := ⟨2, ![1, 16]⟩
abbrev S3200000x16 : Shape := ⟨2, ![3200000, 16]⟩
abbrev S100000x32 : Shape := ⟨2, ![100000, 32]⟩
abbrev S1x32 : Shape := ⟨2, ![1, 32]⟩
abbrev S3200000x32 : Shape := ⟨2, ![3200000, 32]⟩
abbrev S100000x21 : Shape := ⟨2, ![100000, 21]⟩
abbrev S1x21 : Shape := ⟨2, ![1, 21]⟩
abbrev S64x32 : Shape := ⟨2, ![64, 32]⟩
abbrev S64 : Shape := ⟨1, ![64]⟩
abbrev S64x1 : Shape := ⟨2, ![64, 1]⟩
abbrev S64x10 : Shape := ⟨2, ![64, 10]⟩
abbrev S1x10 : Shape := ⟨2, ![1, 10]⟩

abbrev nBuf : Space → Nat
  | .hbm => 137
  | .vmem => 0
  | .smem => 0
  | _ => 0

abbrev hbmTy0_0 (i : Nat) : BufTy := match i % 128 with
  | 0 => ⟨S100000x64, .f32⟩
  | 1 => ⟨S2x3200000, .i32⟩
  | 2 => ⟨S100000, .i32⟩
  | 3 => ⟨S64x16, .f32⟩
  | 4 => ⟨S16, .f32⟩
  | 5 => ⟨S64x16, .f32⟩
  | 6 => ⟨S16x32, .f32⟩
  | 7 => ⟨S32, .f32⟩
  | 8 => ⟨S16x32, .f32⟩
  | 9 => ⟨S32x21, .f32⟩
  | 10 => ⟨S21, .f32⟩
  | 11 => ⟨S32x21, .f32⟩
  | 12 => ⟨S32x10, .f32⟩
  | 13 => ⟨S10, .f32⟩
  | 14 => ⟨S1x3200000, .i32⟩
  | 15 => ⟨S3200000, .i32⟩
  | 16 => ⟨S1x3200000, .i32⟩
  | 17 => ⟨S3200000, .i32⟩
  | 18 => ⟨S_, .i32⟩
  | 19 => ⟨S3200000, .i32⟩
  | 20 => ⟨S3200000, .i1⟩
  | 21 => ⟨S_, .i32⟩
  | 22 => ⟨S3200000, .i32⟩
  | 23 => ⟨S3200000, .i32⟩
  | 24 => ⟨S3200000, .i32⟩
  | 25 => ⟨S3200000x1, .i32⟩
  | 26 => ⟨S3200000x64, .f32⟩
  | 27 => ⟨S_, .f32⟩
  | 28 => ⟨S100000x64, .f32⟩
  | 29 => ⟨S3200000x1, .i32⟩
  | 30 => ⟨S100000x64, .f32⟩
  | 31 => ⟨S_, .f32⟩
  | 32 => ⟨S3200000, .f32⟩
  | 33 => ⟨S_, .f32⟩
  | 34 => ⟨S100000, .f32⟩
  | 35 => ⟨S3200000x1, .i32⟩
  | 36 => ⟨S100000, .f32⟩
  | 37 => ⟨S_, .f32⟩
  | 38 => ⟨S100000, .f32⟩
  | 39 => ⟨S100000, .f32⟩
  | 40 => ⟨S100000x1, .f32⟩
  | 41 => ⟨S100000x64, .f32⟩
  | 42 => ⟨S100000x64, .f32⟩
  | 43 => ⟨S100000x16, .f32⟩
  | 44 => ⟨S1x16, .f32⟩
  | 45 => ⟨S100000x16, .f32⟩
  | 46 => ⟨S100000x16, .f32⟩
  | 47 => ⟨S100000x16, .f32⟩
  | 48 => ⟨S100000x16, .f32⟩
  | 49 => ⟨S_, .f32⟩
  | 50 => ⟨S100000x16, .f32⟩
  | 51 => ⟨S100000x16, .f32⟩
  | 52 => ⟨S_, .i32⟩
  | 53 => ⟨S3200000, .i32⟩
  | 54 => ⟨S3200000, .i1⟩
  | 55 => ⟨S_, .i32⟩
  | 56 => ⟨S3200000, .i32⟩
  | 57 => ⟨S3200000, .i32⟩
  | 58 => ⟨S3200000, .i32⟩
  | 59 => ⟨S3200000x1, .i32⟩
  | 60 => ⟨S3200000x16, .f32⟩
  | 61 => ⟨S_, .f32⟩
  | 62 => ⟨S100000x16, .f32⟩
  | 63 => ⟨S3200000x1, .i32⟩
  | 64 => ⟨S100000x16, .f32⟩
  | 65 => ⟨S_, .f32⟩
  | 66 => ⟨S3200000, .f32⟩
  | 67 => ⟨S_, .f32⟩
  | 68 => ⟨S100000, .f32⟩
  | 69 => ⟨S3200000x1, .i32⟩
  | 70 => ⟨S100000, .f32⟩
  | 71 => ⟨S_, .f32⟩
  | 72 => ⟨S100000, .f32⟩
  | 73 => ⟨S100000, .f32⟩
  | 74 => ⟨S100000x1, .f32⟩
  | 75 => ⟨S100000x16, .f32⟩
  | 76 => ⟨S100000x16, .f32⟩
  | 77 => ⟨S100000x32, .f32⟩
  | 78 => ⟨S1x32, .f32⟩
  | 79 => ⟨S100000x32, .f32⟩
  | 80 => ⟨S100000x32, .f32⟩
  | 81 => ⟨S100000x32, .f32⟩
  | 82 => ⟨S100000x32, .f32⟩
  | 83 => ⟨S_, .f32⟩
  | 84 => ⟨S100000x32, .f32⟩
  | 85 => ⟨S100000x32, .f32⟩
  | 86 => ⟨S_, .i32⟩
  | 87 => ⟨S3200000, .i32⟩
  | 88 => ⟨S3200000, .i1⟩
  | 89 => ⟨S_, .i32⟩
  | 90 => ⟨S3200000, .i32⟩
  | 91 => ⟨S3200000, .i32⟩
  | 92 => ⟨S3200000, .i32⟩
  | 93 => ⟨S3200000x1, .i32⟩
  | 94 => ⟨S3200000x32, .f32⟩
  | 95 => ⟨S_, .f32⟩
  | 96 => ⟨S100000x32, .f32⟩
  | 97 => ⟨S3200000x1, .i32⟩
  | 98 => ⟨S100000x32, .f32⟩
  | 99 => ⟨S_, .f32⟩
  | 100 => ⟨S3200000, .f32⟩
  | 101 => ⟨S_, .f32⟩
  | 102 => ⟨S100000, .f32⟩
  | 103 => ⟨S3200000x1, .i32⟩
  | 104 => ⟨S100000, .f32⟩
  | 105 => ⟨S_, .f32⟩
  | 106 => ⟨S100000, .f32⟩
  | 107 => ⟨S100000, .f32⟩
  | 108 => ⟨S100000x1, .f32⟩
  | 109 => ⟨S100000x32, .f32⟩
  | 110 => ⟨S100000x32, .f32⟩
  | 111 => ⟨S100000x21, .f32⟩
  | 112 => ⟨S1x21, .f32⟩
  | 113 => ⟨S100000x21, .f32⟩
  | 114 => ⟨S100000x21, .f32⟩
  | 115 => ⟨S100000x21, .f32⟩
  | 116 => ⟨S100000x21, .f32⟩
  | 117 => ⟨S_, .f32⟩
  | 118 => ⟨S64x32, .f32⟩
  | 119 => ⟨S100000x1, .i32⟩
  | 120 => ⟨S64x32, .f32⟩
  | 121 => ⟨S_, .f32⟩
  | 122 => ⟨S100000, .f32⟩
  | 123 => ⟨S_, .f32⟩
  | 124 => ⟨S64, .f32⟩
  | 125 => ⟨S100000x1, .i32⟩
  | 126 => ⟨S64, .f32⟩
  | 127 => ⟨S_, .f32⟩
  | _ => ⟨S100000x64, .f32⟩

abbrev hbmTy0_1 (i : Nat) : BufTy := match i % 128 with
  | 0 => ⟨S64, .f32⟩
  | 1 => ⟨S64, .f32⟩
  | 2 => ⟨S64x1, .f32⟩
  | 3 => ⟨S64x32, .f32⟩
  | 4 => ⟨S64x32, .f32⟩
  | 5 => ⟨S64x10, .f32⟩
  | 6 => ⟨S1x10, .f32⟩
  | 7 => ⟨S64x10, .f32⟩
  | 8 => ⟨S64x10, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_call0_cst : Ref sig .tc := ⟨.hbm, 49, rfl⟩
abbrev main_call0_v0 : Ref sig .tc := ⟨.hbm, 50, rfl⟩
abbrev main_v29 : Ref sig .tc := ⟨.hbm, 51, rfl⟩
abbrev main_c_4 : Ref sig .tc := ⟨.hbm, 52, rfl⟩
abbrev main_v30 : Ref sig .tc := ⟨.hbm, 53, rfl⟩
abbrev main_v31 : Ref sig .tc := ⟨.hbm, 54, rfl⟩
abbrev main_c_5 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_6 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_7 : Ref sig .tc := ⟨.hbm, 65, rfl⟩
abbrev main_v40 : Ref sig .tc := ⟨.hbm, 66, rfl⟩
abbrev main_cst_8 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_9 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_call1_cst : Ref sig .tc := ⟨.hbm, 83, rfl⟩
abbrev main_call1_v0 : Ref sig .tc := ⟨.hbm, 84, rfl⟩
abbrev main_v55 : Ref sig .tc := ⟨.hbm, 85, rfl⟩
abbrev main_c_10 : Ref sig .tc := ⟨.hbm, 86, rfl⟩
abbrev main_v56 : Ref sig .tc := ⟨.hbm, 87, rfl⟩
abbrev main_v57 : Ref sig .tc := ⟨.hbm, 88, rfl⟩
abbrev main_c_11 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_12 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_13 : Ref sig .tc := ⟨.hbm, 99, rfl⟩
abbrev main_v66 : Ref sig .tc := ⟨.hbm, 100, rfl⟩
abbrev main_cst_14 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_cst_15 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_cst_16 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_cst_17 : Ref sig .tc := ⟨.hbm, 121, rfl⟩
abbrev main_v84 : Ref sig .tc := ⟨.hbm, 122, rfl⟩
abbrev main_cst_18 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_cst_19 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S21_S1x21_1 : S21.BroadcastsInDim S1x21 (![1] : Fin 1 → Fin S1x21.rank)
  bcast_S1x21_S100000x21_0_1 : S1x21.BroadcastsInDim S100000x21 (![0, 1] : Fin 2 → Fin S100000x21.rank)
  bcast_S_S64x32 : S_.BroadcastsInDim S64x32 (![] : Fin 0 → Fin S64x32.rank)
  bcast_S_S64 : S_.BroadcastsInDim S64 (![] : Fin 0 → Fin S64.rank)
  bcast_S64_S64x1_0 : S64.BroadcastsInDim S64x1 (![0] : Fin 1 → Fin S64x1.rank)
  bcast_S64x1_S64x32_0_1 : S64x1.BroadcastsInDim S64x32 (![0, 1] : Fin 2 → Fin S64x32.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  scatter_S100000_S3200000x1_S3200000_n_0_0_1_wf : ScatterDims.WF S100000 S3200000x1 S3200000 [] [0] [0] 1
  dot_S100000x64_S64x16_S100000x16_1_0_0_1_n_n_wf : DotDims.WF S100000x64 S64x16 S100000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S100000x16_S16x32_S100000x32_1_0_0_1_n_n_wf : DotDims.WF S100000x16 S16x32 S100000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S100000x32_S32x21_S100000x21_1_0_0_1_n_n_wf : DotDims.WF S100000x32 S32x21 S100000x21 [1] [0] [0] [1] [] []
  scatter_S64x32_S100000x1_S100000x32_1_0_0_1_wf : ScatterDims.WF S64x32 S100000x1 S100000x32 [1] [0] [0] 1
  scatter_S64_S100000x1_S100000_n_0_0_1_wf : ScatterDims.WF S64 S100000x1 S100000 [] [0] [0] 1
  dot_S64x32_S32x10_S64x10_1_0_0_1_n_n_wf : DotDims.WF S64x32 S32x10 S64x10 [1] [0] [0] [1] [] []

variable [Facts₀]

def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S100000x16_S16x32_S100000x32_1_0_0_1_n_n : DotDims S100000x16 S16x32 S100000x32 where
  lhsContracting := [1]
  rhsContracting := [0]
  lhsNonContracting := [0]
  rhsNonContracting := [1]
  lhsBatch := []
  rhsBatch := []
  wf := dot_S100000x16_S16x32_S100000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S100000x32_S32x21_S100000x21_1_0_0_1_n_n : DotDims S100000x32 S32x21 S100000x21 where
  lhsContracting := [1]
  rhsContracting := [0]
  lhsNonContracting := [0]
  rhsNonContracting := [1]
  lhsBatch := []
  rhsBatch := []
  wf := dot_S100000x32_S32x21_S100000x21_1_0_0_1_n_n_wf
def scatter_S64x32_S100000x1_S100000x32_1_0_0_1 : ScatterDims S64x32 S100000x1 S100000x32 where
  updateWindowDims := [1]
  insertedWindowDims := [0]
  scatterDimsToOperandDims := [0]
  indexVectorDim := 1
  wf := scatter_S64x32_S100000x1_S100000x32_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x32_S32x10_S64x10_1_0_0_1_n_n : DotDims S64x32 S32x10 S64x10 where
  lhsContracting := [1]
  rhsContracting := [0]
  lhsNonContracting := [0]
  rhsNonContracting := [1]
  lhsBatch := []
  rhsBatch := []
  wf := dot_S64x32_S32x10_S64x10_1_0_0_1_n_n_wf

class Facts : Prop extends Facts₀ where

variable [Facts]
-- ==== Proof.K.R0.lean ====
import proofs.«418024_j36704790511896_3_alg».proof.Proof.Gen.Kernel.Launch
import proofs.«418024_j36704790511896_3_alg».proof.Proof.Gen.Kernel.Skeleton
import proofs.«418024_j36704790511896_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 0: what the body leaves in its output block as a function of its input blocks, and the body's triple. -/

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S10000x64 := Rect.unit (s := S10000x64) ![0, 0] S10000x64.size inb_S10000x64_S10000x64_0_0
abbrev r0_1 : Rect S64x16 := Rect.unit (s := S64x16) ![0, 0] S64x16.size inb_S64x16_S64x16_0_0
abbrev r0_2 : Rect S10000x16 := Rect.unit (s := S10000x16) ![0, 0] S10000x16.size inb_S10000x16_S10000x16_0_0

def out0_2 (x0 : Vec F S10000x64 .f32) (x1 : Vec F S64x16 .f32) : Vec F S10000x16 .f32 :=
  View.canon [⟨r0_2, k0_pay1 (View.ld x0 r0_0) (View.ld x1 r0_1)⟩]

theorem cover0_2 (p0 : Vec F S10000x16 .f32) (y : S10000x16.Idx) :
    ∃ pc ∈ ([⟨r0_2, p0⟩] : List (View.Piece (Elt F) S10000x16 .f32)), y ∈ pc.1.set :=
  View.cover_of_tiled [⟨r0_2, p0⟩] S10000x16.size (by rfl) y

set_option maxHeartbeats 1000000 in
theorem sound_kernel0 (c : Dev nD) (E : Set ℕ) (i : grid0.Coords) (arg1 : Memref sig .tc .vmem S10000x64 .f32) (harg1 : arg1.IsWhole) (arg2 : Memref sig .tc .vmem S64x16 .f32) (harg2 : arg2.IsWhole) (arg3 : Memref sig .tc .vmem S10000x16 .f32) (harg3 : arg3.IsWhole)
    (x0 : Vec F S10000x64 .f32) (x1 : Vec F S64x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__project_kernel i arg1 harg1 arg2 harg2 arg3 harg3) K := by
  simp only [cc0__project_kernel_eq_skeleton]; unfold cc0__project_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0 V c]; unfold Dat.blockOf iblk0; rw [A_eq0 V c]; try rfl) t d).trans
    (by unfold Dat.fetched Dat.blockOf iblk0; rw [A_eq0 V c]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1 V c]; unfold Dat.blockOf iblk0; rw [A_eq0 V c]; try rfl) t d).trans
    (by unfold Dat.fetched Dat.blockOf iblk0; rw [A_eq0 V c]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Reg

end
-- ==== Proof.K.R1.lean ====
import proofs.«418024_j36704790511896_3_alg».proof.Proof.Gen.Kernel.Launch
import proofs.«418024_j36704790511896_3_alg».proof.Proof.Gen.Kernel.Skeleton
import proofs.«418024_j36704790511896_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 1: what the body leaves in its output block as a function of its input blocks, and the body's triple. -/

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S5000x16 := Rect.unit (s := S5000x16) ![0, 0] S5000x16.size inb_S5000x16_S5000x16_0_0
abbrev r1_1 : Rect S5000x64 := Rect.unit (s := S5000x64) ![0, 0] S5000x64.size inb_S5000x64_S5000x64_0_0
abbrev r1_2 : Rect S5000x1 := Rect.unit (s := S5000x1) ![0, 0] S5000x1.size inb_S5000x1_S5000x1_0_0
abbrev r1_3 : Rect S64x16 := Rect.unit (s := S64x16) ![0, 0] S64x16.size inb_S64x16_S64x16_0_0
abbrev r1_4 : Rect S1x16 := Rect.unit (s := S1x16) ![0, 0] S1x16.size inb_S1x16_S1x16_0_0

def out1_5 (x0 : Vec F S5000x16 .f32) (x1 : Vec F S5000x64 .f32) (x2 : Vec F S5000x1 .f32) (x3 : Vec F S64x16 .f32) (x4 : Vec F S1x16 .f32) : Vec F S5000x16 .f32 :=
  View.canon [⟨r1_0, k1_pay1 (View.ld x0 r1_0) (View.ld x2 r1_2) (View.ld x1 r1_1) (View.ld x3 r1_3) (View.ld x4 r1_4)⟩]

theorem cover1_5 (p0 : Vec F S5000x16 .f32) (y : S5000x16.Idx) :
    ∃ pc ∈ ([⟨r1_0, p0⟩] : List (View.Piece (Elt F) S5000x16 .f32)), y ∈ pc.1.set :=
  View.cover_of_tiled [⟨r1_0, p0⟩] S5000x16.size (by rfl) y

set_option maxHeartbeats 1000000 in
theorem sound_kernel1 (c : Dev nD) (E : Set ℕ) (i : grid1.Coords) (arg1 : Memref sig .tc .vmem S5000x16 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64x16 .f32) (harg4 : arg4.IsWhole) (arg5 : Memref sig .tc .vmem S1x16 .f32) (harg5 : arg5.IsWhole) (arg6 : Memref sig .tc .vmem S5000x16 .f32) (harg6 : arg6.IsWhole)
    (x0 : Vec F S5000x16 .f32) (x1 : Vec F S5000x64 .f32) (x2 : Vec F S5000x1 .f32) (x3 : Vec F S64x16 .f32) (x4 : Vec F S1x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__combine_proj_kernel i arg1 harg1 arg2 harg2 arg3 harg3 arg4 harg4 arg5 harg5 arg6 harg6) K := by
  simp only [cc1__combine_proj_kernel_eq_skeleton]; unfold cc1__combine_proj_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0 V c]; unfold Dat.blockOf iblk1; rw [A_eq1 V c]; try rfl) t d).trans
    (by unfold Dat.fetched Dat.blockOf iblk1; rw [A_eq1 V c]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1 V c]; unfold Dat.blockOf iblk1; rw [A_eq1 V c]; try rfl) t d).trans
    (by unfold Dat.fetched Dat.blockOf iblk1; rw [A_eq1 V c]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2 V c]; unfold Dat.blockOf iblk1; rw [A_eq1 V c]; try rfl) t d).trans
    (by unfold Dat.fetched Dat.blockOf iblk1; rw [A_eq1 V c]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3 V c]; unfold Dat.blockOf iblk1; rw [A_eq1 V c]; try rfl) t d).trans
    (by unfold Dat.fetched Dat.blockOf iblk1; rw [A_eq1 V c]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4 V c]; unfold Dat.blockOf iblk1; rw [A_eq1 V c]; try rfl) t d).trans
    (by unfold Dat.fetched Dat.blockOf iblk1; rw [A_eq1 V c]; try rfl)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

end Cert.Kernel.Reg

end
-- ==== Proof.K.R2.lean ====
import proofs.«418024_j36704790511896_3_alg».proof.Proof.Gen.Kernel.Launch
import proofs.«418024_j36704790511896_3_alg».proof.Proof.Gen.Kernel.Skeleton
import proofs.«418024_j36704790511896_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 2: what the body leaves in its output blocks as a function of its input blocks, and the body's triple. -/

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S5000x16 := Rect.unit (s := S5000x16) ![0, 0] S5000x16.size inb_S5000x16_S5000x16_0_0
abbrev r2_1 : Rect S5000x1 := Rect.unit (s := S5000x1) ![0, 0] S5000x1.size inb_S5000x1_S5000x1_0_0
abbrev r2_2 : Rect S16x32 := Rect.unit (s := S16x32) ![0, 0] S16x32.size inb_S16x32_S16x32_0_0
abbrev r2_3 : Rect S1x32 := Rect.unit (s := S1x32) ![0, 0] S1x32.size inb_S1x32_S1x32_0_0
abbrev r2_4 : Rect S5000x32 := Rect.unit (s := S5000x32) ![0, 0] S5000x32.size inb_S5000x32_S5000x32_0_0

def out2_6 (x0 : Vec F S5000x16 .f32) (x1 : Vec F S5000x16 .f32) (x2 : Vec F S5000x1 .f32) (x3 : Vec F S16x32 .f32)
    (x4 : Vec F S1x32 .f32) (x5 : Vec F S16x32 .f32) : Vec F S5000x32 .f32 :=
  View.canon [⟨r2_4, k2_pay1 (View.ld x0 r2_0) (View.ld x2 r2_1) (View.ld x3 r2_2) (View.ld x1 r2_0) (View.ld x5 r2_2) (View.ld x4 r2_3)⟩]

def out2_7 (x0 : Vec F S5000x16 .f32) (x1 : Vec F S5000x16 .f32) (x2 : Vec F S5000x1 .f32) (x3 : Vec F S16x32 .f32)
    (x4 : Vec F S1x32 .f32) (x5 : Vec F S16x32 .f32) : Vec F S5000x32 .f32 :=
  View.canon [⟨r2_4, k2_pay2 (View.ld x0 r2_0) (View.ld x2 r2_1) (View.ld x3 r2_2) (View.ld x1 r2_0) (View.ld x5 r2_2) (View.ld x4 r2_3)⟩]

theorem cover2_6 (p0 : Vec F S5000x32 .f32) (y : S5000x32.Idx) :
    ∃ pc ∈ ([⟨r2_4, p0⟩] : List (View.Piece (Elt F) S5000x32 .f32)), y ∈ pc.1.set :=
  View.cover_of_tiled [⟨r2_4, p0⟩] S5000x32.size (by rfl) y
theorem cover2_7 (p0 : Vec F S5000x32 .f32) (y : S5000x32.Idx) :
    ∃ pc ∈ ([⟨r2_4, p0⟩] : List (View.Piece (Elt F) S5000x32 .f32)), y ∈ pc.1.set :=
  View.cover_of_tiled [⟨r2_4, p0⟩] S5000x32.size (by rfl) y

set_option maxHeartbeats 4000000 in
theorem sound_kernel2 (c : Dev nD) (E : Set ℕ) (i : grid2.Coords)
    (arg1 : Memref sig .tc .vmem S5000x16 .f32) (harg1 : arg1.IsWhole) (arg2 : Memref sig .tc .vmem S5000x16 .f32) (harg2 : arg2.IsWhole)
    (arg3 : Memref sig .tc .vmem S5000x1 .f32) (harg3 : arg3.IsWhole) (arg4 : Memref sig .tc .vmem S16x32 .f32) (harg4 : arg4.IsWhole)
    (arg5 : Memref sig .tc .vmem S1x32 .f32) (harg5 : arg5.IsWhole) (arg6 : Memref sig .tc .vmem S16x32 .f32) (harg6 : arg6.IsWhole)
    (arg7 : Memref sig .tc .vmem S5000x32 .f32) (harg7 : arg7.IsWhole) (arg8 : Memref sig .tc .vmem S5000x32 .f32) (harg8 : arg8.IsWhole)
    (x0 : Vec F S5000x16 .f32) (x1 : Vec F S5000x16 .f32) (x2 : Vec F S5000x1 .f32) (x3 : Vec F S16x32 .f32)
    (x4 : Vec F S1x32 .f32) (x5 : Vec F S16x32 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5)
            ∗ owns (c : Thread nD τ) arg8 fullShare (out2_7 x0 x1 x2 x3 x4 x5)) -∗ K ⟨⟩))
      ⊢ wp frame (wpE (defs₀ (F := F)) Variants.none c none) E (cc2__combine_mean_kernel i arg1 harg1 arg2 harg2 arg3 harg3 arg4 harg4 arg5 harg5 arg6 harg6 arg7 harg7 arg8 harg8) K := by
  simp only [cc2__combine_mean_kernel_eq_skeleton]; unfold cc2__combine_mean_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover2_6 _)
  iexists _; isplitr
  swap; · iexact H7
  ipureintro
  exact View.read_writes_eq_canon _ _ _ (cover2_7 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
    | ⟨7, _⟩ => out2_7 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t
    = out2_6 (iblk2 V c 0 t) (iblk2 V c 1 t) (iblk2 V c 2 t) (iblk2 V c 3 t) (iblk2 V c 4 t) (iblk2 V c 5 t) := by dsimp only [dat2]
theorem after2_7 (c : Dev nD) (t : Fin cfg2.N) : (dat2 V c).after 7 t
    = out2_7 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0 V c]; unfold Dat.blockOf iblk2; rw [A_eq2 V c]; try rfl) t d).trans
    (by unfold Dat.fetched Dat.blockOf iblk2; rw [A_eq2 V c]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1 V c]; unfold Dat.blockOf iblk2; rw [A_eq2 V c]; try rfl) t d).trans
    (by unfold Dat.fetched Dat.blockOf iblk2; rw [A_eq2 V c]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2 V c]; unfold Dat.blockOf iblk2; rw [A_eq2 V c]; try rfl) t d).trans
    (by unfold Dat.fetched Dat.blockOf iblk2; rw [A_eq2 V c]; try rfl)
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3 V c]; unfold Dat.blockOf iblk2; rw [A_eq2 V c]; try rfl) t d).trans
    (by unfold Dat.fetched Dat.blockOf iblk2; rw [A_eq2 V c]; try rfl)
theorem before2_4 (c : Dev nD) (t : Fin cfg2.N) (d) : (dat2 V c).before 4 t d = iblk2 V c 4 t :=
  ((dat2 V c).before_in_eq_fetched 4 rfl (fun _ => rfl) (fun _ _ _ => rfl)
    (fun t => by rw [after2_4 V c]; unfold Dat.blockOf iblk2; rw [A_eq2 V c]; try rfl) t d).trans
    (by unfold Dat.fetched Dat.blockOf iblk2; rw [A_eq2 V c]; try rfl)
theorem before2_5 (c : Dev nD) (t : Fin cfg2.N) (d) : (dat2 V c).before 5 t d = iblk2 V c 5 t :=
  ((dat2 V c).before_in_eq_fetched 5 rfl (fun _ => rfl) (fun _ _ _ => rfl)
    (fun t => by rw [after2_5 V c]; unfold Dat.blockOf iblk2; rw [A_eq2 V c]; try rfl) t d).trans
    (by unfold Dat.fetched Dat.blockOf iblk2; rw [A_eq2 V c]; try rfl)

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ (grid2.coords t) _ _ _ _ _ _ _ _ _ _ _ _ _ _ _ _
    (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation2 (c : Dev nD) : BodyObligation (dat2 (F := F) V c) (defs₀ (F := F)) Variants.none () Set.univ := fun t => by
  rw [bigSep_W2, bigSep_W2]
  exact sound_body2 V c t

end Cert.Kernel.Reg

end
-- ==== Proof.K.R3.lean ====
import proofs.«418024_j36704790511896_3_alg».proof.Proof.Gen.Kernel.Launch
import proofs.«418024_j36704790511896_3_alg».proof.Proof.Gen.Kernel.Skeleton
import proofs.«418024_j36704790511896_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 3: what the body leaves in its output block as a function of its input blocks, and the body's triple. -/

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S10000x32 := Rect.unit (s := S10000x32) ![0, 0] S10000x32.size inb_S10000x32_S10000x32_0_0
abbrev r3_1 : Rect S32x21 := Rect.unit (s := S32x21) ![0, 0] S32x21.size inb_S32x21_S32x21_0_0
abbrev r3_2 : Rect S10000x21 := Rect.unit (s := S10000x21) ![0, 0] S10000x21.size inb_S10000x21_S10000x21_0_0

def out3_2 (x0 : Vec F S10000x32 .f32) (x1 : Vec F S32x21 .f32) : Vec F S10000x21 .f32 :=
  View.canon [⟨r3_2, k3_pay1 (View.ld x0 r3_0) (View.ld x1 r3_1)⟩]

theorem cover3_2 (p0 : Vec F S10000x21 .f32) (y : S10000x21.Idx) :
    ∃ pc ∈ ([⟨r3_2, p0⟩] : List (View.Piece (Elt F) S10000x21 .f32)), y ∈ pc.1.set :=
  View.cover_of_tiled [⟨r3_2, p0⟩] S10000x21.size (by rfl) y

set_option maxHeartbeats 1000000 in
theorem sound_kernel3 (c : Dev nD) (E : Set ℕ) (i : grid3.Coords) (arg1 : Memref sig .tc .vmem S10000x32 .f32) (harg1 : arg1.IsWhole) (arg2 : Memref sig .tc .vmem S32x21 .f32) (harg2 : arg2.IsWhole) (arg3 : Memref sig .tc .vmem S10000x21 .f32) (harg3 : arg3.IsWhole)
    (x0 : Vec F S10000x32 .f32) (x1 : Vec F S32x21 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__project_kernel i arg1 harg1 arg2 harg2 arg3 harg3) K := by
  simp only [cc3__project_kernel_eq_skeleton]; unfold cc3__project_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0 V c]; unfold Dat.blockOf iblk3; rw [A_eq3 V c]; try rfl) t d).trans
    (by unfold Dat.fetched Dat.blockOf iblk3; rw [A_eq3 V c]; try rfl)
theorem before3_1 (c : Dev nD) (t : Fin cfg3.N) (d) : (dat3 V c).before 1 t d = iblk3 V c 1 t :=
  ((dat3 V c).before_in_eq_fetched 1 rfl (fun _ => rfl) (fun _ _ _ => rfl)
    (fun t => by rw [after3_1 V c]; unfold Dat.blockOf iblk3; rw [A_eq3 V c]; try rfl) t d).trans
    (by unfold Dat.fetched Dat.blockOf iblk3; rw [A_eq3 V c]; try rfl)

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ (grid3.coords t) _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (c : Dev nD) : BodyObligation (dat3 (F := F) V c) (defs₀ (F := F)) Variants.none () Set.univ := fun t => by
  rw [bigSep_W3, bigSep_W3]
  exact sound_body3 V c t

end Cert.Kernel.Reg

end
-- ==== Proof.K.R4.lean ====
import proofs.«418024_j36704790511896_3_alg».proof.Proof.Gen.Kernel.Launch
import proofs.«418024_j36704790511896_3_alg».proof.Proof.Gen.Kernel.Skeleton
import proofs.«418024_j36704790511896_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 4: what the body leaves in its output block as a function of its input blocks, and the body's triple. -/

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S5000x21 := Rect.unit (s := S5000x21) ![0, 0] S5000x21.size inb_S5000x21_S5000x21_0_0
abbrev r4_1 : Rect S5000x32 := Rect.unit (s := S5000x32) ![0, 0] S5000x32.size inb_S5000x32_S5000x32_0_0
abbrev r4_2 : Rect S5000x1 := Rect.unit (s := S5000x1) ![0, 0] S5000x1.size inb_S5000x1_S5000x1_0_0
abbrev r4_3 : Rect S32x21 := Rect.unit (s := S32x21) ![0, 0] S32x21.size inb_S32x21_S32x21_0_0
abbrev r4_4 : Rect S1x21 := Rect.unit (s := S1x21) ![0, 0] S1x21.size inb_S1x21_S1x21_0_0

def out4_5 (x0 : Vec F S5000x21 .f32) (x1 : Vec F S5000x32 .f32) (x2 : Vec F S5000x1 .f32) (x3 : Vec F S32x21 .f32) (x4 : Vec F S1x21 .f32) : Vec F S5000x21 .f32 :=
  View.canon [⟨r4_0, k4_pay1 (View.ld x0 r4_0) (View.ld x2 r4_2) (View.ld x1 r4_1) (View.ld x3 r4_3) (View.ld x4 r4_4)⟩]

theorem cover4_5 (p0 : Vec F S5000x21 .f32) (y : S5000x21.Idx) :
    ∃ pc ∈ ([⟨r4_0, p0⟩] : List (View.Piece (Elt F) S5000x21 .f32)), y ∈ pc.1.set :=
  View.cover_of_tiled [⟨r4_0, p0⟩] S5000x21.size (by rfl) y

set_option maxHeartbeats 1000000 in
theorem sound_kernel4 (c : Dev nD) (E : Set ℕ) (i : grid4.Coords) (arg1 : Memref sig .tc .vmem S5000x21 .f32) (harg1 : arg1.IsWhole) (arg2 : Memref sig .tc .vmem S5000x32 .f32) (harg2 : arg2.IsWhole) (arg3 : Memref sig .tc .vmem S5000x1 .f32) (harg3 : arg3.IsWhole) (arg4 : Memref sig .tc .vmem S32x21 .f32) (harg4 : arg4.IsWhole) (arg5 : Memref sig .tc .vmem S1x21 .f32) (harg5 : arg5.IsWhole) (arg6 : Memref sig .tc .vmem S5000x21 .f32) (harg6 : arg6.IsWhole)
    (x0 : Vec F S5000x21 .f32) (x1 : Vec F S5000x32 .f32) (x2 : Vec F S5000x1 .f32) (x3 : Vec F S32x21 .f32) (x4 : Vec F S1x21 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out4_5 x0 x1 x2 x3 x4)) -∗ K ⟨⟩))
      ⊢ wp frame (wpE (defs₀ (F := F)) Variants.none c none) E (cc4__combine_proj_kernel i arg1 harg1 arg2 harg2 arg3 harg3 arg4 harg4 arg5 harg5 arg6 harg6) K := by
  simp only [cc4__combine_proj_kernel_eq_skeleton]; unfold cc4__combine_proj_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = out4_5 (iblk4 V c 0 t) (iblk4 V c 1 t) (iblk4 V c 2 t) (iblk4 V c 3 t) (iblk4 V c 4 t) := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl)
    (fun t => by rw [after4_0 V c]; unfold Dat.blockOf iblk4; rw [A_eq4 V c]; try rfl) t d).trans
    (by unfold Dat.fetched Dat.blockOf iblk4; rw [A_eq4 V c]; try rfl)
theorem before4_1 (c : Dev nD) (t : Fin cfg4.N) (d) : (dat4 V c).before 1 t d = iblk4 V c 1 t :=
  ((dat4 V c).before_in_eq_fetched 1 rfl (fun _ => rfl) (fun _ _ _ => rfl)
    (fun t => by rw [after4_1 V c]; unfold Dat.blockOf iblk4; rw [A_eq4 V c]; try rfl) t d).trans
    (by unfold Dat.fetched Dat.blockOf iblk4; rw [A_eq4 V c]; try rfl)
theorem before4_2 (c : Dev nD) (t : Fin cfg4.N) (d) : (dat4 V c).before 2 t d = iblk4 V c 2 t :=
  ((dat4 V c).before_in_eq_fetched 2 rfl (fun _ => rfl) (fun _ _ _ => rfl)
    (fun t => by rw [after4_2 V c]; unfold Dat.blockOf iblk4; rw [A_eq4 V c]; try rfl) t d).trans
    (by unfold Dat.fetched Dat.blockOf iblk4; rw [A_eq4 V c]; try rfl)
theorem before4_3 (c : Dev nD) (t : Fin cfg4.N) (d) : (dat4 V c).before 3 t d = iblk4 V c 3 t :=
  ((dat4 V c).before_in_eq_fetched 3 rfl (fun _ => rfl) (fun _ _ _ => rfl)
    (fun t => by rw [after4_3 V c]; unfold Dat.blockOf iblk4; rw [A_eq4 V c]; try rfl) t d).trans
    (by unfold Dat.fetched Dat.blockOf iblk4; rw [A_eq4 V c]; try rfl)
theorem before4_4 (c : Dev nD) (t : Fin cfg4.N) (d) : (dat4 V c).before 4 t d = iblk4 V c 4 t :=
  ((dat4 V c).before_in_eq_fetched 4 rfl (fun _ => rfl) (fun _ _ _ => rfl)
    (fun t => by rw [after4_4 V c]; unfold Dat.blockOf iblk4; rw [A_eq4 V c]; try rfl) t d).trans
    (by unfold Dat.fetched Dat.blockOf iblk4; rw [A_eq4 V c]; try rfl)

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ (grid4.coords t) _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation4 (c : Dev nD) : BodyObligation (dat4 (F := F) V c) (defs₀ (F := F)) Variants.none () Set.univ := fun t => by
  rw [bigSep_W4, bigSep_W4]
  exact sound_body4 V c t

end Cert.Kernel.Reg

end
-- ==== Proof.K.R5Runs.lean ====
import proofs.«418024_j36704790511896_3_alg».proof.Proof.Gen.Kernel.Launch
import proofs.«418024_j36704790511896_3_alg».proof.Proof.Gen.Kernel.Skeleton
import proofs.«418024_j36704790511896_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 5 (pooling and classifier): its blocks, its branch conditions and the run of each control case. -/

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

end Blocks

abbrev cond5_0 (i : grid5.Coords) : Prop := (Scalar.cmpi .ne (Scalar.extui (Scalar.cmpi .eq (BitVec.ofNat 32 (i 0).val) 0#32)) 0#32) = 1#1

theorem hcond5_0 : ∀ t : Fin cfg5.N, cond5_0 (grid5.coords t) ↔ t.val % 10 = 0 :=
  (by decide +kernel : ∀ t : Fin grid5.N, cond5_0 (grid5.coords t) ↔ t.val % 10 = 0)

abbrev cond5_1 (i : grid5.Coords) : Prop := k5_cond2 i = 1#1

theorem hcond5_1 : ∀ t : Fin cfg5.N, cond5_1 (grid5.coords t) ↔ t.val % 10 = 9 :=
  (by decide +kernel : ∀ t : Fin grid5.N, cond5_1 (grid5.coords t) ↔ t.val % 10 = 9)

theorem liveAt5_0 : ∀ t : Fin cfg5.N, cfg5.idle 0 (grid5.coords t) = false := by decide +kernel
theorem liveAt5_1 : ∀ t : Fin cfg5.N, cfg5.idle 1 (grid5.coords t) = false := by decide +kernel
theorem liveAt5_2 : ∀ t : Fin cfg5.N, cfg5.idle 2 (grid5.coords t) = false := by decide +kernel
theorem liveAt5_3 : ∀ t : Fin cfg5.N, cfg5.idle 3 (grid5.coords t) = false := by decide +kernel
theorem liveAt5_4 : ∀ t : Fin cfg5.N, cfg5.idle 4 (grid5.coords t) = false := by decide +kernel

theorem idleAt5_5_A : ∀ t : Fin cfg5.N, cond5_0 (grid5.coords t) → ¬cond5_1 (grid5.coords t) → cfg5.idle 5 (grid5.coords t) = true := by decide +kernel
theorem noFlush5_5_A : ∀ t : Fin cfg5.N, cond5_0 (grid5.coords t) → ¬cond5_1 (grid5.coords t) → (cfg5.win 5).flush t = false := by decide +kernel

theorem idleAt5_5_B : ∀ t : Fin cfg5.N, ¬cond5_0 (grid5.coords t) → ¬cond5_1 (grid5.coords t) → cfg5.idle 5 (grid5.coords t) = true := by decide +kernel
theorem noFlush5_5_B : ∀ t : Fin cfg5.N, ¬cond5_0 (grid5.coords t) → ¬cond5_1 (grid5.coords t) → (cfg5.win 5).flush t = false := by decide +kernel

theorem liveAt5_5_C : ∀ t : Fin cfg5.N, ¬cond5_0 (grid5.coords t) → cond5_1 (grid5.coords t) → cfg5.idle 5 (grid5.coords t) = false := by decide +kernel

abbrev VO5_5 : View sig .tc .vmem S64x10 .f32 := (Memref.whole cc5_stg5_0 : Memref sig .tc .vmem S64x10 .f32).view
abbrev ms5_0 (t : Fin cfg5.N) : Memref sig .tc .vmem S10000x1 .i32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S10000x32 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S64x1 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S32x10 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S1x10 .f32 := win5_4.stage (cfg5.slots t 4)
abbrev hs5_4 (t : Fin cfg5.N) : (ms5_4 t).IsWhole := hstage5_4 ((cfg5.slots t 4).cast nbuf5_4)
abbrev ms5_5 (t : Fin cfg5.N) : Memref sig .tc .vmem S64x10 .f32 := win5_5.stage (cfg5.slots t 5)
abbrev hs5_5 (t : Fin cfg5.N) : (ms5_5 t).IsWhole := hstage5_5 ((cfg5.slots t 5).cast nbuf5_5)

abbrev scM5_0 : Memref sig .tc .vmem S64x32 .f32 := Memref.whole cc5_scratch0
abbrev VS5_0 : View sig .tc .vmem S64x32 .f32 := scM5_0.view

theorem PhiA5_eq (c : Dev nD) :
    (Pipeline.ΦA spec5 c : sProp 𝕄)
      = iprop(iprop(iprop((∃ d, owns (c : Thread nD τ) scM5_0 fullShare d))
          ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5_0, owns_whole]; try rfl

set_option maxHeartbeats 4000000 in

noncomputable def kernelRun5_A (c : Dev nD) (i : grid5.Coords) (arg1 : Memref sig .tc .vmem S10000x1 .i32) (harg1 : arg1.IsWhole) (arg2 : Memref sig .tc .vmem S10000x32 .f32) (harg2 : arg2.IsWhole) (arg3 : Memref sig .tc .vmem S64x1 .f32) (harg3 : arg3.IsWhole) (arg4 : Memref sig .tc .vmem S32x10 .f32) (harg4 : arg4.IsWhole) (arg5 : Memref sig .tc .vmem S1x10 .f32) (harg5 : arg5.IsWhole) (arg6 : Memref sig .tc .vmem S64x10 .f32) (harg6 : arg6.IsWhole) (arg7 : Memref sig .tc .vmem S64x32 .f32) (harg7 : arg7.IsWhole) (hc0 : cond5_0 i) (hc1 : ¬cond5_1 i)
    (x0 : Vec F S10000x1 .i32) (x1 : Vec F S10000x32 .f32) (x2 : Vec F S64x1 .f32) (x3 : Vec F S32x10 .f32) (x4 : Vec F S1x10 .f32) :
    Σ' (L5 : List (View.Piece (Elt F) S64x10 .f32)), { LS0 : List (View.Piece (Elt F) S64x32 .f32) //
      ∀ (xi5 : Vec F S64x10 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc5__pool_kernel i arg1 harg1 arg2 harg2 arg3 harg3 arg4 harg4 arg5 harg5 arg6 harg6 arg7 harg7) K } := by
  refine ⟨[], ?_, fun xi5 E K => ?run⟩
  case run =>
    simp only [cc5__pool_kernel_eq_skeleton]; unfold cc5__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

set_option maxHeartbeats 4000000 in

noncomputable def kernelRun5_B (c : Dev nD) (i : grid5.Coords) (arg1 : Memref sig .tc .vmem S10000x1 .i32) (harg1 : arg1.IsWhole) (arg2 : Memref sig .tc .vmem S10000x32 .f32) (harg2 : arg2.IsWhole) (arg3 : Memref sig .tc .vmem S64x1 .f32) (harg3 : arg3.IsWhole) (arg4 : Memref sig .tc .vmem S32x10 .f32) (harg4 : arg4.IsWhole) (arg5 : Memref sig .tc .vmem S1x10 .f32) (harg5 : arg5.IsWhole) (arg6 : Memref sig .tc .vmem S64x10 .f32) (harg6 : arg6.IsWhole) (arg7 : Memref sig .tc .vmem S64x32 .f32) (harg7 : arg7.IsWhole) (hc0 : ¬cond5_0 i) (hc1 : ¬cond5_1 i)
    (x0 : Vec F S10000x1 .i32) (x1 : Vec F S10000x32 .f32) (x2 : Vec F S64x1 .f32) (x3 : Vec F S32x10 .f32) (x4 : Vec F S1x10 .f32) (xs0 : Vec F S64x32 .f32) :
    Σ' (L5 : List (View.Piece (Elt F) S64x10 .f32)), { LS0 : List (View.Piece (Elt F) S64x32 .f32) //
      ∀ (xi5 : Vec F S64x10 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc5__pool_kernel i arg1 harg1 arg2 harg2 arg3 harg3 arg4 harg4 arg5 harg5 arg6 harg6 arg7 harg7) K } := by
  refine ⟨[], ?_, fun xi5 E K => ?run⟩
  case run =>
    simp only [cc5__pool_kernel_eq_skeleton]; unfold cc5__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

set_option maxHeartbeats 4000000 in

noncomputable def kernelRun5_C (c : Dev nD) (i : grid5.Coords) (arg1 : Memref sig .tc .vmem S10000x1 .i32) (harg1 : arg1.IsWhole) (arg2 : Memref sig .tc .vmem S10000x32 .f32) (harg2 : arg2.IsWhole) (arg3 : Memref sig .tc .vmem S64x1 .f32) (harg3 : arg3.IsWhole) (arg4 : Memref sig .tc .vmem S32x10 .f32) (harg4 : arg4.IsWhole) (arg5 : Memref sig .tc .vmem S1x10 .f32) (harg5 : arg5.IsWhole) (arg6 : Memref sig .tc .vmem S64x10 .f32) (harg6 : arg6.IsWhole) (arg7 : Memref sig .tc .vmem S64x32 .f32) (harg7 : arg7.IsWhole) (hc0 : ¬cond5_0 i) (hc1 : cond5_1 i)
    (x0 : Vec F S10000x1 .i32) (x1 : Vec F S10000x32 .f32) (x2 : Vec F S64x1 .f32) (x3 : Vec F S32x10 .f32) (x4 : Vec F S1x10 .f32) (xs0 : Vec F S64x32 .f32) :
    Σ' (L5 : List (View.Piece (Elt F) S64x10 .f32)), { LS0 : List (View.Piece (Elt F) S64x32 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc5__pool_kernel i arg1 harg1 arg2 harg2 arg3 harg3 arg4 harg4 arg5 harg5 arg6 harg6 arg7 harg7) K } := by
  refine ⟨?_, ?_, fun E K => ?run⟩
  case run =>
    simp only [cc5__pool_kernel_eq_skeleton]; unfold cc5__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS0

end Cert.Kernel.Reg

end
-- ==== Proof.K.R5.lean ====
import proofs.«418024_j36704790511896_3_alg».proof.Proof.K.R5Runs

/-! Region 5: the accumulator carried from one grid point to the next, and the body's obligation at every point. -/

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

def out5_A_5 (c : Dev nD) (i : grid5.Coords) (arg1 : Memref sig .tc .vmem S10000x1 .i32) (harg1 : arg1.IsWhole) (arg2 : Memref sig .tc .vmem S10000x32 .f32) (harg2 : arg2.IsWhole) (arg3 : Memref sig .tc .vmem S64x1 .f32) (harg3 : arg3.IsWhole) (arg4 : Memref sig .tc .vmem S32x10 .f32) (harg4 : arg4.IsWhole) (arg5 : Memref sig .tc .vmem S1x10 .f32) (harg5 : arg5.IsWhole) (arg6 : Memref sig .tc .vmem S64x10 .f32) (harg6 : arg6.IsWhole) (arg7 : Memref sig .tc .vmem S64x32 .f32) (harg7 : arg7.IsWhole) (hc0 : cond5_0 i) (hc1 : ¬cond5_1 i)
    (x0 : Vec F S10000x1 .i32) (x1 : Vec F S10000x32 .f32) (x2 : Vec F S64x1 .f32) (x3 : Vec F S32x10 .f32) (x4 : Vec F S1x10 .f32) : Vec F S64x10 .f32 :=
  VO5_5.read (Elt F) (VO5_5.writes (Elt F) VO5_5.junk (kernelRun5_A c i arg1 harg1 arg2 harg2 arg3 harg3 arg4 harg4 arg5 harg5 arg6 harg6 arg7 harg7 hc0 hc1 x0 x1 x2 x3 x4).1)

theorem scover5_A_0 (c : Dev nD) (i : grid5.Coords) (arg1 : Memref sig .tc .vmem S10000x1 .i32) (harg1 : arg1.IsWhole) (arg2 : Memref sig .tc .vmem S10000x32 .f32) (harg2 : arg2.IsWhole) (arg3 : Memref sig .tc .vmem S64x1 .f32) (harg3 : arg3.IsWhole) (arg4 : Memref sig .tc .vmem S32x10 .f32) (harg4 : arg4.IsWhole) (arg5 : Memref sig .tc .vmem S1x10 .f32) (harg5 : arg5.IsWhole) (arg6 : Memref sig .tc .vmem S64x10 .f32) (harg6 : arg6.IsWhole) (arg7 : Memref sig .tc .vmem S64x32 .f32) (harg7 : arg7.IsWhole) (hc0 : cond5_0 i) (hc1 : ¬cond5_1 i)
    (x0 : Vec F S10000x1 .i32) (x1 : Vec F S10000x32 .f32) (x2 : Vec F S64x1 .f32) (x3 : Vec F S32x10 .f32) (x4 : Vec F S1x10 .f32) (y : S64x32.Idx) :
    ∃ pc ∈ (kernelRun5_A c i arg1 harg1 arg2 harg2 arg3 harg3 arg4 harg4 arg5 harg5 arg6 harg6 arg7 harg7 hc0 hc1 x0 x1 x2 x3 x4).2.1, y ∈ pc.1.set :=
  View.cover_of_tiledL (kernelRun5_A c i arg1 harg1 arg2 harg2 arg3 harg3 arg4 harg4 arg5 harg5 arg6 harg6 arg7 harg7 hc0 hc1 x0 x1 x2 x3 x4).2.1 S64x32.size (by sl_kernel_rfl) y

def sout5_A_0 (c : Dev nD) (i : grid5.Coords) (arg1 : Memref sig .tc .vmem S10000x1 .i32) (harg1 : arg1.IsWhole) (arg2 : Memref sig .tc .vmem S10000x32 .f32) (harg2 : arg2.IsWhole) (arg3 : Memref sig .tc .vmem S64x1 .f32) (harg3 : arg3.IsWhole) (arg4 : Memref sig .tc .vmem S32x10 .f32) (harg4 : arg4.IsWhole) (arg5 : Memref sig .tc .vmem S1x10 .f32) (harg5 : arg5.IsWhole) (arg6 : Memref sig .tc .vmem S64x10 .f32) (harg6 : arg6.IsWhole) (arg7 : Memref sig .tc .vmem S64x32 .f32) (harg7 : arg7.IsWhole) (hc0 : cond5_0 i) (hc1 : ¬cond5_1 i)
    (x0 : Vec F S10000x1 .i32) (x1 : Vec F S10000x32 .f32) (x2 : Vec F S64x1 .f32) (x3 : Vec F S32x10 .f32) (x4 : Vec F S1x10 .f32) : Vec F S64x32 .f32 :=
  VS5_0.read (Elt F) (VS5_0.writes (Elt F) VS5_0.junk (kernelRun5_A c i arg1 harg1 arg2 harg2 arg3 harg3 arg4 harg4 arg5 harg5 arg6 harg6 arg7 harg7 hc0 hc1 x0 x1 x2 x3 x4).2.1)

def out5_B_5 (c : Dev nD) (i : grid5.Coords) (arg1 : Memref sig .tc .vmem S10000x1 .i32) (harg1 : arg1.IsWhole) (arg2 : Memref sig .tc .vmem S10000x32 .f32) (harg2 : arg2.IsWhole) (arg3 : Memref sig .tc .vmem S64x1 .f32) (harg3 : arg3.IsWhole) (arg4 : Memref sig .tc .vmem S32x10 .f32) (harg4 : arg4.IsWhole) (arg5 : Memref sig .tc .vmem S1x10 .f32) (harg5 : arg5.IsWhole) (arg6 : Memref sig .tc .vmem S64x10 .f32) (harg6 : arg6.IsWhole) (arg7 : Memref sig .tc .vmem S64x32 .f32) (harg7 : arg7.IsWhole) (hc0 : ¬cond5_0 i) (hc1 : ¬cond5_1 i)
    (x0 : Vec F S10000x1 .i32) (x1 : Vec F S10000x32 .f32) (x2 : Vec F S64x1 .f32) (x3 : Vec F S32x10 .f32) (x4 : Vec F S1x10 .f32) (xs0 : Vec F S64x32 .f32) : Vec F S64x10 .f32 :=
  VO5_5.read (Elt F) (VO5_5.writes (Elt F) VO5_5.junk (kernelRun5_B c i arg1 harg1 arg2 harg2 arg3 harg3 arg4 harg4 arg5 harg5 arg6 harg6 arg7 harg7 hc0 hc1 x0 x1 x2 x3 x4 xs0).1)

theorem scover5_B_0 (c : Dev nD) (i : grid5.Coords) (arg1 : Memref sig .tc .vmem S10000x1 .i32) (harg1 : arg1.IsWhole) (arg2 : Memref sig .tc .vmem S10000x32 .f32) (harg2 : arg2.IsWhole) (arg3 : Memref sig .tc .vmem S64x1 .f32) (harg3 : arg3.IsWhole) (arg4 : Memref sig .tc .vmem S32x10 .f32) (harg4 : arg4.IsWhole) (arg5 : Memref sig .tc .vmem S1x10 .f32) (harg5 : arg5.IsWhole) (arg6 : Memref sig .tc .vmem S64x10 .f32) (harg6 : arg6.IsWhole) (arg7 : Memref sig .tc .vmem S64x32 .f32) (harg7 : arg7.IsWhole) (hc0 : ¬cond5_0 i) (hc1 : ¬cond5_1 i)
    (x0 : Vec F S10000x1 .i32) (x1 : Vec F S10000x32 .f32) (x2 : Vec F S64x1 .f32) (x3 : Vec F S32x10 .f32) (x4 : Vec F S1x10 .f32) (xs0 : Vec F S64x32 .f32) (y : S64x32.Idx) :
    ∃ pc ∈ (kernelRun5_B c i arg1 harg1 arg2 harg2 arg3 harg3 arg4 harg4 arg5 harg5 arg6 harg6 arg7 harg7 hc0 hc1 x0 x1 x2 x3 x4 xs0).2.1, y ∈ pc.1.set :=
  View.cover_of_tiledL (kernelRun5_B c i arg1 harg1 arg2 harg2 arg3 harg3 arg4 harg4 arg5 harg5 arg6 harg6 arg7 harg7 hc0 hc1 x0 x1 x2 x3 x4 xs0).2.1 S64x32.size (by sl_kernel_rfl) y

def sout5_B_0 (c : Dev nD) (i : grid5.Coords) (arg1 : Memref sig .tc .vmem S10000x1 .i32) (harg1 : arg1.IsWhole) (arg2 : Memref sig .tc .vmem S10000x32 .f32) (harg2 : arg2.IsWhole) (arg3 : Memref sig .tc .vmem S64x1 .f32) (harg3 : arg3.IsWhole) (arg4 : Memref sig .tc .vmem S32x10 .f32) (harg4 : arg4.IsWhole) (arg5 : Memref sig .tc .vmem S1x10 .f32) (harg5 : arg5.IsWhole) (arg6 : Memref sig .tc .vmem S64x10 .f32) (harg6 : arg6.IsWhole) (arg7 : Memref sig .tc .vmem S64x32 .f32) (harg7 : arg7.IsWhole) (hc0 : ¬cond5_0 i) (hc1 : ¬cond5_1 i)
    (x0 : Vec F S10000x1 .i32) (x1 : Vec F S10000x32 .f32) (x2 : Vec F S64x1 .f32) (x3 : Vec F S32x10 .f32) (x4 : Vec F S1x10 .f32) (xs0 : Vec F S64x32 .f32) : Vec F S64x32 .f32 :=
  VS5_0.read (Elt F) (VS5_0.writes (Elt F) VS5_0.junk (kernelRun5_B c i arg1 harg1 arg2 harg2 arg3 harg3 arg4 harg4 arg5 harg5 arg6 harg6 arg7 harg7 hc0 hc1 x0 x1 x2 x3 x4 xs0).2.1)

theorem cover5_C_5 (c : Dev nD) (i : grid5.Coords) (arg1 : Memref sig .tc .vmem S10000x1 .i32) (harg1 : arg1.IsWhole) (arg2 : Memref sig .tc .vmem S10000x32 .f32) (harg2 : arg2.IsWhole) (arg3 : Memref sig .tc .vmem S64x1 .f32) (harg3 : arg3.IsWhole) (arg4 : Memref sig .tc .vmem S32x10 .f32) (harg4 : arg4.IsWhole) (arg5 : Memref sig .tc .vmem S1x10 .f32) (harg5 : arg5.IsWhole) (arg6 : Memref sig .tc .vmem S64x10 .f32) (harg6 : arg6.IsWhole) (arg7 : Memref sig .tc .vmem S64x32 .f32) (harg7 : arg7.IsWhole) (hc0 : ¬cond5_0 i) (hc1 : cond5_1 i)
    (x0 : Vec F S10000x1 .i32) (x1 : Vec F S10000x32 .f32) (x2 : Vec F S64x1 .f32) (x3 : Vec F S32x10 .f32) (x4 : Vec F S1x10 .f32) (xs0 : Vec F S64x32 .f32) (y : S64x10.Idx) :
    ∃ pc ∈ (kernelRun5_C c i arg1 harg1 arg2 harg2 arg3 harg3 arg4 harg4 arg5 harg5 arg6 harg6 arg7 harg7 hc0 hc1 x0 x1 x2 x3 x4 xs0).1, y ∈ pc.1.set :=
  View.cover_of_tiledL (kernelRun5_C c i arg1 harg1 arg2 harg2 arg3 harg3 arg4 harg4 arg5 harg5 arg6 harg6 arg7 harg7 hc0 hc1 x0 x1 x2 x3 x4 xs0).1 S64x10.size (by sl_kernel_rfl) y

def out5_C_5 (c : Dev nD) (i : grid5.Coords) (arg1 : Memref sig .tc .vmem S10000x1 .i32) (harg1 : arg1.IsWhole) (arg2 : Memref sig .tc .vmem S10000x32 .f32) (harg2 : arg2.IsWhole) (arg3 : Memref sig .tc .vmem S64x1 .f32) (harg3 : arg3.IsWhole) (arg4 : Memref sig .tc .vmem S32x10 .f32) (harg4 : arg4.IsWhole) (arg5 : Memref sig .tc .vmem S1x10 .f32) (harg5 : arg5.IsWhole) (arg6 : Memref sig .tc .vmem S64x10 .f32) (harg6 : arg6.IsWhole) (arg7 : Memref sig .tc .vmem S64x32 .f32) (harg7 : arg7.IsWhole) (hc0 : ¬cond5_0 i) (hc1 : cond5_1 i)
    (x0 : Vec F S10000x1 .i32) (x1 : Vec F S10000x32 .f32) (x2 : Vec F S64x1 .f32) (x3 : Vec F S32x10 .f32) (x4 : Vec F S1x10 .f32) (xs0 : Vec F S64x32 .f32) : Vec F S64x10 .f32 :=
  VO5_5.read (Elt F) (VO5_5.writes (Elt F) VO5_5.junk (kernelRun5_C c i arg1 harg1 arg2 harg2 arg3 harg3 arg4 harg4 arg5 harg5 arg6 harg6 arg7 harg7 hc0 hc1 x0 x1 x2 x3 x4 xs0).1)

theorem scover5_C_0 (c : Dev nD) (i : grid5.Coords) (arg1 : Memref sig .tc .vmem S10000x1 .i32) (harg1 : arg1.IsWhole) (arg2 : Memref sig .tc .vmem S10000x32 .f32) (harg2 : arg2.IsWhole) (arg3 : Memref sig .tc .vmem S64x1 .f32) (harg3 : arg3.IsWhole) (arg4 : Memref sig .tc .vmem S32x10 .f32) (harg4 : arg4.IsWhole) (arg5 : Memref sig .tc .vmem S1x10 .f32) (harg5 : arg5.IsWhole) (arg6 : Memref sig .tc .vmem S64x10 .f32) (harg6 : arg6.IsWhole) (arg7 : Memref sig .tc .vmem S64x32 .f32) (harg7 : arg7.IsWhole) (hc0 : ¬cond5_0 i) (hc1 : cond5_1 i)
    (x0 : Vec F S10000x1 .i32) (x1 : Vec F S10000x32 .f32) (x2 : Vec F S64x1 .f32) (x3 : Vec F S32x10 .f32) (x4 : Vec F S1x10 .f32) (xs0 : Vec F S64x32 .f32) (y : S64x32.Idx) :
    ∃ pc ∈ (kernelRun5_C c i arg1 harg1 arg2 harg2 arg3 harg3 arg4 harg4 arg5 harg5 arg6 harg6 arg7 harg7 hc0 hc1 x0 x1 x2 x3 x4 xs0).2.1, y ∈ pc.1.set :=
  View.cover_of_tiledL (kernelRun5_C c i arg1 harg1 arg2 harg2 arg3 harg3 arg4 harg4 arg5 harg5 arg6 harg6 arg7 harg7 hc0 hc1 x0 x1 x2 x3 x4 xs0).2.1 S64x32.size (by sl_kernel_rfl) y

def sout5_C_0 (c : Dev nD) (i : grid5.Coords) (arg1 : Memref sig .tc .vmem S10000x1 .i32) (harg1 : arg1.IsWhole) (arg2 : Memref sig .tc .vmem S10000x32 .f32) (harg2 : arg2.IsWhole) (arg3 : Memref sig .tc .vmem S64x1 .f32) (harg3 : arg3.IsWhole) (arg4 : Memref sig .tc .vmem S32x10 .f32) (harg4 : arg4.IsWhole) (arg5 : Memref sig .tc .vmem S1x10 .f32) (harg5 : arg5.IsWhole) (arg6 : Memref sig .tc .vmem S64x10 .f32) (harg6 : arg6.IsWhole) (arg7 : Memref sig .tc .vmem S64x32 .f32) (harg7 : arg7.IsWhole) (hc0 : ¬cond5_0 i) (hc1 : cond5_1 i)
    (x0 : Vec F S10000x1 .i32) (x1 : Vec F S10000x32 .f32) (x2 : Vec F S64x1 .f32) (x3 : Vec F S32x10 .f32) (x4 : Vec F S1x10 .f32) (xs0 : Vec F S64x32 .f32) : Vec F S64x32 .f32 :=
  VS5_0.read (Elt F) (VS5_0.writes (Elt F) VS5_0.junk (kernelRun5_C c i arg1 harg1 arg2 harg2 arg3 harg3 arg4 harg4 arg5 harg5 arg6 harg6 arg7 harg7 hc0 hc1 x0 x1 x2 x3 x4 xs0).2.1)

section Region

variable (V : (c : Dev nD) → (b : Ref sig .tc) → Buf (Elt F) ((c : Thread nD τ).loc b))

def outsAt5 (c : Dev nD) : (n : ℕ) → n < cfg5.N → Vec F S64x10 .f32 × Vec F S64x32 .f32
  | 0, hn => (out5_A_5 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩) (iblk5 V c 3 ⟨0, hn⟩) (iblk5 V c 4 ⟨0, hn⟩), sout5_A_0 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩) (iblk5 V c 3 ⟨0, hn⟩) (iblk5 V c 4 ⟨0, hn⟩))
  | n + 1, hn =>
    if h0 : (n + 1) % 10 = 0 then
      if h1 : (n + 1) % 10 = 9 then
        False.elim (by omega)
      else
        (out5_A_5 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) scM5_0 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩), sout5_A_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) scM5_0 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩))
    else
      if h1 : (n + 1) % 10 = 9 then
        (out5_C_5 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (outsAt5 c n (Nat.lt_of_succ_lt hn)).2, sout5_C_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (outsAt5 c n (Nat.lt_of_succ_lt hn)).2)
      else
        (out5_B_5 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) scM5_0 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (outsAt5 c n (Nat.lt_of_succ_lt hn)).2, sout5_B_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) scM5_0 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (outsAt5 c n (Nat.lt_of_succ_lt hn)).2)

theorem outsAt5_A (c : Dev nD) (t : Fin cfg5.N) (h0 : t.val % 10 = 0) (h1 : ¬t.val % 10 = 9) :
    outsAt5 V c t.val t.isLt = (out5_A_5 c (grid5.coords t) (ms5_0 t) (hs5_0 t) (ms5_1 t) (hs5_1 t) (ms5_2 t) (hs5_2 t) (ms5_3 t) (hs5_3 t) (ms5_4 t) (hs5_4 t) (ms5_5 t) (hs5_5 t) scM5_0 (Memref.isWhole_whole _) ((hcond5_0 t).mpr h0) (fun h => h1 ((hcond5_1 t).mp h)) (iblk5 V c 0 t) (iblk5 V c 1 t) (iblk5 V c 2 t) (iblk5 V c 3 t) (iblk5 V c 4 t), sout5_A_0 c (grid5.coords t) (ms5_0 t) (hs5_0 t) (ms5_1 t) (hs5_1 t) (ms5_2 t) (hs5_2 t) (ms5_3 t) (hs5_3 t) (ms5_4 t) (hs5_4 t) (ms5_5 t) (hs5_5 t) scM5_0 (Memref.isWhole_whole _) ((hcond5_0 t).mpr h0) (fun h => h1 ((hcond5_1 t).mp h)) (iblk5 V c 0 t) (iblk5 V c 1 t) (iblk5 V c 2 t) (iblk5 V c 3 t) (iblk5 V c 4 t)) := by
  obtain ⟨n, hn⟩ := t
  cases n with
  | zero => exact rfl
  | succ n => exact (dif_pos h0).trans ((dif_neg h1).trans rfl)

theorem outsAt5_B (c : Dev nD) (t : Fin cfg5.N) (h0 : ¬t.val % 10 = 0) (h1 : ¬t.val % 10 = 9) :
    outsAt5 V c t.val t.isLt = (out5_B_5 c (grid5.coords t) (ms5_0 t) (hs5_0 t) (ms5_1 t) (hs5_1 t) (ms5_2 t) (hs5_2 t) (ms5_3 t) (hs5_3 t) (ms5_4 t) (hs5_4 t) (ms5_5 t) (hs5_5 t) scM5_0 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) (outsAt5 V c (t.val - 1) (Nat.lt_of_le_of_lt (Nat.sub_le _ _) t.isLt)).2, sout5_B_0 c (grid5.coords t) (ms5_0 t) (hs5_0 t) (ms5_1 t) (hs5_1 t) (ms5_2 t) (hs5_2 t) (ms5_3 t) (hs5_3 t) (ms5_4 t) (hs5_4 t) (ms5_5 t) (hs5_5 t) scM5_0 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt5_C (c : Dev nD) (t : Fin cfg5.N) (h0 : ¬t.val % 10 = 0) (h1 : t.val % 10 = 9) :
    outsAt5 V c t.val t.isLt = (out5_C_5 c (grid5.coords t) (ms5_0 t) (hs5_0 t) (ms5_1 t) (hs5_1 t) (ms5_2 t) (hs5_2 t) (ms5_3 t) (hs5_3 t) (ms5_4 t) (hs5_4 t) (ms5_5 t) (hs5_5 t) scM5_0 (Memref.isWhole_whole _) (fun h => h0 ((hcond5_0 t).mp h)) ((hcond5_1 t).mpr h1) (iblk5 V c 0 t) (iblk5 V c 1 t) (iblk5 V c 2 t) (iblk5 V c 3 t) (iblk5 V c 4 t) (outsAt5 V c (t.val - 1) (Nat.lt_of_le_of_lt (Nat.sub_le _ _) t.isLt)).2, sout5_C_0 c (grid5.coords t) (ms5_0 t) (hs5_0 t) (ms5_1 t) (hs5_1 t) (ms5_2 t) (hs5_2 t) (ms5_3 t) (hs5_3 t) (ms5_4 t) (hs5_4 t) (ms5_5 t) (hs5_5 t) scM5_0 (Memref.isWhole_whole _) (fun h => h0 ((hcond5_0 t).mp h)) ((hcond5_1 t).mpr h1) (iblk5 V c 0 t) (iblk5 V c 1 t) (iblk5 V c 2 t) (iblk5 V c 3 t) (iblk5 V c 4 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def PhiS5 (c : Dev nD) : (n : ℕ) → n ≤ cfg5.N → sProp 𝕄
  | 0, _ => Pipeline.ΦA spec5 c
  | n + 1, hn => iprop(iprop(owns (c : Thread nD τ) scM5_0 fullShare ((outsAt5 V c n hn).2) ∗ Pipeline.scopedRestBut (Ix := Unit) (Name := ℕ) (U := UR sig nD τ) (Lvl := ℕ) (Val := Elt F) spec5 c [cc5_scratch0]) ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(iprop(owns (c : Thread nD τ) scM5_0 fullShare ((outsAt5 V c n hn).2) ∗ Pipeline.scopedRestBut (Ix := Unit) (Name := ℕ) (U := UR sig nD τ) (Lvl := ℕ) (Val := Elt F) spec5 c [cc5_scratch0]) ∗ (∃ r, prngReg c r)) := rfl

theorem PhiS5_pos (c : Dev nD) (n : ℕ) (h : n ≤ cfg5.N) (hz : n ≠ 0) :
    PhiS5 V c n h = iprop(iprop(owns (c : Thread nD τ) scM5_0 fullShare ((outsAt5 V c (n - 1) (by omega)).2) ∗ Pipeline.scopedRestBut (Ix := Unit) (Name := ℕ) (U := UR sig nD τ) (Lvl := ℕ) (Val := Elt F) spec5 c [cc5_scratch0]) ∗ (∃ r, prngReg c r)) := by
  cases n with
  | zero => exact absurd rfl hz
  | succ n => rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => (outsAt5 V c t.val t.isLt).1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = (outsAt5 V c t.val t.isLt).1 := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl)
    (fun t => by rw [after5_0 V c]; unfold Dat.blockOf iblk5; rw [A_eq5 V c]; try rfl) t d).trans
    (by unfold Dat.fetched Dat.blockOf iblk5; rw [A_eq5 V c]; try rfl)
theorem before5_1 (c : Dev nD) (t : Fin cfg5.N) (d) : (dat5 V c).before 1 t d = iblk5 V c 1 t :=
  ((dat5 V c).before_in_eq_fetched 1 rfl (fun _ => rfl) (fun _ _ _ => rfl)
    (fun t => by rw [after5_1 V c]; unfold Dat.blockOf iblk5; rw [A_eq5 V c]; try rfl) t d).trans
    (by unfold Dat.fetched Dat.blockOf iblk5; rw [A_eq5 V c]; try rfl)
theorem before5_2 (c : Dev nD) (t : Fin cfg5.N) (d) : (dat5 V c).before 2 t d = iblk5 V c 2 t :=
  ((dat5 V c).before_in_eq_fetched 2 rfl (fun _ => rfl) (fun _ _ _ => rfl)
    (fun t => by rw [after5_2 V c]; unfold Dat.blockOf iblk5; rw [A_eq5 V c]; try rfl) t d).trans
    (by unfold Dat.fetched Dat.blockOf iblk5; rw [A_eq5 V c]; try rfl)
theorem before5_3 (c : Dev nD) (t : Fin cfg5.N) (d) : (dat5 V c).before 3 t d = iblk5 V c 3 t :=
  ((dat5 V c).before_in_eq_fetched 3 rfl (fun _ => rfl) (fun _ _ _ => rfl)
    (fun t => by rw [after5_3 V c]; unfold Dat.blockOf iblk5; rw [A_eq5 V c]; try rfl) t d).trans
    (by unfold Dat.fetched Dat.blockOf iblk5; rw [A_eq5 V c]; try rfl)
theorem before5_4 (c : Dev nD) (t : Fin cfg5.N) (d) : (dat5 V c).before 4 t d = iblk5 V c 4 t :=
  ((dat5 V c).before_in_eq_fetched 4 rfl (fun _ => rfl) (fun _ _ _ => rfl)
    (fun t => by rw [after5_4 V c]; unfold Dat.blockOf iblk5; rw [A_eq5 V c]; try rfl) t d).trans
    (by unfold Dat.fetched Dat.blockOf iblk5; rw [A_eq5 V c]; try rfl)

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d))
    ∗ (∃ d, owns (c : Thread nD τ) (ms5_5 t) fullShare ((dat5 V c).before 5 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t
    ∗ (dat5 V c).leavesExact 5 t)

set_option maxHeartbeats 4800000 in
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).owesAt () t.succ = (dat5 V c).owesAt () t.castSucc from rfl]
  rw [show (dat5 V c).Φ t.succ = PhiS5 V c (t.val + 1) t.isLt from rfl, PhiS5_succ]
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  rw [show (dat5 V c).leavesExact 2 t = owns (c : Thread nD τ) (ms5_2 t) fullShare ((dat5 V c).after 2 t) from by
    unfold Dat.leavesExact; rw [liveAt5_2 t], after5_2]
  rw [show (dat5 V c).leavesExact 3 t = owns (c : Thread nD τ) (ms5_3 t) fullShare ((dat5 V c).after 3 t) from by
    unfold Dat.leavesExact; rw [liveAt5_3 t], after5_3]
  rw [show (dat5 V c).leavesExact 4 t = owns (c : Thread nD τ) (ms5_4 t) fullShare ((dat5 V c).after 4 t) from by
    unfold Dat.leavesExact; rw [liveAt5_4 t], after5_4]
  have hN : t.val < 10 := lt_of_lt_of_eq t.isLt (show cfg5.N = 10 from N_5)
  by_cases h0 : t.val % 10 = 0
  · by_cases h1 : t.val % 10 = 9
    · exfalso; omega
    · rw [Dat.leavesExact_idle (dat5 V c) 5 t (idleAt5_5_A t ((hcond5_0 t).mpr h0) (fun h => h1 ((hcond5_1 t).mp h))) (noFlush5_5_A t ((hcond5_0 t).mpr h0) (fun h => h1 ((hcond5_1 t).mp h)))]
      rw [outsAt5_A V c t h0 h1]
      unfold sout5_A_0; (try dsimp only)
      have hz : t.val = 0 := by omega
      rw [PhiS5_castSucc V c t, PhiS5_zero V c _ _ hz, PhiA5_eq]
      iintro ⟨⟨⟨HS0, Hr⟩, Hg⟩, Ho, ⟨%d0, H0⟩, ⟨%d1, H1⟩, ⟨%d2, H2⟩, ⟨%d3, H3⟩, ⟨%d4, H4⟩, ⟨%d5, H5⟩⟩
      iapply ((kernelRun5_A c (grid5.coords t) _ _ _ _ _ _ _ _ _ _ _ _ _ _ ((hcond5_0 t).mpr h0) (fun h => h1 ((hcond5_1 t).mp h)) (iblk5 V c 0 t) (iblk5 V c 1 t) (iblk5 V c 2 t) (iblk5 V c 3 t) (iblk5 V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover5_A_0 c _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · by_cases h1 : t.val % 10 = 9
    · rw [show (dat5 V c).leavesExact 5 t = owns (c : Thread nD τ) (ms5_5 t) fullShare ((dat5 V c).after 5 t) from by
        unfold Dat.leavesExact; rw [liveAt5_5_C t (fun h => h0 ((hcond5_0 t).mp h)) ((hcond5_1 t).mpr h1)], after5_5]
      rw [outsAt5_C V c t h0 h1]
      unfold out5_C_5 sout5_C_0; (try dsimp only)
      have hz : t.val ≠ 0 := by omega
      rw [PhiS5_castSucc V c t, PhiS5_pos V c _ _ hz]
      iintro ⟨⟨⟨HS0, Hr⟩, Hg⟩, Ho, ⟨%d0, H0⟩, ⟨%d1, H1⟩, ⟨%d2, H2⟩, ⟨%d3, H3⟩, ⟨%d4, H4⟩, ⟨%d5, H5⟩⟩
      iapply ((kernelRun5_C c (grid5.coords t) _ _ _ _ _ _ _ _ _ _ _ _ _ _ (fun h => h0 ((hcond5_0 t).mp h)) ((hcond5_1 t).mpr h1) (iblk5 V c 0 t) (iblk5 V c 1 t) (iblk5 V c 2 t) (iblk5 V c 3 t) (iblk5 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover5_C_0 c _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover5_C_5 c _ _ _ _ _ _ _ _ _ _ _ _ _ _ _ _ _ _ _ _ _ _ _)
    · rw [Dat.leavesExact_idle (dat5 V c) 5 t (idleAt5_5_B t (fun h => h0 ((hcond5_0 t).mp h)) (fun h => h1 ((hcond5_1 t).mp h))) (noFlush5_5_B t (fun h => h0 ((hcond5_0 t).mp h)) (fun h => h1 ((hcond5_1 t).mp h)))]
      rw [outsAt5_B V c t h0 h1]
      unfold sout5_B_0; (try dsimp only)
      have hz : t.val ≠ 0 := by omega
      rw [PhiS5_castSucc V c t, PhiS5_pos V c _ _ hz]
      iintro ⟨⟨⟨HS0, Hr⟩, Hg⟩, Ho, ⟨%d0, H0⟩, ⟨%d1, H1⟩, ⟨%d2, H2⟩, ⟨%d3, H3⟩, ⟨%d4, H4⟩, ⟨%d5, H5⟩⟩
      iapply ((kernelRun5_B c (grid5.coords t) _ _ _ _ _ _ _ _ _ _ _ _ _ _ (fun h => h0 ((hcond5_0 t).mp h)) (fun h => h1 ((hcond5_1 t).mp h)) (iblk5 V c 0 t) (iblk5 V c 1 t) (iblk5 V c 2 t) (iblk5 V c 3 t) (iblk5 V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover5_B_0 c _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

theorem body_obligation5 (c : Dev nD) : BodyObligation (dat5 (F := F) V c) (defs₀ (F := F)) Variants.none () Set.univ := fun t => by
  rw [bigSep_W5, bigSep_W5]
  exact sound_body5 V c t

theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

theorem Phi_out5 (c : Dev nD) (t : Fin (cfg5.N + 1)) (ht : t.val ≠ 0) : (dat5 V c).Φ t ⊢ Pipeline.ΦA spec5 c := by
  rw [show (dat5 V c).Φ t = PhiS5 V c t.val (Nat.le_of_lt_succ t.isLt) from rfl, PhiS5_pos V c _ _ ht, PhiA5_eq]
  iintro ⟨⟨HS0, Hr⟩, Hg⟩
  isplitl [HS0 Hr]
  · isplitl [HS0]
    · iexists _; iexact HS0
    iexact Hr
  iexact Hg

theorem hout5 (c : Dev nD) : (dat5 V c).Φ (Fin.last cfg5.N) ⊢ Pipeline.ΦA spec5 c :=
  Phi_out5 V c _ (by rw [Fin.val_last]; have : cfg5.N = 10 := N_5; omega)

end Region

end Cert.Kernel.Reg

end
-- ==== Proof.K.Fold.lean ====
import proofs.«418024_j36704790511896_3_alg».proof.Proof.Gen.Kernel.Regions
import proofs.«418024_j36704790511896_3_alg».proof.Proof.K.R0
import proofs.«418024_j36704790511896_3_alg».proof.Proof.K.R1
import proofs.«418024_j36704790511896_3_alg».proof.Proof.K.R2
import proofs.«418024_j36704790511896_3_alg».proof.Proof.K.R3
import proofs.«418024_j36704790511896_3_alg».proof.Proof.K.R4
import proofs.«418024_j36704790511896_3_alg».proof.Proof.K.R5

/-! The contents of every buffer at each boundary between the main function's items, as a fold from the launch memory. -/

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

abbrev W0 : Dev nD → Valuation τ sig (Elt F) := fun c b => m (c, b)

abbrev W1 : Dev nD → Valuation τ sig (Elt F) := fun c => StableHlo.after hostOps0 (W0 m c)

abbrev A1 : (c : Dev nD) → (b : Ref sig .tc) → Buf (Elt F) ((c : Thread nD τ).loc b) := fun c b => W1 m c b

def W2 (c : Dev nD) : Valuation τ sig (Elt F) :=
  Pipeline.withArrays spec0 c (W1 m c) fun w => (dat0 (A1 m) c).arrAt w cfg0.N
theorem W2_arr (c : Dev nD) (w : Fin cfg0.W) :
    W2 m c (Proc.devRef .tc (Pipeline.arrRef spec0 w)) = (dat0 (A1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb

abbrev A2 : (c : Dev nD) → (b : Ref sig .tc) → Buf (Elt F) ((c : Thread nD τ).loc b) := fun c b => W2 m c b

abbrev W3 : Dev nD → Valuation τ sig (Elt F) := fun c => StableHlo.after hostOps1 (W2 m c)

abbrev A3 : (c : Dev nD) → (b : Ref sig .tc) → Buf (Elt F) ((c : Thread nD τ).loc b) := fun c b => W3 m c b

def W4 (c : Dev nD) : Valuation τ sig (Elt F) :=
  Pipeline.withArrays spec1 c (W3 m c) fun w => (dat1 (A3 m) c).arrAt w cfg1.N
theorem W4_arr (c : Dev nD) (w : Fin cfg1.W) :
    W4 m c (Proc.devRef .tc (Pipeline.arrRef spec1 w)) = (dat1 (A3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb

abbrev A4 : (c : Dev nD) → (b : Ref sig .tc) → Buf (Elt F) ((c : Thread nD τ).loc b) := fun c b => W4 m c b

abbrev W5 : Dev nD → Valuation τ sig (Elt F) := fun c => StableHlo.after hostOps2 (W4 m c)

abbrev A5 : (c : Dev nD) → (b : Ref sig .tc) → Buf (Elt F) ((c : Thread nD τ).loc b) := fun c b => W5 m c b

def W6 (c : Dev nD) : Valuation τ sig (Elt F) :=
  Pipeline.withArrays spec2 c (W5 m c) fun w => (dat2 (A5 m) c).arrAt w cfg2.N
theorem W6_arr (c : Dev nD) (w : Fin cfg2.W) :
    W6 m c (Proc.devRef .tc (Pipeline.arrRef spec2 w)) = (dat2 (A5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb

abbrev A6 : (c : Dev nD) → (b : Ref sig .tc) → Buf (Elt F) ((c : Thread nD τ).loc b) := fun c b => W6 m c b

def W7 (c : Dev nD) : Valuation τ sig (Elt F) :=
  Pipeline.withArrays spec3 c (W6 m c) fun w => (dat3 (A6 m) c).arrAt w cfg3.N
theorem W7_arr (c : Dev nD) (w : Fin cfg3.W) :
    W7 m c (Proc.devRef .tc (Pipeline.arrRef spec3 w)) = (dat3 (A6 m) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m c (Proc.devRef .tc b) = W6 m c (Proc.devRef .tc b) := by
  unfold W7; exact Pipeline.withArrays_of_ne spec3 c _ _ b hb

abbrev A7 : (c : Dev nD) → (b : Ref sig .tc) → Buf (Elt F) ((c : Thread nD τ).loc b) := fun c b => W7 m c b

abbrev W8 : Dev nD → Valuation τ sig (Elt F) := fun c => StableHlo.after hostOps4 (W7 m c)

abbrev A8 : (c : Dev nD) → (b : Ref sig .tc) → Buf (Elt F) ((c : Thread nD τ).loc b) := fun c b => W8 m c b

def W9 (c : Dev nD) : Valuation τ sig (Elt F) :=
  Pipeline.withArrays spec4 c (W8 m c) fun w => (dat4 (A8 m) c).arrAt w cfg4.N
theorem W9_arr (c : Dev nD) (w : Fin cfg4.W) :
    W9 m c (Proc.devRef .tc (Pipeline.arrRef spec4 w)) = (dat4 (A8 m) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m c (Proc.devRef .tc b) = W8 m c (Proc.devRef .tc b) := by
  unfold W9; exact Pipeline.withArrays_of_ne spec4 c _ _ b hb

abbrev A9 : (c : Dev nD) → (b : Ref sig .tc) → Buf (Elt F) ((c : Thread nD τ).loc b) := fun c b => W9 m c b

abbrev W10 : Dev nD → Valuation τ sig (Elt F) := fun c => StableHlo.after hostOps5 (W9 m c)

abbrev A10 : (c : Dev nD) → (b : Ref sig .tc) → Buf (Elt F) ((c : Thread nD τ).loc b) := fun c b => W10 m c b

def W11 (c : Dev nD) : Valuation τ sig (Elt F) :=
  Pipeline.withArrays spec5 c (W10 m c) fun w => (dat5 (A10 m) c).arrAt w cfg5.N
theorem W11_arr (c : Dev nD) (w : Fin cfg5.W) :
    W11 m c (Proc.devRef .tc (Pipeline.arrRef spec5 w)) = (dat5 (A10 m) c).arrAt w cfg5.N := by
  unfold W11; exact Pipeline.withArrays_arr spec5 launch5.win.arr_inj c _ _ w
theorem W11_of_ne (c : Dev nD) (b : Ref sig .tc) (hb : ∀ w, Pipeline.arrRef spec5 w ≠ b) :
    W11 m c (Proc.devRef .tc b) = W10 m c (Proc.devRef .tc b) := by
  unfold W11; exact Pipeline.withArrays_of_ne spec5 c _ _ b hb

abbrev A11 : (c : Dev nD) → (b : Ref sig .tc) → Buf (Elt F) ((c : Thread nD τ).loc b) := fun c b => W11 m c b

theorem hF0 (c : Dev nD) (w : Fin cfg0.W) : (dat0 (A1 m) c).arrAt w cfg0.N = A2 m c (Pipeline.arrRef spec0 w) :=
  (W2_arr m c w).symm
theorem hrest0 (c : Dev nD) : ∀ b, b ∉ Finset.univ.image (Pipeline.arrRef spec0) → A2 m c b = A1 m c b :=
  fun b hb => W2_of_ne m c b fun w e => hb (Finset.mem_image.mpr ⟨w, Finset.mem_univ _, e⟩)
theorem hF1 (c : Dev nD) (w : Fin cfg1.W) : (dat1 (A3 m) c).arrAt w cfg1.N = A4 m c (Pipeline.arrRef spec1 w) :=
  (W4_arr m c w).symm
theorem hrest1 (c : Dev nD) : ∀ b, b ∉ Finset.univ.image (Pipeline.arrRef spec1) → A4 m c b = A3 m c b :=
  fun b hb => W4_of_ne m c b fun w e => hb (Finset.mem_image.mpr ⟨w, Finset.mem_univ _, e⟩)
theorem hF2 (c : Dev nD) (w : Fin cfg2.W) : (dat2 (A5 m) c).arrAt w cfg2.N = A6 m c (Pipeline.arrRef spec2 w) :=
  (W6_arr m c w).symm
theorem hrest2 (c : Dev nD) : ∀ b, b ∉ Finset.univ.image (Pipeline.arrRef spec2) → A6 m c b = A5 m c b :=
  fun b hb => W6_of_ne m c b fun w e => hb (Finset.mem_image.mpr ⟨w, Finset.mem_univ _, e⟩)
theorem hF3 (c : Dev nD) (w : Fin cfg3.W) : (dat3 (A6 m) c).arrAt w cfg3.N = A7 m c (Pipeline.arrRef spec3 w) :=
  (W7_arr m c w).symm
theorem hrest3 (c : Dev nD) : ∀ b, b ∉ Finset.univ.image (Pipeline.arrRef spec3) → A7 m c b = A6 m c b :=
  fun b hb => W7_of_ne m c b fun w e => hb (Finset.mem_image.mpr ⟨w, Finset.mem_univ _, e⟩)
theorem hF4 (c : Dev nD) (w : Fin cfg4.W) : (dat4 (A8 m) c).arrAt w cfg4.N = A9 m c (Pipeline.arrRef spec4 w) :=
  (W9_arr m c w).symm
theorem hrest4 (c : Dev nD) : ∀ b, b ∉ Finset.univ.image (Pipeline.arrRef spec4) → A9 m c b = A8 m c b :=
  fun b hb => W9_of_ne m c b fun w e => hb (Finset.mem_image.mpr ⟨w, Finset.mem_univ _, e⟩)
theorem hF5 (c : Dev nD) (w : Fin cfg5.W) : (dat5 (A10 m) c).arrAt w cfg5.N = A11 m c (Pipeline.arrRef spec5 w) :=
  (W11_arr m c w).symm
theorem hrest5 (c : Dev nD) : ∀ b, b ∉ Finset.univ.image (Pipeline.arrRef spec5) → A11 m c b = A10 m c b :=
  fun b hb => W11_of_ne m c b fun w e => hb (Finset.mem_image.mpr ⟨w, Finset.mem_univ _, e⟩)

/-- Shared by the six regions' keep lemmas below. -/
theorem withArrays_keep {gr W : Nat} (win : Fin W → Pipeline.WinSpec sig gr) (hinj : Function.Injective (Pipeline.arrRef win))
    (c : Dev nD) (V : Valuation τ sig (Elt F)) (A : (w : Fin W) → Buf (Elt F) ((win w).arr.view.loc (c.tc : Thread nD τ)))
    (b : Ref sig .tc) (h : ∀ w, Pipeline.arrRef win w = b → A w = V (Proc.devRef .tc (Pipeline.arrRef win w))) :
    Pipeline.withArrays win c V A (Proc.devRef .tc b) = V (Proc.devRef .tc b) := by
  by_cases hw : ∃ w, Pipeline.arrRef win w = b
  · obtain ⟨w, rfl⟩ := hw
    exact (Pipeline.withArrays_arr win hinj c V A w).trans (h w rfl)
  · exact Pipeline.withArrays_of_ne win c V A b fun w e => hw ⟨w, e⟩

theorem W2_keep (c : Dev nD) (b : Ref sig .tc) (hb : b ∉ ([main_v13] : List (Ref sig .tc))) :
    W2 m c (Proc.devRef .tc b) = W1 m c (Proc.devRef .tc b) :=
  withArrays_keep spec0 launch0.win.arr_inj c _ _ b fun w e =>
    if hin : (cfg0.win w).isOut = false then ((dat0 (A1 m) c).arrAt_in w hin _).trans (A_eq0 (A1 m) c w)
    else absurd (e ▸ (by decide : ∀ w : Fin cfg0.W, (cfg0.win w).isOut ≠ false → Pipeline.arrRef spec0 w ∈ ([main_v13] : List (Ref sig .tc))) w hin) hb

theorem W4_keep (c : Dev nD) (b : Ref sig .tc) (hb : b ∉ ([main_v25] : List (Ref sig .tc))) :
    W4 m c (Proc.devRef .tc b) = W3 m c (Proc.devRef .tc b) :=
  withArrays_keep spec1 launch1.win.arr_inj c _ _ b fun w e =>
    if hin : (cfg1.win w).isOut = false then ((dat1 (A3 m) c).arrAt_in w hin _).trans (A_eq1 (A3 m) c w)
    else absurd (e ▸ (by decide : ∀ w : Fin cfg1.W, (cfg1.win w).isOut ≠ false → Pipeline.arrRef spec1 w ∈ ([main_v25] : List (Ref sig .tc))) w hin) hb

theorem W6_keep (c : Dev nD) (b : Ref sig .tc) (hb : b ∉ ([main_v37_0, main_v37_1] : List (Ref sig .tc))) :
    W6 m c (Proc.devRef .tc b) = W5 m c (Proc.devRef .tc b) :=
  withArrays_keep spec2 launch2.win.arr_inj c _ _ b fun w e =>
    if hin : (cfg2.win w).isOut = false then ((dat2 (A5 m) c).arrAt_in w hin _).trans (A_eq2 (A5 m) c w)
    else absurd (e ▸ (by decide : ∀ w : Fin cfg2.W, (cfg2.win w).isOut ≠ false → Pipeline.arrRef spec2 w ∈ ([main_v37_0, main_v37_1] : List (Ref sig .tc))) w hin) hb

theorem W7_keep (c : Dev nD) (b : Ref sig .tc) (hb : b ∉ ([main_v38] : List (Ref sig .tc))) :
    W7 m c (Proc.devRef .tc b) = W6 m c (Proc.devRef .tc b) :=
  withArrays_keep spec3 launch3.win.arr_inj c _ _ b fun w e =>
    if hin : (cfg3.win w).isOut = false then ((dat3 (A6 m) c).arrAt_in w hin _).trans (A_eq3 (A6 m) c w)
    else absurd (e ▸ (by decide : ∀ w : Fin cfg3.W, (cfg3.win w).isOut ≠ false → Pipeline.arrRef spec3 w ∈ ([main_v38] : List (Ref sig .tc))) w hin) hb

theorem W9_keep (c : Dev nD) (b : Ref sig .tc) (hb : b ∉ ([main_v50] : List (Ref sig .tc))) :
    W9 m c (Proc.devRef .tc b) = W8 m c (Proc.devRef .tc b) :=
  withArrays_keep spec4 launch4.win.arr_inj c _ _ b fun w e =>
    if hin : (cfg4.win w).isOut = false then ((dat4 (A8 m) c).arrAt_in w hin _).trans (A_eq4 (A8 m) c w)
    else absurd (e ▸ (by decide : ∀ w : Fin cfg4.W, (cfg4.win w).isOut ≠ false → Pipeline.arrRef spec4 w ∈ ([main_v50] : List (Ref sig .tc))) w hin) hb

theorem W11_keep (c : Dev nD) (b : Ref sig .tc) (hb : b ∉ ([main_v58] : List (Ref sig .tc))) :
    W11 m c (Proc.devRef .tc b) = W10 m c (Proc.devRef .tc b) :=
  withArrays_keep spec5 launch5.win.arr_inj c _ _ b fun w e =>
    if hin : (cfg5.win w).isOut = false then ((dat5 (A10 m) c).arrAt_in w hin _).trans (A_eq5 (A10 m) c w)
    else absurd (e ▸ (by decide : ∀ w : Fin cfg5.W, (cfg5.win w).isOut ≠ false → Pipeline.arrRef spec5 w ∈ ([main_v58] : List (Ref sig .tc))) w hin) hb

theorem W1_keep (c : Dev nD) (b : Ref sig .tc) (hb : b ∉ hostOps0_W) :
    W1 m c (Proc.devRef .tc b) = W0 m c (Proc.devRef .tc b) :=
  StableHlo.after_of_writes_sub hostOps0 _ hostOps0_writes hb

theorem W3_keep (c : Dev nD) (b : Ref sig .tc) (hb : b ∉ hostOps1_W) :
    W3 m c (Proc.devRef .tc b) = W2 m c (Proc.devRef .tc b) :=
  StableHlo.after_of_writes_sub hostOps1 _ hostOps1_writes hb

theorem W5_keep (c : Dev nD) (b : Ref sig .tc) (hb : b ∉ hostOps2_W) :
    W5 m c (Proc.devRef .tc b) = W4 m c (Proc.devRef .tc b) :=
  StableHlo.after_of_writes_sub hostOps2 _ hostOps2_writes hb

theorem W8_keep (c : Dev nD) (b : Ref sig .tc) (hb : b ∉ hostOps4_W) :
    W8 m c (Proc.devRef .tc b) = W7 m c (Proc.devRef .tc b) :=
  StableHlo.after_of_writes_sub hostOps4 _ hostOps4_writes hb

theorem W10_keep (c : Dev nD) (b : Ref sig .tc) (hb : b ∉ hostOps5_W) :
    W10 m c (Proc.devRef .tc b) = W9 m c (Proc.devRef .tc b) :=
  StableHlo.after_of_writes_sub hostOps5 _ hostOps5_writes hb

/-- The side condition under which a buffer reads back as launched. -/
abbrev Unwritten (b : Ref sig .tc) : Prop :=
  b ∉ hostOps0_W ∧
  b ∉ ([main_v13] : List (Ref sig .tc)) ∧
  b ∉ hostOps1_W ∧
  b ∉ ([main_v25] : List (Ref sig .tc)) ∧
  b ∉ hostOps2_W ∧
  b ∉ ([main_v37_0, main_v37_1] : List (Ref sig .tc)) ∧
  b ∉ ([main_v38] : List (Ref sig .tc)) ∧
  b ∉ hostOps4_W ∧
  b ∉ ([main_v50] : List (Ref sig .tc)) ∧
  b ∉ hostOps5_W ∧
  b ∉ ([main_v58] : List (Ref sig .tc))

/-- By induction along the items, each of which keeps what it does not write. -/
theorem W1_launch (c : Dev nD) (b : Ref sig .tc) (h : Unwritten b := by decide) :
    W1 m c (Proc.devRef .tc b) = m ((c : Thread nD τ).loc b) :=
  (W1_keep m c b h.1).trans rfl
theorem W2_launch (c : Dev nD) (b : Ref sig .tc) (h : Unwritten b := by decide) :
    W2 m c (Proc.devRef .tc b) = m ((c : Thread nD τ).loc b) :=
  (W2_keep m c b h.2.1).trans (W1_launch m c b h)
theorem W3_launch (c : Dev nD) (b : Ref sig .tc) (h : Unwritten b := by decide) :
    W3 m c (Proc.devRef .tc b) = m ((c : Thread nD τ).loc b) :=
  (W3_keep m c b h.2.2.1).trans (W2_launch m c b h)
theorem W4_launch (c : Dev nD) (b : Ref sig .tc) (h : Unwritten b := by decide) :
    W4 m c (Proc.devRef .tc b) = m ((c : Thread nD τ).loc b) :=
  (W4_keep m c b h.2.2.2.1).trans (W3_launch m c b h)
theorem W5_launch (c : Dev nD) (b : Ref sig .tc) (h : Unwritten b := by decide) :
    W5 m c (Proc.devRef .tc b) = m ((c : Thread nD τ).loc b) :=
  (W5_keep m c b h.2.2.2.2.1).trans (W4_launch m c b h)
theorem W6_launch (c : Dev nD) (b : Ref sig .tc) (h : Unwritten b := by decide) :
    W6 m c (Proc.devRef .tc b) = m ((c : Thread nD τ).loc b) :=
  (W6_keep m c b h.2.2.2.2.2.1).trans (W5_launch m c b h)
theorem W7_launch (c : Dev nD) (b : Ref sig .tc) (h : Unwritten b := by decide) :
    W7 m c (Proc.devRef .tc b) = m ((c : Thread nD τ).loc b) :=
  (W7_keep m c b h.2.2.2.2.2.2.1).trans (W6_launch m c b h)
theorem W8_launch (c : Dev nD) (b : Ref sig .tc) (h : Unwritten b := by decide) :
    W8 m c (Proc.devRef .tc b) = m ((c : Thread nD τ).loc b) :=
  (W8_keep m c b h.2.2.2.2.2.2.2.1).trans (W7_launch m c b h)
theorem W9_launch (c : Dev nD) (b : Ref sig .tc) (h : Unwritten b := by decide) :
    W9 m c (Proc.devRef .tc b) = m ((c : Thread nD τ).loc b) :=
  (W9_keep m c b h.2.2.2.2.2.2.2.2.1).trans (W8_launch m c b h)
theorem W10_launch (c : Dev nD) (b : Ref sig .tc) (h : Unwritten b := by decide) :
    W10 m c (Proc.devRef .tc b) = m ((c : Thread nD τ).loc b) :=
  (W10_keep m c b h.2.2.2.2.2.2.2.2.2.1).trans (W9_launch m c b h)
theorem W11_launch (c : Dev nD) (b : Ref sig .tc) (h : Unwritten b := by decide) :
    W11 m c (Proc.devRef .tc b) = m ((c : Thread nD τ).loc b) :=
  (W11_keep m c b h.2.2.2.2.2.2.2.2.2.2).trans (W10_launch m c b h)

theorem W11_main_v58 (c : Dev nD) : W11 m c (Proc.devRef .tc main_v58) = (dat5 (A10 m) c).arrAt 5 cfg5.N :=
  W11_arr m c 5
theorem W11_main_v50 (c : Dev nD) : W11 m c (Proc.devRef .tc main_v50) = (dat4 (A8 m) c).arrAt 5 cfg4.N :=
  (W11_keep m c main_v50 (by decide)).trans <| (W10_keep m c main_v50 (by decide)).trans <| W9_arr m c 5

end Cert.Kernel.Reg

end
-- ==== Proof.K.Regs.lean ====
/-
  The six kernel regions as segments of the main function's run.  Between two items a core holds every
  buffer that is not a kernel's own at the boundary's contents, its generator register at some state,
  and owes nothing.  A region splits its arrays out of those buffers, runs its pipeline over the grid
  (the body's obligation is the region's own module), and puts the arrays back at the exit contents; the
  generator register goes into the pipeline's invariant and comes out again.  Region 5 carries a scratch
  between grid points: its invariant is entered from, and left at, the plain one.
-/
import proofs.«418024_j36704790511896_3_alg».proof.Proof.K.Fold

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Every pipeline's proof data, each at its region's entry contents. -/
def pdats : (p : Fin 6) → (c : Dev nD) → Dat τ (Elt F) Unit ℕ (UR sig nD τ) ℕ (Pipeline.pin (pcfgs (F := F)) adm p) c
  | ⟨0, _⟩ => fun c => dat0 (A1 m) c
  | ⟨1, _⟩ => fun c => dat1 (A3 m) c
  | ⟨2, _⟩ => fun c => dat2 (A5 m) c
  | ⟨3, _⟩ => fun c => dat3 (A6 m) c
  | ⟨4, _⟩ => fun c => dat4 (A8 m) c
  | ⟨5, _⟩ => fun c => dat5 (A10 m) c

/-- No core owes another anything: no level is assigned. -/
abbrev Lr : GSem nD τ sig → Finset Unit := fun _ => ∅
abbrev lvr : GSem nD τ sig → Unit → ℕ := fun _ _ => 0
/-- What rides beside the buffers through every segment: the generator register at some state, and nothing owed. -/
abbrev Rr (c : Dev nD) : sProp 𝕄 := iprop((∃ r, prngReg c r) ∗ ∃ W, owes (c : Thread nD τ) (0 : CellTallies nD τ sig Unit) W)
/-- The last thread state without the debts: every buffer at the last boundary's contents, the generator register at some state. -/
abbrev TN (c : Dev nD) : sProp 𝕄 := iprop(StableHlo.held (c : Thread nD τ) (Pipeline.ucRefs τ sig) (W11 m c) ∗ ∃ r, prngReg c r)
/-- A host stretch as a segment, from given contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none Lr lvr :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr

/-- The plain invariant of region 5 from what its entry hands over: the generator register and the kernels' own buffers. -/
theorem phiA_in5 (c : Dev nD) (P : sProp 𝕄) :
    iprop((∃ r, prngReg c r) ∗ P ∗ Pipeline.scopedRest spec5 c) ⊢ (Pipeline.ΦA spec5 c : sProp 𝕄) := by
  unfold Pipeline.ΦA
  iintro ⟨Hp, -, Hr⟩
  isplitl [Hr]; · iexact Hr
  iexact Hp
/-- and back, at its exit. -/
theorem phiA_out5 (c : Dev nD) :
    (Pipeline.ΦA spec5 c : sProp 𝕄) ⊢ iprop((∃ r, prngReg c r) ∗ BI.emp ∗ Pipeline.scopedRest spec5 c) := by
  unfold Pipeline.ΦA
  iintro ⟨Hr, Hp⟩
  isplitl [Hp]; · iexact Hp
  isplitr; · iempintro
  iexact Hr

set_option backward.isDefEq.respectTransparency.types false in
/-- Region 0 over the thread state: entered from the contents at boundary 1, left at boundary 2. -/
def reg0 : Pipeline.RegionSeg (pcfgs (F := F)) adm (pdats m) () defs₀ Variants.none Lr lvr 0 where
  win := launch0.win.to₀
  block_pos := launch0.block_pos
  stage_whole := launch0.stage_whole
  K := PEmpty
  osem k := k.elim
  ho := Pipeline.OwnSemFacts.none _
  hbody c := (body_obligation0 (A1 m) c).loose
  hwaits := Pipeline.hwaits_of_owed_zero _ _ _ _ Lr lvr 0 fun _ _ => rfl
  pre c := iprop(StableHlo.held (c : Thread nD τ) (Pipeline.ucRefs τ sig) (W1 m c) ∗ Rr c)
  post c := iprop(StableHlo.held (c : Thread nD τ) (Pipeline.ucRefs τ sig) (W2 m c) ∗ Rr c)
  X c := iprop(∃ r, prngReg c r)
  Y c := iprop(∃ r, prngReg c r)
  Z c := Pipeline.unscopedRest (Ix := Unit) (Name := ℕ) (U := UR sig nD τ) (Lvl := ℕ) spec0 c (A1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (A1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (A1 m c) (A2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from the contents at boundary 3, left at boundary 4. -/
def reg1 : Pipeline.RegionSeg (pcfgs (F := F)) adm (pdats m) () defs₀ Variants.none Lr lvr 1 where
  win := launch1.win.to₀
  block_pos := launch1.block_pos
  stage_whole := launch1.stage_whole
  K := PEmpty
  osem k := k.elim
  ho := Pipeline.OwnSemFacts.none _
  hbody c := (body_obligation1 (A3 m) c).loose
  hwaits := Pipeline.hwaits_of_owed_zero _ _ _ _ Lr lvr 1 fun _ _ => rfl
  pre c := iprop(StableHlo.held (c : Thread nD τ) (Pipeline.ucRefs τ sig) (W3 m c) ∗ Rr c)
  post c := iprop(StableHlo.held (c : Thread nD τ) (Pipeline.ucRefs τ sig) (W4 m c) ∗ Rr c)
  X c := iprop(∃ r, prngReg c r)
  Y c := iprop(∃ r, prngReg c r)
  Z c := Pipeline.unscopedRest (Ix := Unit) (Name := ℕ) (U := UR sig nD τ) (Lvl := ℕ) spec1 c (A3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (A3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (A3 m c) (A4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from the contents at boundary 5, left at boundary 6. -/
def reg2 : Pipeline.RegionSeg (pcfgs (F := F)) adm (pdats m) () defs₀ Variants.none Lr lvr 2 where
  win := launch2.win.to₀
  block_pos := launch2.block_pos
  stage_whole := launch2.stage_whole
  K := PEmpty
  osem k := k.elim
  ho := Pipeline.OwnSemFacts.none _
  hbody c := (body_obligation2 (A5 m) c).loose
  hwaits := Pipeline.hwaits_of_owed_zero _ _ _ _ Lr lvr 2 fun _ _ => rfl
  pre c := iprop(StableHlo.held (c : Thread nD τ) (Pipeline.ucRefs τ sig) (W5 m c) ∗ Rr c)
  post c := iprop(StableHlo.held (c : Thread nD τ) (Pipeline.ucRefs τ sig) (W6 m c) ∗ Rr c)
  X c := iprop(∃ r, prngReg c r)
  Y c := iprop(∃ r, prngReg c r)
  Z c := Pipeline.unscopedRest (Ix := Unit) (Name := ℕ) (U := UR sig nD τ) (Lvl := ℕ) spec2 c (A5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (A5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (A5 m c) (A6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from the contents at boundary 6, left at boundary 7. -/
def reg3 : Pipeline.RegionSeg (pcfgs (F := F)) adm (pdats m) () defs₀ Variants.none Lr lvr 3 where
  win := launch3.win.to₀
  block_pos := launch3.block_pos
  stage_whole := launch3.stage_whole
  K := PEmpty
  osem k := k.elim
  ho := Pipeline.OwnSemFacts.none _
  hbody c := (body_obligation3 (A6 m) c).loose
  hwaits := Pipeline.hwaits_of_owed_zero _ _ _ _ Lr lvr 3 fun _ _ => rfl
  pre c := iprop(StableHlo.held (c : Thread nD τ) (Pipeline.ucRefs τ sig) (W6 m c) ∗ Rr c)
  post c := iprop(StableHlo.held (c : Thread nD τ) (Pipeline.ucRefs τ sig) (W7 m c) ∗ Rr c)
  X c := iprop(∃ r, prngReg c r)
  Y c := iprop(∃ r, prngReg c r)
  Z c := Pipeline.unscopedRest (Ix := Unit) (Name := ℕ) (U := UR sig nD τ) (Lvl := ℕ) spec3 c (A6 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (A6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (A6 m c) (A7 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from the contents at boundary 8, left at boundary 9. -/
def reg4 : Pipeline.RegionSeg (pcfgs (F := F)) adm (pdats m) () defs₀ Variants.none Lr lvr 4 where
  win := launch4.win.to₀
  block_pos := launch4.block_pos
  stage_whole := launch4.stage_whole
  K := PEmpty
  osem k := k.elim
  ho := Pipeline.OwnSemFacts.none _
  hbody c := (body_obligation4 (A8 m) c).loose
  hwaits := Pipeline.hwaits_of_owed_zero _ _ _ _ Lr lvr 4 fun _ _ => rfl
  pre c := iprop(StableHlo.held (c : Thread nD τ) (Pipeline.ucRefs τ sig) (W8 m c) ∗ Rr c)
  post c := iprop(StableHlo.held (c : Thread nD τ) (Pipeline.ucRefs τ sig) (W9 m c) ∗ Rr c)
  X c := iprop(∃ r, prngReg c r)
  Y c := iprop(∃ r, prngReg c r)
  Z c := Pipeline.unscopedRest (Ix := Unit) (Name := ℕ) (U := UR sig nD τ) (Lvl := ℕ) spec4 c (A8 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (A8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (A8 m c) (A9 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from the contents at boundary 10, left at boundary 11. -/
def reg5 : Pipeline.RegionSeg (pcfgs (F := F)) adm (pdats m) () defs₀ Variants.none Lr lvr 5 where
  win := launch5.win.to₀
  block_pos := launch5.block_pos
  stage_whole := launch5.stage_whole
  K := PEmpty
  osem k := k.elim
  ho := Pipeline.OwnSemFacts.none _
  hbody c := (body_obligation5 (A10 m) c).loose
  hwaits := Pipeline.hwaits_of_owed_zero _ _ _ _ Lr lvr 5 fun _ _ => rfl
  pre c := iprop(StableHlo.held (c : Thread nD τ) (Pipeline.ucRefs τ sig) (W10 m c) ∗ Rr c)
  post c := iprop(TN m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (A10 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (A10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = (dat5 (A10 m) c).Φ 0 from rfl]
    exact (phiA_in5 c _).trans (hin5 (A10 m) c)
  hout c := by
    rw [Pipeline.ownSems0_none, show (pdats m 5 c).Φ (Fin.last _) = (dat5 (A10 m) c).Φ (Fin.last cfg5.N) from rfl]
    exact (hout5 (A10 m) c).trans (phiA_out5 c)
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (A10 m c) (A11 m c) ((pdats m 5 c).arrAt · cfg5.N) (hF5 m c) (hrest5 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.Kernel.Reg

end
-- ==== Proof.K.Run.lean ====
import proofs.«418024_j36704790511896_3_alg».proof.Proof.K.Regs

/-! The main function's run: its eleven items chained from the launch memory. -/

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev mainSegs : List (Pipeline.Seg (pcfgs (F := F)) adm (pdats m) () defs₀ Variants.none Lr lvr) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .region (reg3 m),
    .host (hseg hostOps4 hostOps4_sub hostOps4_fresh (W7 m)),
    .region (reg4 m),
    .host (hseg hostOps5 hostOps5_sub hostOps5_fresh (W9 m)),
    .region (reg5 m) ]

theorem main_run (c : Dev nD) : main (F := F) c = Pipeline.Seg.run (mainSegs m) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
theorem run_all : θ_run defs (onTc (τ := τ) (main (F := F))) ⟨m, fun _ => 0, ρ⟩
    (fun r => ∀ c : Dev nD, ∀ b ∈ Pipeline.ucRefs τ sig, r.2.mem (((c : Thread nD τ)).1, b) = W11 m c b) :=
  Pipeline.θ_run_regions_kit (pcfgs (F := F)) adm (pdats m) () cellOf_inj emb₁ defs₀ Variants.none Lr lvr m ρ main (mainSegs m)
    (fun c Q => by rw [main_run m c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rr c)) (Tₙ := TN m)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl⟩)
    (hinit := by
      refine Pipeline.initEach Lr lvr fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m c b)
    (hfin := fun c s' => by
      iintro ⟨⟨Hh, -⟩, HSI⟩
      unfold StableHlo.held
      imodintro
      iapply (pointsTo_read_all (Pipeline.ucRefs τ sig) (fun b => (((c : Thread nD τ)).1, b)) (W11 m c) s')
      isplitl [Hh] <;> iassumption)
    (hQ := fun s h c => h c)

/-- What the frame claims of one buffer. -/
abbrev Kept (mem : (ℓ : Loc nD τ sig) → Buf (Elt F) ℓ) (c : Dev nD) (b : Ref sig .tc) : Prop :=
  mem ((c : Thread nD τ).loc b) = m ((c : Thread nD τ).loc b)

variable {m} {mem : (ℓ : Loc nD τ sig) → Buf (Elt F) ℓ} {c : Dev nD}
  (h : ∀ b ∈ Pipeline.ucRefs τ sig, mem ((c : Thread nD τ).1, b) = W11 m c b)
include h

theorem kept_of_end (b : Ref sig .tc) (hs : ¬ (Proc.devRef .tc b : DevRef τ sig).isScoped := by decide)
    (hu : Unwritten b := by decide) : Kept m mem c b :=
  (h _ (mem_uc b hs)).trans (W11_launch m c b hu)

theorem args_kept : Kept m mem c main_arg0 ∧ Kept m mem c main_arg1 ∧ Kept m mem c main_arg2 ∧ Kept m mem c main_arg3 ∧
    Kept m mem c main_arg4 ∧ Kept m mem c main_arg5 ∧ Kept m mem c main_arg6 ∧ Kept m mem c main_arg7 ∧ Kept m mem c main_arg8 ∧
    Kept m mem c main_arg9 ∧ Kept m mem c main_arg10 ∧ Kept m mem c main_arg11 ∧ Kept m mem c main_arg12 ∧ Kept m mem c main_arg13 :=
  ⟨kept_of_end h main_arg0, kept_of_end h main_arg1, kept_of_end h main_arg2, kept_of_end h main_arg3, kept_of_end h main_arg4,
    kept_of_end h main_arg5, kept_of_end h main_arg6, kept_of_end h main_arg7, kept_of_end h main_arg8, kept_of_end h main_arg9,
    kept_of_end h main_arg10, kept_of_end h main_arg11, kept_of_end h main_arg12, kept_of_end h main_arg13⟩

end Cert.Kernel.Reg

end
-- ==== Proof.KI.R0.lean ====
import proofs.«418024_j36704790511896_3_alg».proof.Proof.Gen.KernelIdeal.Launch
import proofs.«418024_j36704790511896_3_alg».proof.Proof.Gen.KernelIdeal.Skeleton
import proofs.«418024_j36704790511896_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 0: what the body leaves in its output block as a function of its input blocks, and the body's triple. -/

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S10000x64 := Rect.unit (s := S10000x64) ![0, 0] S10000x64.size inb_S10000x64_S10000x64_0_0
abbrev r0_1 : Rect S64x16 := Rect.unit (s := S64x16) ![0, 0] S64x16.size inb_S64x16_S64x16_0_0
abbrev r0_2 : Rect S10000x16 := Rect.unit (s := S10000x16) ![0, 0] S10000x16.size inb_S10000x16_S10000x16_0_0

def out0_2 (x0 : Vec F S10000x64 .f32) (x1 : Vec F S64x16 .f32) : Vec F S10000x16 .f32 :=
  View.canon [⟨r0_2, k0_pay1 (View.ld x0 r0_0) (View.ld x1 r0_1)⟩]

theorem cover0_2 (p0 : Vec F S10000x16 .f32) (y : S10000x16.Idx) :
    ∃ pc ∈ ([⟨r0_2, p0⟩] : List (View.Piece (Elt F) S10000x16 .f32)), y ∈ pc.1.set :=
  View.cover_of_tiled [⟨r0_2, p0⟩] S10000x16.size (by rfl) y

set_option maxHeartbeats 1000000 in
theorem sound_kernel0 (c : Dev nD) (E : Set ℕ) (i : grid0.Coords) (arg1 : Memref sig .tc .vmem S10000x64 .f32) (harg1 : arg1.IsWhole) (arg2 : Memref sig .tc .vmem S64x16 .f32) (harg2 : arg2.IsWhole) (arg3 : Memref sig .tc .vmem S10000x16 .f32) (harg3 : arg3.IsWhole)
    (x0 : Vec F S10000x64 .f32) (x1 : Vec F S64x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__project_kernel i arg1 harg1 arg2 harg2 arg3 harg3) K := by
  simp only [cc0__project_kernel_eq_skeleton]; unfold cc0__project_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0 V c]; unfold Dat.blockOf iblk0; rw [A_eq0 V c]; try rfl) t d).trans
    (by unfold Dat.fetched Dat.blockOf iblk0; rw [A_eq0 V c]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1 V c]; unfold Dat.blockOf iblk0; rw [A_eq0 V c]; try rfl) t d).trans
    (by unfold Dat.fetched Dat.blockOf iblk0; rw [A_eq0 V c]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Reg

end
-- ==== Proof.KI.R1.lean ====
import proofs.«418024_j36704790511896_3_alg».proof.Proof.Gen.KernelIdeal.Launch
import proofs.«418024_j36704790511896_3_alg».proof.Proof.Gen.KernelIdeal.Skeleton
import proofs.«418024_j36704790511896_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 1: what the body leaves in its output block as a function of its input blocks, and the body's triple. -/

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S5000x16 := Rect.unit (s := S5000x16) ![0, 0] S5000x16.size inb_S5000x16_S5000x16_0_0
abbrev r1_1 : Rect S5000x64 := Rect.unit (s := S5000x64) ![0, 0] S5000x64.size inb_S5000x64_S5000x64_0_0
abbrev r1_2 : Rect S5000x1 := Rect.unit (s := S5000x1) ![0, 0] S5000x1.size inb_S5000x1_S5000x1_0_0
abbrev r1_3 : Rect S64x16 := Rect.unit (s := S64x16) ![0, 0] S64x16.size inb_S64x16_S64x16_0_0
abbrev r1_4 : Rect S1x16 := Rect.unit (s := S1x16) ![0, 0] S1x16.size inb_S1x16_S1x16_0_0

def out1_5 (x0 : Vec F S5000x16 .f32) (x1 : Vec F S5000x64 .f32) (x2 : Vec F S5000x1 .f32) (x3 : Vec F S64x16 .f32) (x4 : Vec F S1x16 .f32) : Vec F S5000x16 .f32 :=
  View.canon [⟨r1_0, k1_pay1 (View.ld x0 r1_0) (View.ld x2 r1_2) (View.ld x1 r1_1) (View.ld x3 r1_3) (View.ld x4 r1_4)⟩]

theorem cover1_5 (p0 : Vec F S5000x16 .f32) (y : S5000x16.Idx) :
    ∃ pc ∈ ([⟨r1_0, p0⟩] : List (View.Piece (Elt F) S5000x16 .f32)), y ∈ pc.1.set :=
  View.cover_of_tiled [⟨r1_0, p0⟩] S5000x16.size (by rfl) y

set_option maxHeartbeats 1000000 in
theorem sound_kernel1 (c : Dev nD) (E : Set ℕ) (i : grid1.Coords) (arg1 : Memref sig .tc .vmem S5000x16 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64x16 .f32) (harg4 : arg4.IsWhole) (arg5 : Memref sig .tc .vmem S1x16 .f32) (harg5 : arg5.IsWhole) (arg6 : Memref sig .tc .vmem S5000x16 .f32) (harg6 : arg6.IsWhole)
    (x0 : Vec F S5000x16 .f32) (x1 : Vec F S5000x64 .f32) (x2 : Vec F S5000x1 .f32) (x3 : Vec F S64x16 .f32) (x4 : Vec F S1x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__combine_proj_kernel i arg1 harg1 arg2 harg2 arg3 harg3 arg4 harg4 arg5 harg5 arg6 harg6) K := by
  simp only [cc1__combine_proj_kernel_eq_skeleton]; unfold cc1__combine_proj_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0 V c]; unfold Dat.blockOf iblk1; rw [A_eq1 V c]; try rfl) t d).trans
    (by unfold Dat.fetched Dat.blockOf iblk1; rw [A_eq1 V c]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1 V c]; unfold Dat.blockOf iblk1; rw [A_eq1 V c]; try rfl) t d).trans
    (by unfold Dat.fetched Dat.blockOf iblk1; rw [A_eq1 V c]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2 V c]; unfold Dat.blockOf iblk1; rw [A_eq1 V c]; try rfl) t d).trans
    (by unfold Dat.fetched Dat.blockOf iblk1; rw [A_eq1 V c]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3 V c]; unfold Dat.blockOf iblk1; rw [A_eq1 V c]; try rfl) t d).trans
    (by unfold Dat.fetched Dat.blockOf iblk1; rw [A_eq1 V c]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4 V c]; unfold Dat.blockOf iblk1; rw [A_eq1 V c]; try rfl) t d).trans
    (by unfold Dat.fetched Dat.blockOf iblk1; rw [A_eq1 V c]; try rfl)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

end Cert.KernelIdeal.Reg

end
-- ==== Proof.KI.R2.lean ====
import proofs.«418024_j36704790511896_3_alg».proof.Proof.Gen.KernelIdeal.Launch
import proofs.«418024_j36704790511896_3_alg».proof.Proof.Gen.KernelIdeal.Skeleton
import proofs.«418024_j36704790511896_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 2: what the body leaves in its output blocks as a function of its input blocks, and the body's triple. -/

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S5000x16 := Rect.unit (s := S5000x16) ![0, 0] S5000x16.size inb_S5000x16_S5000x16_0_0
abbrev r2_1 : Rect S5000x1 := Rect.unit (s := S5000x1) ![0, 0] S5000x1.size inb_S5000x1_S5000x1_0_0
abbrev r2_2 : Rect S16x32 := Rect.unit (s := S16x32) ![0, 0] S16x32.size inb_S16x32_S16x32_0_0
abbrev r2_3 : Rect S1x32 := Rect.unit (s := S1x32) ![0, 0] S1x32.size inb_S1x32_S1x32_0_0
abbrev r2_4 : Rect S5000x32 := Rect.unit (s := S5000x32) ![0, 0] S5000x32.size inb_S5000x32_S5000x32_0_0

def out2_6 (x0 : Vec F S5000x16 .f32) (x1 : Vec F S5000x16 .f32) (x2 : Vec F S5000x1 .f32) (x3 : Vec F S16x32 .f32)
    (x4 : Vec F S1x32 .f32) (x5 : Vec F S16x32 .f32) : Vec F S5000x32 .f32 :=
  View.canon [⟨r2_4, k2_pay1 (View.ld x0 r2_0) (View.ld x2 r2_1) (View.ld x3 r2_2) (View.ld x1 r2_0) (View.ld x5 r2_2) (View.ld x4 r2_3)⟩]

def out2_7 (x0 : Vec F S5000x16 .f32) (x1 : Vec F S5000x16 .f32) (x2 : Vec F S5000x1 .f32) (x3 : Vec F S16x32 .f32)
    (x4 : Vec F S1x32 .f32) (x5 : Vec F S16x32 .f32) : Vec F S5000x32 .f32 :=
  View.canon [⟨r2_4, k2_pay2 (View.ld x0 r2_0) (View.ld x2 r2_1) (View.ld x3 r2_2) (View.ld x1 r2_0) (View.ld x5 r2_2) (View.ld x4 r2_3)⟩]

theorem cover2_6 (p0 : Vec F S5000x32 .f32) (y : S5000x32.Idx) :
    ∃ pc ∈ ([⟨r2_4, p0⟩] : List (View.Piece (Elt F) S5000x32 .f32)), y ∈ pc.1.set :=
  View.cover_of_tiled [⟨r2_4, p0⟩] S5000x32.size (by rfl) y
theorem cover2_7 (p0 : Vec F S5000x32 .f32) (y : S5000x32.Idx) :
    ∃ pc ∈ ([⟨r2_4, p0⟩] : List (View.Piece (Elt F) S5000x32 .f32)), y ∈ pc.1.set :=
  View.cover_of_tiled [⟨r2_4, p0⟩] S5000x32.size (by rfl) y

set_option maxHeartbeats 4000000 in
theorem sound_kernel2 (c : Dev nD) (E : Set ℕ) (i : grid2.Coords)
    (arg1 : Memref sig .tc .vmem S5000x16 .f32) (harg1 : arg1.IsWhole) (arg2 : Memref sig .tc .vmem S5000x16 .f32) (harg2 : arg2.IsWhole)
    (arg3 : Memref sig .tc .vmem S5000x1 .f32) (harg3 : arg3.IsWhole) (arg4 : Memref sig .tc .vmem S16x32 .f32) (harg4 : arg4.IsWhole)
    (arg5 : Memref sig .tc .vmem S1x32 .f32) (harg5 : arg5.IsWhole) (arg6 : Memref sig .tc .vmem S16x32 .f32) (harg6 : arg6.IsWhole)
    (arg7 : Memref sig .tc .vmem S5000x32 .f32) (harg7 : arg7.IsWhole) (arg8 : Memref sig .tc .vmem S5000x32 .f32) (harg8 : arg8.IsWhole)
    (x0 : Vec F S5000x16 .f32) (x1 : Vec F S5000x16 .f32) (x2 : Vec F S5000x1 .f32) (x3 : Vec F S16x32 .f32)
    (x4 : Vec F S1x32 .f32) (x5 : Vec F S16x32 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5)
            ∗ owns (c : Thread nD τ) arg8 fullShare (out2_7 x0 x1 x2 x3 x4 x5)) -∗ K ⟨⟩))
      ⊢ wp frame (wpE (defs₀ (F := F)) Variants.none c none) E (cc2__combine_mean_kernel i arg1 harg1 arg2 harg2 arg3 harg3 arg4 harg4 arg5 harg5 arg6 harg6 arg7 harg7 arg8 harg8) K := by
  simp only [cc2__combine_mean_kernel_eq_skeleton]; unfold cc2__combine_mean_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover2_6 _)
  iexists _; isplitr
  swap; · iexact H7
  ipureintro
  exact View.read_writes_eq_canon _ _ _ (cover2_7 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
    | ⟨7, _⟩ => out2_7 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t
    = out2_6 (iblk2 V c 0 t) (iblk2 V c 1 t) (iblk2 V c 2 t) (iblk2 V c 3 t) (iblk2 V c 4 t) (iblk2 V c 5 t) := by dsimp only [dat2]
theorem after2_7 (c : Dev nD) (t : Fin cfg2.N) : (dat2 V c).after 7 t
    = out2_7 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0 V c]; unfold Dat.blockOf iblk2; rw [A_eq2 V c]; try rfl) t d).trans
    (by unfold Dat.fetched Dat.blockOf iblk2; rw [A_eq2 V c]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1 V c]; unfold Dat.blockOf iblk2; rw [A_eq2 V c]; try rfl) t d).trans
    (by unfold Dat.fetched Dat.blockOf iblk2; rw [A_eq2 V c]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2 V c]; unfold Dat.blockOf iblk2; rw [A_eq2 V c]; try rfl) t d).trans
    (by unfold Dat.fetched Dat.blockOf iblk2; rw [A_eq2 V c]; try rfl)
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3 V c]; unfold Dat.blockOf iblk2; rw [A_eq2 V c]; try rfl) t d).trans
    (by unfold Dat.fetched Dat.blockOf iblk2; rw [A_eq2 V c]; try rfl)
theorem before2_4 (c : Dev nD) (t : Fin cfg2.N) (d) : (dat2 V c).before 4 t d = iblk2 V c 4 t :=
  ((dat2 V c).before_in_eq_fetched 4 rfl (fun _ => rfl) (fun _ _ _ => rfl)
    (fun t => by rw [after2_4 V c]; unfold Dat.blockOf iblk2; rw [A_eq2 V c]; try rfl) t d).trans
    (by unfold Dat.fetched Dat.blockOf iblk2; rw [A_eq2 V c]; try rfl)
theorem before2_5 (c : Dev nD) (t : Fin cfg2.N) (d) : (dat2 V c).before 5 t d = iblk2 V c 5 t :=
  ((dat2 V c).before_in_eq_fetched 5 rfl (fun _ => rfl) (fun _ _ _ => rfl)
    (fun t => by rw [after2_5 V c]; unfold Dat.blockOf iblk2; rw [A_eq2 V c]; try rfl) t d).trans
    (by unfold Dat.fetched Dat.blockOf iblk2; rw [A_eq2 V c]; try rfl)

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ (grid2.coords t) _ _ _ _ _ _ _ _ _ _ _ _ _ _ _ _
    (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation2 (c : Dev nD) : BodyObligation (dat2 (F := F) V c) (defs₀ (F := F)) Variants.none () Set.univ := fun t => by
  rw [bigSep_W2, bigSep_W2]
  exact sound_body2 V c t

end Cert.KernelIdeal.Reg

end
-- ==== Proof.KI.R3.lean ====
import proofs.«418024_j36704790511896_3_alg».proof.Proof.Gen.KernelIdeal.Launch
import proofs.«418024_j36704790511896_3_alg».proof.Proof.Gen.KernelIdeal.Skeleton
import proofs.«418024_j36704790511896_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 3: what the body leaves in its output block as a function of its input blocks, and the body's triple. -/

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S10000x32 := Rect.unit (s := S10000x32) ![0, 0] S10000x32.size inb_S10000x32_S10000x32_0_0
abbrev r3_1 : Rect S32x21 := Rect.unit (s := S32x21) ![0, 0] S32x21.size inb_S32x21_S32x21_0_0
abbrev r3_2 : Rect S10000x21 := Rect.unit (s := S10000x21) ![0, 0] S10000x21.size inb_S10000x21_S10000x21_0_0

def out3_2 (x0 : Vec F S10000x32 .f32) (x1 : Vec F S32x21 .f32) : Vec F S10000x21 .f32 :=
  View.canon [⟨r3_2, k3_pay1 (View.ld x0 r3_0) (View.ld x1 r3_1)⟩]

theorem cover3_2 (p0 : Vec F S10000x21 .f32) (y : S10000x21.Idx) :
    ∃ pc ∈ ([⟨r3_2, p0⟩] : List (View.Piece (Elt F) S10000x21 .f32)), y ∈ pc.1.set :=
  View.cover_of_tiled [⟨r3_2, p0⟩] S10000x21.size (by rfl) y

set_option maxHeartbeats 1000000 in
theorem sound_kernel3 (c : Dev nD) (E : Set ℕ) (i : grid3.Coords) (arg1 : Memref sig .tc .vmem S10000x32 .f32) (harg1 : arg1.IsWhole) (arg2 : Memref sig .tc .vmem S32x21 .f32) (harg2 : arg2.IsWhole) (arg3 : Memref sig .tc .vmem S10000x21 .f32) (harg3 : arg3.IsWhole)
    (x0 : Vec F S10000x32 .f32) (x1 : Vec F S32x21 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__project_kernel i arg1 harg1 arg2 harg2 arg3 harg3) K := by
  simp only [cc3__project_kernel_eq_skeleton]; unfold cc3__project_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0 V c]; unfold Dat.blockOf iblk3; rw [A_eq3 V c]; try rfl) t d).trans
    (by unfold Dat.fetched Dat.blockOf iblk3; rw [A_eq3 V c]; try rfl)
theorem before3_1 (c : Dev nD) (t : Fin cfg3.N) (d) : (dat3 V c).before 1 t d = iblk3 V c 1 t :=
  ((dat3 V c).before_in_eq_fetched 1 rfl (fun _ => rfl) (fun _ _ _ => rfl)
    (fun t => by rw [after3_1 V c]; unfold Dat.blockOf iblk3; rw [A_eq3 V c]; try rfl) t d).trans
    (by unfold Dat.fetched Dat.blockOf iblk3; rw [A_eq3 V c]; try rfl)

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ (grid3.coords t) _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (c : Dev nD) : BodyObligation (dat3 (F := F) V c) (defs₀ (F := F)) Variants.none () Set.univ := fun t => by
  rw [bigSep_W3, bigSep_W3]
  exact sound_body3 V c t

end Cert.KernelIdeal.Reg

end
-- ==== Proof.KI.R4.lean ====
import proofs.«418024_j36704790511896_3_alg».proof.Proof.Gen.KernelIdeal.Launch
import proofs.«418024_j36704790511896_3_alg».proof.Proof.Gen.KernelIdeal.Skeleton
import proofs.«418024_j36704790511896_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 4: what the body leaves in its output block as a function of its input blocks, and the body's triple. -/

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S5000x21 := Rect.unit (s := S5000x21) ![0, 0] S5000x21.size inb_S5000x21_S5000x21_0_0
abbrev r4_1 : Rect S5000x32 := Rect.unit (s := S5000x32) ![0, 0] S5000x32.size inb_S5000x32_S5000x32_0_0
abbrev r4_2 : Rect S5000x1 := Rect.unit (s := S5000x1) ![0, 0] S5000x1.size inb_S5000x1_S5000x1_0_0
abbrev r4_3 : Rect S32x21 := Rect.unit (s := S32x21) ![0, 0] S32x21.size inb_S32x21_S32x21_0_0
abbrev r4_4 : Rect S1x21 := Rect.unit (s := S1x21) ![0, 0] S1x21.size inb_S1x21_S1x21_0_0

def out4_5 (x0 : Vec F S5000x21 .f32) (x1 : Vec F S5000x32 .f32) (x2 : Vec F S5000x1 .f32) (x3 : Vec F S32x21 .f32) (x4 : Vec F S1x21 .f32) : Vec F S5000x21 .f32 :=
  View.canon [⟨r4_0, k4_pay1 (View.ld x0 r4_0) (View.ld x2 r4_2) (View.ld x1 r4_1) (View.ld x3 r4_3) (View.ld x4 r4_4)⟩]

theorem cover4_5 (p0 : Vec F S5000x21 .f32) (y : S5000x21.Idx) :
    ∃ pc ∈ ([⟨r4_0, p0⟩] : List (View.Piece (Elt F) S5000x21 .f32)), y ∈ pc.1.set :=
  View.cover_of_tiled [⟨r4_0, p0⟩] S5000x21.size (by rfl) y

set_option maxHeartbeats 1000000 in
theorem sound_kernel4 (c : Dev nD) (E : Set ℕ) (i : grid4.Coords) (arg1 : Memref sig .tc .vmem S5000x21 .f32) (harg1 : arg1.IsWhole) (arg2 : Memref sig .tc .vmem S5000x32 .f32) (harg2 : arg2.IsWhole) (arg3 : Memref sig .tc .vmem S5000x1 .f32) (harg3 : arg3.IsWhole) (arg4 : Memref sig .tc .vmem S32x21 .f32) (harg4 : arg4.IsWhole) (arg5 : Memref sig .tc .vmem S1x21 .f32) (harg5 : arg5.IsWhole) (arg6 : Memref sig .tc .vmem S5000x21 .f32) (harg6 : arg6.IsWhole)
    (x0 : Vec F S5000x21 .f32) (x1 : Vec F S5000x32 .f32) (x2 : Vec F S5000x1 .f32) (x3 : Vec F S32x21 .f32) (x4 : Vec F S1x21 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out4_5 x0 x1 x2 x3 x4)) -∗ K ⟨⟩))
      ⊢ wp frame (wpE (defs₀ (F := F)) Variants.none c none) E (cc4__combine_proj_kernel i arg1 harg1 arg2 harg2 arg3 harg3 arg4 harg4 arg5 harg5 arg6 harg6) K := by
  simp only [cc4__combine_proj_kernel_eq_skeleton]; unfold cc4__combine_proj_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = out4_5 (iblk4 V c 0 t) (iblk4 V c 1 t) (iblk4 V c 2 t) (iblk4 V c 3 t) (iblk4 V c 4 t) := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl)
    (fun t => by rw [after4_0 V c]; unfold Dat.blockOf iblk4; rw [A_eq4 V c]; try rfl) t d).trans
    (by unfold Dat.fetched Dat.blockOf iblk4; rw [A_eq4 V c]; try rfl)
theorem before4_1 (c : Dev nD) (t : Fin cfg4.N) (d) : (dat4 V c).before 1 t d = iblk4 V c 1 t :=
  ((dat4 V c).before_in_eq_fetched 1 rfl (fun _ => rfl) (fun _ _ _ => rfl)
    (fun t => by rw [after4_1 V c]; unfold Dat.blockOf iblk4; rw [A_eq4 V c]; try rfl) t d).trans
    (by unfold Dat.fetched Dat.blockOf iblk4; rw [A_eq4 V c]; try rfl)
theorem before4_2 (c : Dev nD) (t : Fin cfg4.N) (d) : (dat4 V c).before 2 t d = iblk4 V c 2 t :=
  ((dat4 V c).before_in_eq_fetched 2 rfl (fun _ => rfl) (fun _ _ _ => rfl)
    (fun t => by rw [after4_2 V c]; unfold Dat.blockOf iblk4; rw [A_eq4 V c]; try rfl) t d).trans
    (by unfold Dat.fetched Dat.blockOf iblk4; rw [A_eq4 V c]; try rfl)
theorem before4_3 (c : Dev nD) (t : Fin cfg4.N) (d) : (dat4 V c).before 3 t d = iblk4 V c 3 t :=
  ((dat4 V c).before_in_eq_fetched 3 rfl (fun _ => rfl) (fun _ _ _ => rfl)
    (fun t => by rw [after4_3 V c]; unfold Dat.blockOf iblk4; rw [A_eq4 V c]; try rfl) t d).trans
    (by unfold Dat.fetched Dat.blockOf iblk4; rw [A_eq4 V c]; try rfl)
theorem before4_4 (c : Dev nD) (t : Fin cfg4.N) (d) : (dat4 V c).before 4 t d = iblk4 V c 4 t :=
  ((dat4 V c).before_in_eq_fetched 4 rfl (fun _ => rfl) (fun _ _ _ => rfl)
    (fun t => by rw [after4_4 V c]; unfold Dat.blockOf iblk4; rw [A_eq4 V c]; try rfl) t d).trans
    (by unfold Dat.fetched Dat.blockOf iblk4; rw [A_eq4 V c]; try rfl)

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ (grid4.coords t) _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation4 (c : Dev nD) : BodyObligation (dat4 (F := F) V c) (defs₀ (F := F)) Variants.none () Set.univ := fun t => by
  rw [bigSep_W4, bigSep_W4]
  exact sound_body4 V c t

end Cert.KernelIdeal.Reg

end
-- ==== Proof.KI.R5Runs.lean ====
import proofs.«418024_j36704790511896_3_alg».proof.Proof.Gen.KernelIdeal.Launch
import proofs.«418024_j36704790511896_3_alg».proof.Proof.Gen.KernelIdeal.Skeleton
import proofs.«418024_j36704790511896_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 5 (pooling and classifier): its blocks, its branch conditions and the run of each control case. -/

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

end Blocks

abbrev cond5_0 (i : grid5.Coords) : Prop := (Scalar.cmpi .ne (Scalar.extui (Scalar.cmpi .eq (BitVec.ofNat 32 (i 0).val) 0#32)) 0#32) = 1#1

theorem hcond5_0 : ∀ t : Fin cfg5.N, cond5_0 (grid5.coords t) ↔ t.val % 10 = 0 :=
  (by decide +kernel : ∀ t : Fin grid5.N, cond5_0 (grid5.coords t) ↔ t.val % 10 = 0)

abbrev cond5_1 (i : grid5.Coords) : Prop := k5_cond2 i = 1#1

theorem hcond5_1 : ∀ t : Fin cfg5.N, cond5_1 (grid5.coords t) ↔ t.val % 10 = 9 :=
  (by decide +kernel : ∀ t : Fin grid5.N, cond5_1 (grid5.coords t) ↔ t.val % 10 = 9)

theorem liveAt5_0 : ∀ t : Fin cfg5.N, cfg5.idle 0 (grid5.coords t) = false := by decide +kernel
theorem liveAt5_1 : ∀ t : Fin cfg5.N, cfg5.idle 1 (grid5.coords t) = false := by decide +kernel
theorem liveAt5_2 : ∀ t : Fin cfg5.N, cfg5.idle 2 (grid5.coords t) = false := by decide +kernel
theorem liveAt5_3 : ∀ t : Fin cfg5.N, cfg5.idle 3 (grid5.coords t) = false := by decide +kernel
theorem liveAt5_4 : ∀ t : Fin cfg5.N, cfg5.idle 4 (grid5.coords t) = false := by decide +kernel

theorem idleAt5_5_A : ∀ t : Fin cfg5.N, cond5_0 (grid5.coords t) → ¬cond5_1 (grid5.coords t) → cfg5.idle 5 (grid5.coords t) = true := by decide +kernel
theorem noFlush5_5_A : ∀ t : Fin cfg5.N, cond5_0 (grid5.coords t) → ¬cond5_1 (grid5.coords t) → (cfg5.win 5).flush t = false := by decide +kernel

theorem idleAt5_5_B : ∀ t : Fin cfg5.N, ¬cond5_0 (grid5.coords t) → ¬cond5_1 (grid5.coords t) → cfg5.idle 5 (grid5.coords t) = true := by decide +kernel
theorem noFlush5_5_B : ∀ t : Fin cfg5.N, ¬cond5_0 (grid5.coords t) → ¬cond5_1 (grid5.coords t) → (cfg5.win 5).flush t = false := by decide +kernel

theorem liveAt5_5_C : ∀ t : Fin cfg5.N, ¬cond5_0 (grid5.coords t) → cond5_1 (grid5.coords t) → cfg5.idle 5 (grid5.coords t) = false := by decide +kernel

abbrev VO5_5 : View sig .tc .vmem S64x10 .f32 := (Memref.whole cc5_stg5_0 : Memref sig .tc .vmem S64x10 .f32).view
abbrev ms5_0 (t : Fin cfg5.N) : Memref sig .tc .vmem S10000x1 .i32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S10000x32 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S64x1 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S32x10 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S1x10 .f32 := win5_4.stage (cfg5.slots t 4)
abbrev hs5_4 (t : Fin cfg5.N) : (ms5_4 t).IsWhole := hstage5_4 ((cfg5.slots t 4).cast nbuf5_4)
abbrev ms5_5 (t : Fin cfg5.N) : Memref sig .tc .vmem S64x10 .f32 := win5_5.stage (cfg5.slots t 5)
abbrev hs5_5 (t : Fin cfg5.N) : (ms5_5 t).IsWhole := hstage5_5 ((cfg5.slots t 5).cast nbuf5_5)

abbrev scM5_0 : Memref sig .tc .vmem S64x32 .f32 := Memref.whole cc5_scratch0
abbrev VS5_0 : View sig .tc .vmem S64x32 .f32 := scM5_0.view

theorem PhiA5_eq (c : Dev nD) :
    (Pipeline.ΦA spec5 c : sProp 𝕄)
      = iprop(iprop(iprop((∃ d, owns (c : Thread nD τ) scM5_0 fullShare d))
          ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5_0, owns_whole]; try rfl

set_option maxHeartbeats 4000000 in

noncomputable def kernelRun5_A (c : Dev nD) (i : grid5.Coords) (arg1 : Memref sig .tc .vmem S10000x1 .i32) (harg1 : arg1.IsWhole) (arg2 : Memref sig .tc .vmem S10000x32 .f32) (harg2 : arg2.IsWhole) (arg3 : Memref sig .tc .vmem S64x1 .f32) (harg3 : arg3.IsWhole) (arg4 : Memref sig .tc .vmem S32x10 .f32) (harg4 : arg4.IsWhole) (arg5 : Memref sig .tc .vmem S1x10 .f32) (harg5 : arg5.IsWhole) (arg6 : Memref sig .tc .vmem S64x10 .f32) (harg6 : arg6.IsWhole) (arg7 : Memref sig .tc .vmem S64x32 .f32) (harg7 : arg7.IsWhole) (hc0 : cond5_0 i) (hc1 : ¬cond5_1 i)
    (x0 : Vec F S10000x1 .i32) (x1 : Vec F S10000x32 .f32) (x2 : Vec F S64x1 .f32) (x3 : Vec F S32x10 .f32) (x4 : Vec F S1x10 .f32) :
    Σ' (L5 : List (View.Piece (Elt F) S64x10 .f32)), { LS0 : List (View.Piece (Elt F) S64x32 .f32) //
      ∀ (xi5 : Vec F S64x10 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc5__pool_kernel i arg1 harg1 arg2 harg2 arg3 harg3 arg4 harg4 arg5 harg5 arg6 harg6 arg7 harg7) K } := by
  refine ⟨[], ?_, fun xi5 E K => ?run⟩
  case run =>
    simp only [cc5__pool_kernel_eq_skeleton]; unfold cc5__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

set_option maxHeartbeats 4000000 in

noncomputable def kernelRun5_B (c : Dev nD) (i : grid5.Coords) (arg1 : Memref sig .tc .vmem S10000x1 .i32) (harg1 : arg1.IsWhole) (arg2 : Memref sig .tc .vmem S10000x32 .f32) (harg2 : arg2.IsWhole) (arg3 : Memref sig .tc .vmem S64x1 .f32) (harg3 : arg3.IsWhole) (arg4 : Memref sig .tc .vmem S32x10 .f32) (harg4 : arg4.IsWhole) (arg5 : Memref sig .tc .vmem S1x10 .f32) (harg5 : arg5.IsWhole) (arg6 : Memref sig .tc .vmem S64x10 .f32) (harg6 : arg6.IsWhole) (arg7 : Memref sig .tc .vmem S64x32 .f32) (harg7 : arg7.IsWhole) (hc0 : ¬cond5_0 i) (hc1 : ¬cond5_1 i)
    (x0 : Vec F S10000x1 .i32) (x1 : Vec F S10000x32 .f32) (x2 : Vec F S64x1 .f32) (x3 : Vec F S32x10 .f32) (x4 : Vec F S1x10 .f32) (xs0 : Vec F S64x32 .f32) :
    Σ' (L5 : List (View.Piece (Elt F) S64x10 .f32)), { LS0 : List (View.Piece (Elt F) S64x32 .f32) //
      ∀ (xi5 : Vec F S64x10 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc5__pool_kernel i arg1 harg1 arg2 harg2 arg3 harg3 arg4 harg4 arg5 harg5 arg6 harg6 arg7 harg7) K } := by
  refine ⟨[], ?_, fun xi5 E K => ?run⟩
  case run =>
    simp only [cc5__pool_kernel_eq_skeleton]; unfold cc5__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

set_option maxHeartbeats 4000000 in

noncomputable def kernelRun5_C (c : Dev nD) (i : grid5.Coords) (arg1 : Memref sig .tc .vmem S10000x1 .i32) (harg1 : arg1.IsWhole) (arg2 : Memref sig .tc .vmem S10000x32 .f32) (harg2 : arg2.IsWhole) (arg3 : Memref sig .tc .vmem S64x1 .f32) (harg3 : arg3.IsWhole) (arg4 : Memref sig .tc .vmem S32x10 .f32) (harg4 : arg4.IsWhole) (arg5 : Memref sig .tc .vmem S1x10 .f32) (harg5 : arg5.IsWhole) (arg6 : Memref sig .tc .vmem S64x10 .f32) (harg6 : arg6.IsWhole) (arg7 : Memref sig .tc .vmem S64x32 .f32) (harg7 : arg7.IsWhole) (hc0 : ¬cond5_0 i) (hc1 : cond5_1 i)
    (x0 : Vec F S10000x1 .i32) (x1 : Vec F S10000x32 .f32) (x2 : Vec F S64x1 .f32) (x3 : Vec F S32x10 .f32) (x4 : Vec F S1x10 .f32) (xs0 : Vec F S64x32 .f32) :
    Σ' (L5 : List (View.Piece (Elt F) S64x10 .f32)), { LS0 : List (View.Piece (Elt F) S64x32 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc5__pool_kernel i arg1 harg1 arg2 harg2 arg3 harg3 arg4 harg4 arg5 harg5 arg6 harg6 arg7 harg7) K } := by
  refine ⟨?_, ?_, fun E K => ?run⟩
  case run =>
    simp only [cc5__pool_kernel_eq_skeleton]; unfold cc5__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS0

end Cert.KernelIdeal.Reg

end
-- ==== Proof.KI.R5.lean ====
import proofs.«418024_j36704790511896_3_alg».proof.Proof.KI.R5Runs

/-! Region 5: the accumulator carried from one grid point to the next, and the body's obligation at every point. -/

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

def out5_A_5 (c : Dev nD) (i : grid5.Coords) (arg1 : Memref sig .tc .vmem S10000x1 .i32) (harg1 : arg1.IsWhole) (arg2 : Memref sig .tc .vmem S10000x32 .f32) (harg2 : arg2.IsWhole) (arg3 : Memref sig .tc .vmem S64x1 .f32) (harg3 : arg3.IsWhole) (arg4 : Memref sig .tc .vmem S32x10 .f32) (harg4 : arg4.IsWhole) (arg5 : Memref sig .tc .vmem S1x10 .f32) (harg5 : arg5.IsWhole) (arg6 : Memref sig .tc .vmem S64x10 .f32) (harg6 : arg6.IsWhole) (arg7 : Memref sig .tc .vmem S64x32 .f32) (harg7 : arg7.IsWhole) (hc0 : cond5_0 i) (hc1 : ¬cond5_1 i)
    (x0 : Vec F S10000x1 .i32) (x1 : Vec F S10000x32 .f32) (x2 : Vec F S64x1 .f32) (x3 : Vec F S32x10 .f32) (x4 : Vec F S1x10 .f32) : Vec F S64x10 .f32 :=
  VO5_5.read (Elt F) (VO5_5.writes (Elt F) VO5_5.junk (kernelRun5_A c i arg1 harg1 arg2 harg2 arg3 harg3 arg4 harg4 arg5 harg5 arg6 harg6 arg7 harg7 hc0 hc1 x0 x1 x2 x3 x4).1)

theorem scover5_A_0 (c : Dev nD) (i : grid5.Coords) (arg1 : Memref sig .tc .vmem S10000x1 .i32) (harg1 : arg1.IsWhole) (arg2 : Memref sig .tc .vmem S10000x32 .f32) (harg2 : arg2.IsWhole) (arg3 : Memref sig .tc .vmem S64x1 .f32) (harg3 : arg3.IsWhole) (arg4 : Memref sig .tc .vmem S32x10 .f32) (harg4 : arg4.IsWhole) (arg5 : Memref sig .tc .vmem S1x10 .f32) (harg5 : arg5.IsWhole) (arg6 : Memref sig .tc .vmem S64x10 .f32) (harg6 : arg6.IsWhole) (arg7 : Memref sig .tc .vmem S64x32 .f32) (harg7 : arg7.IsWhole) (hc0 : cond5_0 i) (hc1 : ¬cond5_1 i)
    (x0 : Vec F S10000x1 .i32) (x1 : Vec F S10000x32 .f32) (x2 : Vec F S64x1 .f32) (x3 : Vec F S32x10 .f32) (x4 : Vec F S1x10 .f32) (y : S64x32.Idx) :
    ∃ pc ∈ (kernelRun5_A c i arg1 harg1 arg2 harg2 arg3 harg3 arg4 harg4 arg5 harg5 arg6 harg6 arg7 harg7 hc0 hc1 x0 x1 x2 x3 x4).2.1, y ∈ pc.1.set :=
  View.cover_of_tiledL (kernelRun5_A c i arg1 harg1 arg2 harg2 arg3 harg3 arg4 harg4 arg5 harg5 arg6 harg6 arg7 harg7 hc0 hc1 x0 x1 x2 x3 x4).2.1 S64x32.size (by sl_kernel_rfl) y

def sout5_A_0 (c : Dev nD) (i : grid5.Coords) (arg1 : Memref sig .tc .vmem S10000x1 .i32) (harg1 : arg1.IsWhole) (arg2 : Memref sig .tc .vmem S10000x32 .f32) (harg2 : arg2.IsWhole) (arg3 : Memref sig .tc .vmem S64x1 .f32) (harg3 : arg3.IsWhole) (arg4 : Memref sig .tc .vmem S32x10 .f32) (harg4 : arg4.IsWhole) (arg5 : Memref sig .tc .vmem S1x10 .f32) (harg5 : arg5.IsWhole) (arg6 : Memref sig .tc .vmem S64x10 .f32) (harg6 : arg6.IsWhole) (arg7 : Memref sig .tc .vmem S64x32 .f32) (harg7 : arg7.IsWhole) (hc0 : cond5_0 i) (hc1 : ¬cond5_1 i)
    (x0 : Vec F S10000x1 .i32) (x1 : Vec F S10000x32 .f32) (x2 : Vec F S64x1 .f32) (x3 : Vec F S32x10 .f32) (x4 : Vec F S1x10 .f32) : Vec F S64x32 .f32 :=
  VS5_0.read (Elt F) (VS5_0.writes (Elt F) VS5_0.junk (kernelRun5_A c i arg1 harg1 arg2 harg2 arg3 harg3 arg4 harg4 arg5 harg5 arg6 harg6 arg7 harg7 hc0 hc1 x0 x1 x2 x3 x4).2.1)

def out5_B_5 (c : Dev nD) (i : grid5.Coords) (arg1 : Memref sig .tc .vmem S10000x1 .i32) (harg1 : arg1.IsWhole) (arg2 : Memref sig .tc .vmem S10000x32 .f32) (harg2 : arg2.IsWhole) (arg3 : Memref sig .tc .vmem S64x1 .f32) (harg3 : arg3.IsWhole) (arg4 : Memref sig .tc .vmem S32x10 .f32) (harg4 : arg4.IsWhole) (arg5 : Memref sig .tc .vmem S1x10 .f32) (harg5 : arg5.IsWhole) (arg6 : Memref sig .tc .vmem S64x10 .f32) (harg6 : arg6.IsWhole) (arg7 : Memref sig .tc .vmem S64x32 .f32) (harg7 : arg7.IsWhole) (hc0 : ¬cond5_0 i) (hc1 : ¬cond5_1 i)
    (x0 : Vec F S10000x1 .i32) (x1 : Vec F S10000x32 .f32) (x2 : Vec F S64x1 .f32) (x3 : Vec F S32x10 .f32) (x4 : Vec F S1x10 .f32) (xs0 : Vec F S64x32 .f32) : Vec F S64x10 .f32 :=
  VO5_5.read (Elt F) (VO5_5.writes (Elt F) VO5_5.junk (kernelRun5_B c i arg1 harg1 arg2 harg2 arg3 harg3 arg4 harg4 arg5 harg5 arg6 harg6 arg7 harg7 hc0 hc1 x0 x1 x2 x3 x4 xs0).1)

theorem scover5_B_0 (c : Dev nD) (i : grid5.Coords) (arg1 : Memref sig .tc .vmem S10000x1 .i32) (harg1 : arg1.IsWhole) (arg2 : Memref sig .tc .vmem S10000x32 .f32) (harg2 : arg2.IsWhole) (arg3 : Memref sig .tc .vmem S64x1 .f32) (harg3 : arg3.IsWhole) (arg4 : Memref sig .tc .vmem S32x10 .f32) (harg4 : arg4.IsWhole) (arg5 : Memref sig .tc .vmem S1x10 .f32) (harg5 : arg5.IsWhole) (arg6 : Memref sig .tc .vmem S64x10 .f32) (harg6 : arg6.IsWhole) (arg7 : Memref sig .tc .vmem S64x32 .f32) (harg7 : arg7.IsWhole) (hc0 : ¬cond5_0 i) (hc1 : ¬cond5_1 i)
    (x0 : Vec F S10000x1 .i32) (x1 : Vec F S10000x32 .f32) (x2 : Vec F S64x1 .f32) (x3 : Vec F S32x10 .f32) (x4 : Vec F S1x10 .f32) (xs0 : Vec F S64x32 .f32) (y : S64x32.Idx) :
    ∃ pc ∈ (kernelRun5_B c i arg1 harg1 arg2 harg2 arg3 harg3 arg4 harg4 arg5 harg5 arg6 harg6 arg7 harg7 hc0 hc1 x0 x1 x2 x3 x4 xs0).2.1, y ∈ pc.1.set :=
  View.cover_of_tiledL (kernelRun5_B c i arg1 harg1 arg2 harg2 arg3 harg3 arg4 harg4 arg5 harg5 arg6 harg6 arg7 harg7 hc0 hc1 x0 x1 x2 x3 x4 xs0).2.1 S64x32.size (by sl_kernel_rfl) y

def sout5_B_0 (c : Dev nD) (i : grid5.Coords) (arg1 : Memref sig .tc .vmem S10000x1 .i32) (harg1 : arg1.IsWhole) (arg2 : Memref sig .tc .vmem S10000x32 .f32) (harg2 : arg2.IsWhole) (arg3 : Memref sig .tc .vmem S64x1 .f32) (harg3 : arg3.IsWhole) (arg4 : Memref sig .tc .vmem S32x10 .f32) (harg4 : arg4.IsWhole) (arg5 : Memref sig .tc .vmem S1x10 .f32) (harg5 : arg5.IsWhole) (arg6 : Memref sig .tc .vmem S64x10 .f32) (harg6 : arg6.IsWhole) (arg7 : Memref sig .tc .vmem S64x32 .f32) (harg7 : arg7.IsWhole) (hc0 : ¬cond5_0 i) (hc1 : ¬cond5_1 i)
    (x0 : Vec F S10000x1 .i32) (x1 : Vec F S10000x32 .f32) (x2 : Vec F S64x1 .f32) (x3 : Vec F S32x10 .f32) (x4 : Vec F S1x10 .f32) (xs0 : Vec F S64x32 .f32) : Vec F S64x32 .f32 :=
  VS5_0.read (Elt F) (VS5_0.writes (Elt F) VS5_0.junk (kernelRun5_B c i arg1 harg1 arg2 harg2 arg3 harg3 arg4 harg4 arg5 harg5 arg6 harg6 arg7 harg7 hc0 hc1 x0 x1 x2 x3 x4 xs0).2.1)

theorem cover5_C_5 (c : Dev nD) (i : grid5.Coords) (arg1 : Memref sig .tc .vmem S10000x1 .i32) (harg1 : arg1.IsWhole) (arg2 : Memref sig .tc .vmem S10000x32 .f32) (harg2 : arg2.IsWhole) (arg3 : Memref sig .tc .vmem S64x1 .f32) (harg3 : arg3.IsWhole) (arg4 : Memref sig .tc .vmem S32x10 .f32) (harg4 : arg4.IsWhole) (arg5 : Memref sig .tc .vmem S1x10 .f32) (harg5 : arg5.IsWhole) (arg6 : Memref sig .tc .vmem S64x10 .f32) (harg6 : arg6.IsWhole) (arg7 : Memref sig .tc .vmem S64x32 .f32) (harg7 : arg7.IsWhole) (hc0 : ¬cond5_0 i) (hc1 : cond5_1 i)
    (x0 : Vec F S10000x1 .i32) (x1 : Vec F S10000x32 .f32) (x2 : Vec F S64x1 .f32) (x3 : Vec F S32x10 .f32) (x4 : Vec F S1x10 .f32) (xs0 : Vec F S64x32 .f32) (y : S64x10.Idx) :
    ∃ pc ∈ (kernelRun5_C c i arg1 harg1 arg2 harg2 arg3 harg3 arg4 harg4 arg5 harg5 arg6 harg6 arg7 harg7 hc0 hc1 x0 x1 x2 x3 x4 xs0).1, y ∈ pc.1.set :=
  View.cover_of_tiledL (kernelRun5_C c i arg1 harg1 arg2 harg2 arg3 harg3 arg4 harg4 arg5 harg5 arg6 harg6 arg7 harg7 hc0 hc1 x0 x1 x2 x3 x4 xs0).1 S64x10.size (by sl_kernel_rfl) y

def out5_C_5 (c : Dev nD) (i : grid5.Coords) (arg1 : Memref sig .tc .vmem S10000x1 .i32) (harg1 : arg1.IsWhole) (arg2 : Memref sig .tc .vmem S10000x32 .f32) (harg2 : arg2.IsWhole) (arg3 : Memref sig .tc .vmem S64x1 .f32) (harg3 : arg3.IsWhole) (arg4 : Memref sig .tc .vmem S32x10 .f32) (harg4 : arg4.IsWhole) (arg5 : Memref sig .tc .vmem S1x10 .f32) (harg5 : arg5.IsWhole) (arg6 : Memref sig .tc .vmem S64x10 .f32) (harg6 : arg6.IsWhole) (arg7 : Memref sig .tc .vmem S64x32 .f32) (harg7 : arg7.IsWhole) (hc0 : ¬cond5_0 i) (hc1 : cond5_1 i)
    (x0 : Vec F S10000x1 .i32) (x1 : Vec F S10000x32 .f32) (x2 : Vec F S64x1 .f32) (x3 : Vec F S32x10 .f32) (x4 : Vec F S1x10 .f32) (xs0 : Vec F S64x32 .f32) : Vec F S64x10 .f32 :=
  VO5_5.read (Elt F) (VO5_5.writes (Elt F) VO5_5.junk (kernelRun5_C c i arg1 harg1 arg2 harg2 arg3 harg3 arg4 harg4 arg5 harg5 arg6 harg6 arg7 harg7 hc0 hc1 x0 x1 x2 x3 x4 xs0).1)

theorem scover5_C_0 (c : Dev nD) (i : grid5.Coords) (arg1 : Memref sig .tc .vmem S10000x1 .i32) (harg1 : arg1.IsWhole) (arg2 : Memref sig .tc .vmem S10000x32 .f32) (harg2 : arg2.IsWhole) (arg3 : Memref sig .tc .vmem S64x1 .f32) (harg3 : arg3.IsWhole) (arg4 : Memref sig .tc .vmem S32x10 .f32) (harg4 : arg4.IsWhole) (arg5 : Memref sig .tc .vmem S1x10 .f32) (harg5 : arg5.IsWhole) (arg6 : Memref sig .tc .vmem S64x10 .f32) (harg6 : arg6.IsWhole) (arg7 : Memref sig .tc .vmem S64x32 .f32) (harg7 : arg7.IsWhole) (hc0 : ¬cond5_0 i) (hc1 : cond5_1 i)
    (x0 : Vec F S10000x1 .i32) (x1 : Vec F S10000x32 .f32) (x2 : Vec F S64x1 .f32) (x3 : Vec F S32x10 .f32) (x4 : Vec F S1x10 .f32) (xs0 : Vec F S64x32 .f32) (y : S64x32.Idx) :
    ∃ pc ∈ (kernelRun5_C c i arg1 harg1 arg2 harg2 arg3 harg3 arg4 harg4 arg5 harg5 arg6 harg6 arg7 harg7 hc0 hc1 x0 x1 x2 x3 x4 xs0).2.1, y ∈ pc.1.set :=
  View.cover_of_tiledL (kernelRun5_C c i arg1 harg1 arg2 harg2 arg3 harg3 arg4 harg4 arg5 harg5 arg6 harg6 arg7 harg7 hc0 hc1 x0 x1 x2 x3 x4 xs0).2.1 S64x32.size (by sl_kernel_rfl) y

def sout5_C_0 (c : Dev nD) (i : grid5.Coords) (arg1 : Memref sig .tc .vmem S10000x1 .i32) (harg1 : arg1.IsWhole) (arg2 : Memref sig .tc .vmem S10000x32 .f32) (harg2 : arg2.IsWhole) (arg3 : Memref sig .tc .vmem S64x1 .f32) (harg3 : arg3.IsWhole) (arg4 : Memref sig .tc .vmem S32x10 .f32) (harg4 : arg4.IsWhole) (arg5 : Memref sig .tc .vmem S1x10 .f32) (harg5 : arg5.IsWhole) (arg6 : Memref sig .tc .vmem S64x10 .f32) (harg6 : arg6.IsWhole) (arg7 : Memref sig .tc .vmem S64x32 .f32) (harg7 : arg7.IsWhole) (hc0 : ¬cond5_0 i) (hc1 : cond5_1 i)
    (x0 : Vec F S10000x1 .i32) (x1 : Vec F S10000x32 .f32) (x2 : Vec F S64x1 .f32) (x3 : Vec F S32x10 .f32) (x4 : Vec F S1x10 .f32) (xs0 : Vec F S64x32 .f32) : Vec F S64x32 .f32 :=
  VS5_0.read (Elt F) (VS5_0.writes (Elt F) VS5_0.junk (kernelRun5_C c i arg1 harg1 arg2 harg2 arg3 harg3 arg4 harg4 arg5 harg5 arg6 harg6 arg7 harg7 hc0 hc1 x0 x1 x2 x3 x4 xs0).2.1)

section Region

variable (V : (c : Dev nD) → (b : Ref sig .tc) → Buf (Elt F) ((c : Thread nD τ).loc b))

def outsAt5 (c : Dev nD) : (n : ℕ) → n < cfg5.N → Vec F S64x10 .f32 × Vec F S64x32 .f32
  | 0, hn => (out5_A_5 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩) (iblk5 V c 3 ⟨0, hn⟩) (iblk5 V c 4 ⟨0, hn⟩), sout5_A_0 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩) (iblk5 V c 3 ⟨0, hn⟩) (iblk5 V c 4 ⟨0, hn⟩))
  | n + 1, hn =>
    if h0 : (n + 1) % 10 = 0 then
      if h1 : (n + 1) % 10 = 9 then
        False.elim (by omega)
      else
        (out5_A_5 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) scM5_0 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩), sout5_A_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) scM5_0 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩))
    else
      if h1 : (n + 1) % 10 = 9 then
        (out5_C_5 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (outsAt5 c n (Nat.lt_of_succ_lt hn)).2, sout5_C_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (outsAt5 c n (Nat.lt_of_succ_lt hn)).2)
      else
        (out5_B_5 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) scM5_0 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (outsAt5 c n (Nat.lt_of_succ_lt hn)).2, sout5_B_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) scM5_0 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (outsAt5 c n (Nat.lt_of_succ_lt hn)).2)

theorem outsAt5_A (c : Dev nD) (t : Fin cfg5.N) (h0 : t.val % 10 = 0) (h1 : ¬t.val % 10 = 9) :
    outsAt5 V c t.val t.isLt = (out5_A_5 c (grid5.coords t) (ms5_0 t) (hs5_0 t) (ms5_1 t) (hs5_1 t) (ms5_2 t) (hs5_2 t) (ms5_3 t) (hs5_3 t) (ms5_4 t) (hs5_4 t) (ms5_5 t) (hs5_5 t) scM5_0 (Memref.isWhole_whole _) ((hcond5_0 t).mpr h0) (fun h => h1 ((hcond5_1 t).mp h)) (iblk5 V c 0 t) (iblk5 V c 1 t) (iblk5 V c 2 t) (iblk5 V c 3 t) (iblk5 V c 4 t), sout5_A_0 c (grid5.coords t) (ms5_0 t) (hs5_0 t) (ms5_1 t) (hs5_1 t) (ms5_2 t) (hs5_2 t) (ms5_3 t) (hs5_3 t) (ms5_4 t) (hs5_4 t) (ms5_5 t) (hs5_5 t) scM5_0 (Memref.isWhole_whole _) ((hcond5_0 t).mpr h0) (fun h => h1 ((hcond5_1 t).mp h)) (iblk5 V c 0 t) (iblk5 V c 1 t) (iblk5 V c 2 t) (iblk5 V c 3 t) (iblk5 V c 4 t)) := by
  obtain ⟨n, hn⟩ := t
  cases n with
  | zero => exact rfl
  | succ n => exact (dif_pos h0).trans ((dif_neg h1).trans rfl)

theorem outsAt5_B (c : Dev nD) (t : Fin cfg5.N) (h0 : ¬t.val % 10 = 0) (h1 : ¬t.val % 10 = 9) :
    outsAt5 V c t.val t.isLt = (out5_B_5 c (grid5.coords t) (ms5_0 t) (hs5_0 t) (ms5_1 t) (hs5_1 t) (ms5_2 t) (hs5_2 t) (ms5_3 t) (hs5_3 t) (ms5_4 t) (hs5_4 t) (ms5_5 t) (hs5_5 t) scM5_0 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) (outsAt5 V c (t.val - 1) (Nat.lt_of_le_of_lt (Nat.sub_le _ _) t.isLt)).2, sout5_B_0 c (grid5.coords t) (ms5_0 t) (hs5_0 t) (ms5_1 t) (hs5_1 t) (ms5_2 t) (hs5_2 t) (ms5_3 t) (hs5_3 t) (ms5_4 t) (hs5_4 t) (ms5_5 t) (hs5_5 t) scM5_0 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt5_C (c : Dev nD) (t : Fin cfg5.N) (h0 : ¬t.val % 10 = 0) (h1 : t.val % 10 = 9) :
    outsAt5 V c t.val t.isLt = (out5_C_5 c (grid5.coords t) (ms5_0 t) (hs5_0 t) (ms5_1 t) (hs5_1 t) (ms5_2 t) (hs5_2 t) (ms5_3 t) (hs5_3 t) (ms5_4 t) (hs5_4 t) (ms5_5 t) (hs5_5 t) scM5_0 (Memref.isWhole_whole _) (fun h => h0 ((hcond5_0 t).mp h)) ((hcond5_1 t).mpr h1) (iblk5 V c 0 t) (iblk5 V c 1 t) (iblk5 V c 2 t) (iblk5 V c 3 t) (iblk5 V c 4 t) (outsAt5 V c (t.val - 1) (Nat.lt_of_le_of_lt (Nat.sub_le _ _) t.isLt)).2, sout5_C_0 c (grid5.coords t) (ms5_0 t) (hs5_0 t) (ms5_1 t) (hs5_1 t) (ms5_2 t) (hs5_2 t) (ms5_3 t) (hs5_3 t) (ms5_4 t) (hs5_4 t) (ms5_5 t) (hs5_5 t) scM5_0 (Memref.isWhole_whole _) (fun h => h0 ((hcond5_0 t).mp h)) ((hcond5_1 t).mpr h1) (iblk5 V c 0 t) (iblk5 V c 1 t) (iblk5 V c 2 t) (iblk5 V c 3 t) (iblk5 V c 4 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def PhiS5 (c : Dev nD) : (n : ℕ) → n ≤ cfg5.N → sProp 𝕄
  | 0, _ => Pipeline.ΦA spec5 c
  | n + 1, hn => iprop(iprop(owns (c : Thread nD τ) scM5_0 fullShare ((outsAt5 V c n hn).2) ∗ Pipeline.scopedRestBut (Ix := Unit) (Name := ℕ) (U := UR sig nD τ) (Lvl := ℕ) (Val := Elt F) spec5 c [cc5_scratch0]) ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(iprop(owns (c : Thread nD τ) scM5_0 fullShare ((outsAt5 V c n hn).2) ∗ Pipeline.scopedRestBut (Ix := Unit) (Name := ℕ) (U := UR sig nD τ) (Lvl := ℕ) (Val := Elt F) spec5 c [cc5_scratch0]) ∗ (∃ r, prngReg c r)) := rfl

theorem PhiS5_pos (c : Dev nD) (n : ℕ) (h : n ≤ cfg5.N) (hz : n ≠ 0) :
    PhiS5 V c n h = iprop(iprop(owns (c : Thread nD τ) scM5_0 fullShare ((outsAt5 V c (n - 1) (by omega)).2) ∗ Pipeline.scopedRestBut (Ix := Unit) (Name := ℕ) (U := UR sig nD τ) (Lvl := ℕ) (Val := Elt F) spec5 c [cc5_scratch0]) ∗ (∃ r, prngReg c r)) := by
  cases n with
  | zero => exact absurd rfl hz
  | succ n => rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => (outsAt5 V c t.val t.isLt).1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = (outsAt5 V c t.val t.isLt).1 := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl)
    (fun t => by rw [after5_0 V c]; unfold Dat.blockOf iblk5; rw [A_eq5 V c]; try rfl) t d).trans
    (by unfold Dat.fetched Dat.blockOf iblk5; rw [A_eq5 V c]; try rfl)
theorem before5_1 (c : Dev nD) (t : Fin cfg5.N) (d) : (dat5 V c).before 1 t d = iblk5 V c 1 t :=
  ((dat5 V c).before_in_eq_fetched 1 rfl (fun _ => rfl) (fun _ _ _ => rfl)
    (fun t => by rw [after5_1 V c]; unfold Dat.blockOf iblk5; rw [A_eq5 V c]; try rfl) t d).trans
    (by unfold Dat.fetched Dat.blockOf iblk5; rw [A_eq5 V c]; try rfl)
theorem before5_2 (c : Dev nD) (t : Fin cfg5.N) (d) : (dat5 V c).before 2 t d = iblk5 V c 2 t :=
  ((dat5 V c).before_in_eq_fetched 2 rfl (fun _ => rfl) (fun _ _ _ => rfl)
    (fun t => by rw [after5_2 V c]; unfold Dat.blockOf iblk5; rw [A_eq5 V c]; try rfl) t d).trans
    (by unfold Dat.fetched Dat.blockOf iblk5; rw [A_eq5 V c]; try rfl)
theorem before5_3 (c : Dev nD) (t : Fin cfg5.N) (d) : (dat5 V c).before 3 t d = iblk5 V c 3 t :=
  ((dat5 V c).before_in_eq_fetched 3 rfl (fun _ => rfl) (fun _ _ _ => rfl)
    (fun t => by rw [after5_3 V c]; unfold Dat.blockOf iblk5; rw [A_eq5 V c]; try rfl) t d).trans
    (by unfold Dat.fetched Dat.blockOf iblk5; rw [A_eq5 V c]; try rfl)
theorem before5_4 (c : Dev nD) (t : Fin cfg5.N) (d) : (dat5 V c).before 4 t d = iblk5 V c 4 t :=
  ((dat5 V c).before_in_eq_fetched 4 rfl (fun _ => rfl) (fun _ _ _ => rfl)
    (fun t => by rw [after5_4 V c]; unfold Dat.blockOf iblk5; rw [A_eq5 V c]; try rfl) t d).trans
    (by unfold Dat.fetched Dat.blockOf iblk5; rw [A_eq5 V c]; try rfl)

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d))
    ∗ (∃ d, owns (c : Thread nD τ) (ms5_5 t) fullShare ((dat5 V c).before 5 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t
    ∗ (dat5 V c).leavesExact 5 t)

set_option maxHeartbeats 4800000 in
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).owesAt () t.succ = (dat5 V c).owesAt () t.castSucc from rfl]
  rw [show (dat5 V c).Φ t.succ = PhiS5 V c (t.val + 1) t.isLt from rfl, PhiS5_succ]
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  rw [show (dat5 V c).leavesExact 2 t = owns (c : Thread nD τ) (ms5_2 t) fullShare ((dat5 V c).after 2 t) from by
    unfold Dat.leavesExact; rw [liveAt5_2 t], after5_2]
  rw [show (dat5 V c).leavesExact 3 t = owns (c : Thread nD τ) (ms5_3 t) fullShare ((dat5 V c).after 3 t) from by
    unfold Dat.leavesExact; rw [liveAt5_3 t], after5_3]
  rw [show (dat5 V c).leavesExact 4 t = owns (c : Thread nD τ) (ms5_4 t) fullShare ((dat5 V c).after 4 t) from by
    unfold Dat.leavesExact; rw [liveAt5_4 t], after5_4]
  have hN : t.val < 10 := lt_of_lt_of_eq t.isLt (show cfg5.N = 10 from N_5)
  by_cases h0 : t.val % 10 = 0
  · by_cases h1 : t.val % 10 = 9
    · exfalso; omega
    · rw [Dat.leavesExact_idle (dat5 V c) 5 t (idleAt5_5_A t ((hcond5_0 t).mpr h0) (fun h => h1 ((hcond5_1 t).mp h))) (noFlush5_5_A t ((hcond5_0 t).mpr h0) (fun h => h1 ((hcond5_1 t).mp h)))]
      rw [outsAt5_A V c t h0 h1]
      unfold sout5_A_0; (try dsimp only)
      have hz : t.val = 0 := by omega
      rw [PhiS5_castSucc V c t, PhiS5_zero V c _ _ hz, PhiA5_eq]
      iintro ⟨⟨⟨HS0, Hr⟩, Hg⟩, Ho, ⟨%d0, H0⟩, ⟨%d1, H1⟩, ⟨%d2, H2⟩, ⟨%d3, H3⟩, ⟨%d4, H4⟩, ⟨%d5, H5⟩⟩
      iapply ((kernelRun5_A c (grid5.coords t) _ _ _ _ _ _ _ _ _ _ _ _ _ _ ((hcond5_0 t).mpr h0) (fun h => h1 ((hcond5_1 t).mp h)) (iblk5 V c 0 t) (iblk5 V c 1 t) (iblk5 V c 2 t) (iblk5 V c 3 t) (iblk5 V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover5_A_0 c _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · by_cases h1 : t.val % 10 = 9
    · rw [show (dat5 V c).leavesExact 5 t = owns (c : Thread nD τ) (ms5_5 t) fullShare ((dat5 V c).after 5 t) from by
        unfold Dat.leavesExact; rw [liveAt5_5_C t (fun h => h0 ((hcond5_0 t).mp h)) ((hcond5_1 t).mpr h1)], after5_5]
      rw [outsAt5_C V c t h0 h1]
      unfold out5_C_5 sout5_C_0; (try dsimp only)
      have hz : t.val ≠ 0 := by omega
      rw [PhiS5_castSucc V c t, PhiS5_pos V c _ _ hz]
      iintro ⟨⟨⟨HS0, Hr⟩, Hg⟩, Ho, ⟨%d0, H0⟩, ⟨%d1, H1⟩, ⟨%d2, H2⟩, ⟨%d3, H3⟩, ⟨%d4, H4⟩, ⟨%d5, H5⟩⟩
      iapply ((kernelRun5_C c (grid5.coords t) _ _ _ _ _ _ _ _ _ _ _ _ _ _ (fun h => h0 ((hcond5_0 t).mp h)) ((hcond5_1 t).mpr h1) (iblk5 V c 0 t) (iblk5 V c 1 t) (iblk5 V c 2 t) (iblk5 V c 3 t) (iblk5 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover5_C_0 c _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover5_C_5 c _ _ _ _ _ _ _ _ _ _ _ _ _ _ _ _ _ _ _ _ _ _ _)
    · rw [Dat.leavesExact_idle (dat5 V c) 5 t (idleAt5_5_B t (fun h => h0 ((hcond5_0 t).mp h)) (fun h => h1 ((hcond5_1 t).mp h))) (noFlush5_5_B t (fun h => h0 ((hcond5_0 t).mp h)) (fun h => h1 ((hcond5_1 t).mp h)))]
      rw [outsAt5_B V c t h0 h1]
      unfold sout5_B_0; (try dsimp only)
      have hz : t.val ≠ 0 := by omega
      rw [PhiS5_castSucc V c t, PhiS5_pos V c _ _ hz]
      iintro ⟨⟨⟨HS0, Hr⟩, Hg⟩, Ho, ⟨%d0, H0⟩, ⟨%d1, H1⟩, ⟨%d2, H2⟩, ⟨%d3, H3⟩, ⟨%d4, H4⟩, ⟨%d5, H5⟩⟩
      iapply ((kernelRun5_B c (grid5.coords t) _ _ _ _ _ _ _ _ _ _ _ _ _ _ (fun h => h0 ((hcond5_0 t).mp h)) (fun h => h1 ((hcond5_1 t).mp h)) (iblk5 V c 0 t) (iblk5 V c 1 t) (iblk5 V c 2 t) (iblk5 V c 3 t) (iblk5 V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover5_B_0 c _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

theorem body_obligation5 (c : Dev nD) : BodyObligation (dat5 (F := F) V c) (defs₀ (F := F)) Variants.none () Set.univ := fun t => by
  rw [bigSep_W5, bigSep_W5]
  exact sound_body5 V c t

theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

theorem Phi_out5 (c : Dev nD) (t : Fin (cfg5.N + 1)) (ht : t.val ≠ 0) : (dat5 V c).Φ t ⊢ Pipeline.ΦA spec5 c := by
  rw [show (dat5 V c).Φ t = PhiS5 V c t.val (Nat.le_of_lt_succ t.isLt) from rfl, PhiS5_pos V c _ _ ht, PhiA5_eq]
  iintro ⟨⟨HS0, Hr⟩, Hg⟩
  isplitl [HS0 Hr]
  · isplitl [HS0]
    · iexists _; iexact HS0
    iexact Hr
  iexact Hg

theorem hout5 (c : Dev nD) : (dat5 V c).Φ (Fin.last cfg5.N) ⊢ Pipeline.ΦA spec5 c :=
  Phi_out5 V c _ (by rw [Fin.val_last]; have : cfg5.N = 10 := N_5; omega)

end Region

end Cert.KernelIdeal.Reg

end
-- ==== Proof.KI.Fold.lean ====
import proofs.«418024_j36704790511896_3_alg».proof.Proof.Gen.KernelIdeal.Regions
import proofs.«418024_j36704790511896_3_alg».proof.Proof.KI.R0
import proofs.«418024_j36704790511896_3_alg».proof.Proof.KI.R1
import proofs.«418024_j36704790511896_3_alg».proof.Proof.KI.R2
import proofs.«418024_j36704790511896_3_alg».proof.Proof.KI.R3
import proofs.«418024_j36704790511896_3_alg».proof.Proof.KI.R4
import proofs.«418024_j36704790511896_3_alg».proof.Proof.KI.R5

/-! The contents of every buffer at each boundary between the main function's items, as a fold from the launch memory. -/

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

abbrev W0 : Dev nD → Valuation τ sig (Elt F) := fun c b => m (c, b)

abbrev W1 : Dev nD → Valuation τ sig (Elt F) := fun c => StableHlo.after hostOps0 (W0 m c)

abbrev A1 : (c : Dev nD) → (b : Ref sig .tc) → Buf (Elt F) ((c : Thread nD τ).loc b) := fun c b => W1 m c b

def W2 (c : Dev nD) : Valuation τ sig (Elt F) :=
  Pipeline.withArrays spec0 c (W1 m c) fun w => (dat0 (A1 m) c).arrAt w cfg0.N
theorem W2_arr (c : Dev nD) (w : Fin cfg0.W) :
    W2 m c (Proc.devRef .tc (Pipeline.arrRef spec0 w)) = (dat0 (A1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb

abbrev A2 : (c : Dev nD) → (b : Ref sig .tc) → Buf (Elt F) ((c : Thread nD τ).loc b) := fun c b => W2 m c b

abbrev W3 : Dev nD → Valuation τ sig (Elt F) := fun c => StableHlo.after hostOps1 (W2 m c)

abbrev A3 : (c : Dev nD) → (b : Ref sig .tc) → Buf (Elt F) ((c : Thread nD τ).loc b) := fun c b => W3 m c b

def W4 (c : Dev nD) : Valuation τ sig (Elt F) :=
  Pipeline.withArrays spec1 c (W3 m c) fun w => (dat1 (A3 m) c).arrAt w cfg1.N
theorem W4_arr (c : Dev nD) (w : Fin cfg1.W) :
    W4 m c (Proc.devRef .tc (Pipeline.arrRef spec1 w)) = (dat1 (A3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb

abbrev A4 : (c : Dev nD) → (b : Ref sig .tc) → Buf (Elt F) ((c : Thread nD τ).loc b) := fun c b => W4 m c b

abbrev W5 : Dev nD → Valuation τ sig (Elt F) := fun c => StableHlo.after hostOps2 (W4 m c)

abbrev A5 : (c : Dev nD) → (b : Ref sig .tc) → Buf (Elt F) ((c : Thread nD τ).loc b) := fun c b => W5 m c b

def W6 (c : Dev nD) : Valuation τ sig (Elt F) :=
  Pipeline.withArrays spec2 c (W5 m c) fun w => (dat2 (A5 m) c).arrAt w cfg2.N
theorem W6_arr (c : Dev nD) (w : Fin cfg2.W) :
    W6 m c (Proc.devRef .tc (Pipeline.arrRef spec2 w)) = (dat2 (A5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb

abbrev A6 : (c : Dev nD) → (b : Ref sig .tc) → Buf (Elt F) ((c : Thread nD τ).loc b) := fun c b => W6 m c b

def W7 (c : Dev nD) : Valuation τ sig (Elt F) :=
  Pipeline.withArrays spec3 c (W6 m c) fun w => (dat3 (A6 m) c).arrAt w cfg3.N
theorem W7_arr (c : Dev nD) (w : Fin cfg3.W) :
    W7 m c (Proc.devRef .tc (Pipeline.arrRef spec3 w)) = (dat3 (A6 m) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m c (Proc.devRef .tc b) = W6 m c (Proc.devRef .tc b) := by
  unfold W7; exact Pipeline.withArrays_of_ne spec3 c _ _ b hb

abbrev A7 : (c : Dev nD) → (b : Ref sig .tc) → Buf (Elt F) ((c : Thread nD τ).loc b) := fun c b => W7 m c b

abbrev W8 : Dev nD → Valuation τ sig (Elt F) := fun c => StableHlo.after hostOps4 (W7 m c)

abbrev A8 : (c : Dev nD) → (b : Ref sig .tc) → Buf (Elt F) ((c : Thread nD τ).loc b) := fun c b => W8 m c b

def W9 (c : Dev nD) : Valuation τ sig (Elt F) :=
  Pipeline.withArrays spec4 c (W8 m c) fun w => (dat4 (A8 m) c).arrAt w cfg4.N
theorem W9_arr (c : Dev nD) (w : Fin cfg4.W) :
    W9 m c (Proc.devRef .tc (Pipeline.arrRef spec4 w)) = (dat4 (A8 m) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m c (Proc.devRef .tc b) = W8 m c (Proc.devRef .tc b) := by
  unfold W9; exact Pipeline.withArrays_of_ne spec4 c _ _ b hb

abbrev A9 : (c : Dev nD) → (b : Ref sig .tc) → Buf (Elt F) ((c : Thread nD τ).loc b) := fun c b => W9 m c b

abbrev W10 : Dev nD → Valuation τ sig (Elt F) := fun c => StableHlo.after hostOps5 (W9 m c)

abbrev A10 : (c : Dev nD) → (b : Ref sig .tc) → Buf (Elt F) ((c : Thread nD τ).loc b) := fun c b => W10 m c b

def W11 (c : Dev nD) : Valuation τ sig (Elt F) :=
  Pipeline.withArrays spec5 c (W10 m c) fun w => (dat5 (A10 m) c).arrAt w cfg5.N
theorem W11_arr (c : Dev nD) (w : Fin cfg5.W) :
    W11 m c (Proc.devRef .tc (Pipeline.arrRef spec5 w)) = (dat5 (A10 m) c).arrAt w cfg5.N := by
  unfold W11; exact Pipeline.withArrays_arr spec5 launch5.win.arr_inj c _ _ w
theorem W11_of_ne (c : Dev nD) (b : Ref sig .tc) (hb : ∀ w, Pipeline.arrRef spec5 w ≠ b) :
    W11 m c (Proc.devRef .tc b) = W10 m c (Proc.devRef .tc b) := by
  unfold W11; exact Pipeline.withArrays_of_ne spec5 c _ _ b hb

abbrev A11 : (c : Dev nD) → (b : Ref sig .tc) → Buf (Elt F) ((c : Thread nD τ).loc b) := fun c b => W11 m c b

theorem hF0 (c : Dev nD) (w : Fin cfg0.W) : (dat0 (A1 m) c).arrAt w cfg0.N = A2 m c (Pipeline.arrRef spec0 w) :=
  (W2_arr m c w).symm
theorem hrest0 (c : Dev nD) : ∀ b, b ∉ Finset.univ.image (Pipeline.arrRef spec0) → A2 m c b = A1 m c b :=
  fun b hb => W2_of_ne m c b fun w e => hb (Finset.mem_image.mpr ⟨w, Finset.mem_univ _, e⟩)
theorem hF1 (c : Dev nD) (w : Fin cfg1.W) : (dat1 (A3 m) c).arrAt w cfg1.N = A4 m c (Pipeline.arrRef spec1 w) :=
  (W4_arr m c w).symm
theorem hrest1 (c : Dev nD) : ∀ b, b ∉ Finset.univ.image (Pipeline.arrRef spec1) → A4 m c b = A3 m c b :=
  fun b hb => W4_of_ne m c b fun w e => hb (Finset.mem_image.mpr ⟨w, Finset.mem_univ _, e⟩)
theorem hF2 (c : Dev nD) (w : Fin cfg2.W) : (dat2 (A5 m) c).arrAt w cfg2.N = A6 m c (Pipeline.arrRef spec2 w) :=
  (W6_arr m c w).symm
theorem hrest2 (c : Dev nD) : ∀ b, b ∉ Finset.univ.image (Pipeline.arrRef spec2) → A6 m c b = A5 m c b :=
  fun b hb => W6_of_ne m c b fun w e => hb (Finset.mem_image.mpr ⟨w, Finset.mem_univ _, e⟩)
theorem hF3 (c : Dev nD) (w : Fin cfg3.W) : (dat3 (A6 m) c).arrAt w cfg3.N = A7 m c (Pipeline.arrRef spec3 w) :=
  (W7_arr m c w).symm
theorem hrest3 (c : Dev nD) : ∀ b, b ∉ Finset.univ.image (Pipeline.arrRef spec3) → A7 m c b = A6 m c b :=
  fun b hb => W7_of_ne m c b fun w e => hb (Finset.mem_image.mpr ⟨w, Finset.mem_univ _, e⟩)
theorem hF4 (c : Dev nD) (w : Fin cfg4.W) : (dat4 (A8 m) c).arrAt w cfg4.N = A9 m c (Pipeline.arrRef spec4 w) :=
  (W9_arr m c w).symm
theorem hrest4 (c : Dev nD) : ∀ b, b ∉ Finset.univ.image (Pipeline.arrRef spec4) → A9 m c b = A8 m c b :=
  fun b hb => W9_of_ne m c b fun w e => hb (Finset.mem_image.mpr ⟨w, Finset.mem_univ _, e⟩)
theorem hF5 (c : Dev nD) (w : Fin cfg5.W) : (dat5 (A10 m) c).arrAt w cfg5.N = A11 m c (Pipeline.arrRef spec5 w) :=
  (W11_arr m c w).symm
theorem hrest5 (c : Dev nD) : ∀ b, b ∉ Finset.univ.image (Pipeline.arrRef spec5) → A11 m c b = A10 m c b :=
  fun b hb => W11_of_ne m c b fun w e => hb (Finset.mem_image.mpr ⟨w, Finset.mem_univ _, e⟩)

/-- Shared by the six regions' keep lemmas below. -/
theorem withArrays_keep {gr W : Nat} (win : Fin W → Pipeline.WinSpec sig gr) (hinj : Function.Injective (Pipeline.arrRef win))
    (c : Dev nD) (V : Valuation τ sig (Elt F)) (A : (w : Fin W) → Buf (Elt F) ((win w).arr.view.loc (c.tc : Thread nD τ)))
    (b : Ref sig .tc) (h : ∀ w, Pipeline.arrRef win w = b → A w = V (Proc.devRef .tc (Pipeline.arrRef win w))) :
    Pipeline.withArrays win c V A (Proc.devRef .tc b) = V (Proc.devRef .tc b) := by
  by_cases hw : ∃ w, Pipeline.arrRef win w = b
  · obtain ⟨w, rfl⟩ := hw
    exact (Pipeline.withArrays_arr win hinj c V A w).trans (h w rfl)
  · exact Pipeline.withArrays_of_ne win c V A b fun w e => hw ⟨w, e⟩

theorem W2_keep (c : Dev nD) (b : Ref sig .tc) (hb : b ∉ ([main_v13] : List (Ref sig .tc))) :
    W2 m c (Proc.devRef .tc b) = W1 m c (Proc.devRef .tc b) :=
  withArrays_keep spec0 launch0.win.arr_inj c _ _ b fun w e =>
    if hin : (cfg0.win w).isOut = false then ((dat0 (A1 m) c).arrAt_in w hin _).trans (A_eq0 (A1 m) c w)
    else absurd (e ▸ (by decide : ∀ w : Fin cfg0.W, (cfg0.win w).isOut ≠ false → Pipeline.arrRef spec0 w ∈ ([main_v13] : List (Ref sig .tc))) w hin) hb

theorem W4_keep (c : Dev nD) (b : Ref sig .tc) (hb : b ∉ ([main_v25] : List (Ref sig .tc))) :
    W4 m c (Proc.devRef .tc b) = W3 m c (Proc.devRef .tc b) :=
  withArrays_keep spec1 launch1.win.arr_inj c _ _ b fun w e =>
    if hin : (cfg1.win w).isOut = false then ((dat1 (A3 m) c).arrAt_in w hin _).trans (A_eq1 (A3 m) c w)
    else absurd (e ▸ (by decide : ∀ w : Fin cfg1.W, (cfg1.win w).isOut ≠ false → Pipeline.arrRef spec1 w ∈ ([main_v25] : List (Ref sig .tc))) w hin) hb

theorem W6_keep (c : Dev nD) (b : Ref sig .tc) (hb : b ∉ ([main_v37_0, main_v37_1] : List (Ref sig .tc))) :
    W6 m c (Proc.devRef .tc b) = W5 m c (Proc.devRef .tc b) :=
  withArrays_keep spec2 launch2.win.arr_inj c _ _ b fun w e =>
    if hin : (cfg2.win w).isOut = false then ((dat2 (A5 m) c).arrAt_in w hin _).trans (A_eq2 (A5 m) c w)
    else absurd (e ▸ (by decide : ∀ w : Fin cfg2.W, (cfg2.win w).isOut ≠ false → Pipeline.arrRef spec2 w ∈ ([main_v37_0, main_v37_1] : List (Ref sig .tc))) w hin) hb

theorem W7_keep (c : Dev nD) (b : Ref sig .tc) (hb : b ∉ ([main_v38] : List (Ref sig .tc))) :
    W7 m c (Proc.devRef .tc b) = W6 m c (Proc.devRef .tc b) :=
  withArrays_keep spec3 launch3.win.arr_inj c _ _ b fun w e =>
    if hin : (cfg3.win w).isOut = false then ((dat3 (A6 m) c).arrAt_in w hin _).trans (A_eq3 (A6 m) c w)
    else absurd (e ▸ (by decide : ∀ w : Fin cfg3.W, (cfg3.win w).isOut ≠ false → Pipeline.arrRef spec3 w ∈ ([main_v38] : List (Ref sig .tc))) w hin) hb

theorem W9_keep (c : Dev nD) (b : Ref sig .tc) (hb : b ∉ ([main_v50] : List (Ref sig .tc))) :
    W9 m c (Proc.devRef .tc b) = W8 m c (Proc.devRef .tc b) :=
  withArrays_keep spec4 launch4.win.arr_inj c _ _ b fun w e =>
    if hin : (cfg4.win w).isOut = false then ((dat4 (A8 m) c).arrAt_in w hin _).trans (A_eq4 (A8 m) c w)
    else absurd (e ▸ (by decide : ∀ w : Fin cfg4.W, (cfg4.win w).isOut ≠ false → Pipeline.arrRef spec4 w ∈ ([main_v50] : List (Ref sig .tc))) w hin) hb

theorem W11_keep (c : Dev nD) (b : Ref sig .tc) (hb : b ∉ ([main_v58] : List (Ref sig .tc))) :
    W11 m c (Proc.devRef .tc b) = W10 m c (Proc.devRef .tc b) :=
  withArrays_keep spec5 launch5.win.arr_inj c _ _ b fun w e =>
    if hin : (cfg5.win w).isOut = false then ((dat5 (A10 m) c).arrAt_in w hin _).trans (A_eq5 (A10 m) c w)
    else absurd (e ▸ (by decide : ∀ w : Fin cfg5.W, (cfg5.win w).isOut ≠ false → Pipeline.arrRef spec5 w ∈ ([main_v58] : List (Ref sig .tc))) w hin) hb

theorem W1_keep (c : Dev nD) (b : Ref sig .tc) (hb : b ∉ hostOps0_W) :
    W1 m c (Proc.devRef .tc b) = W0 m c (Proc.devRef .tc b) :=
  StableHlo.after_of_writes_sub hostOps0 _ hostOps0_writes hb

theorem W3_keep (c : Dev nD) (b : Ref sig .tc) (hb : b ∉ hostOps1_W) :
    W3 m c (Proc.devRef .tc b) = W2 m c (Proc.devRef .tc b) :=
  StableHlo.after_of_writes_sub hostOps1 _ hostOps1_writes hb

theorem W5_keep (c : Dev nD) (b : Ref sig .tc) (hb : b ∉ hostOps2_W) :
    W5 m c (Proc.devRef .tc b) = W4 m c (Proc.devRef .tc b) :=
  StableHlo.after_of_writes_sub hostOps2 _ hostOps2_writes hb

theorem W8_keep (c : Dev nD) (b : Ref sig .tc) (hb : b ∉ hostOps4_W) :
    W8 m c (Proc.devRef .tc b) = W7 m c (Proc.devRef .tc b) :=
  StableHlo.after_of_writes_sub hostOps4 _ hostOps4_writes hb

theorem W10_keep (c : Dev nD) (b : Ref sig .tc) (hb : b ∉ hostOps5_W) :
    W10 m c (Proc.devRef .tc b) = W9 m c (Proc.devRef .tc b) :=
  StableHlo.after_of_writes_sub hostOps5 _ hostOps5_writes hb

/-- The side condition under which a buffer reads back as launched. -/
abbrev Unwritten (b : Ref sig .tc) : Prop :=
  b ∉ hostOps0_W ∧
  b ∉ ([main_v13] : List (Ref sig .tc)) ∧
  b ∉ hostOps1_W ∧
  b ∉ ([main_v25] : List (Ref sig .tc)) ∧
  b ∉ hostOps2_W ∧
  b ∉ ([main_v37_0, main_v37_1] : List (Ref sig .tc)) ∧
  b ∉ ([main_v38] : List (Ref sig .tc)) ∧
  b ∉ hostOps4_W ∧
  b ∉ ([main_v50] : List (Ref sig .tc)) ∧
  b ∉ hostOps5_W ∧
  b ∉ ([main_v58] : List (Ref sig .tc))

/-- By induction along the items, each of which keeps what it does not write. -/
theorem W1_launch (c : Dev nD) (b : Ref sig .tc) (h : Unwritten b := by decide) :
    W1 m c (Proc.devRef .tc b) = m ((c : Thread nD τ).loc b) :=
  (W1_keep m c b h.1).trans rfl
theorem W2_launch (c : Dev nD) (b : Ref sig .tc) (h : Unwritten b := by decide) :
    W2 m c (Proc.devRef .tc b) = m ((c : Thread nD τ).loc b) :=
  (W2_keep m c b h.2.1).trans (W1_launch m c b h)
theorem W3_launch (c : Dev nD) (b : Ref sig .tc) (h : Unwritten b := by decide) :
    W3 m c (Proc.devRef .tc b) = m ((c : Thread nD τ).loc b) :=
  (W3_keep m c b h.2.2.1).trans (W2_launch m c b h)
theorem W4_launch (c : Dev nD) (b : Ref sig .tc) (h : Unwritten b := by decide) :
    W4 m c (Proc.devRef .tc b) = m ((c : Thread nD τ).loc b) :=
  (W4_keep m c b h.2.2.2.1).trans (W3_launch m c b h)
theorem W5_launch (c : Dev nD) (b : Ref sig .tc) (h : Unwritten b := by decide) :
    W5 m c (Proc.devRef .tc b) = m ((c : Thread nD τ).loc b) :=
  (W5_keep m c b h.2.2.2.2.1).trans (W4_launch m c b h)
theorem W6_launch (c : Dev nD) (b : Ref sig .tc) (h : Unwritten b := by decide) :
    W6 m c (Proc.devRef .tc b) = m ((c : Thread nD τ).loc b) :=
  (W6_keep m c b h.2.2.2.2.2.1).trans (W5_launch m c b h)
theorem W7_launch (c : Dev nD) (b : Ref sig .tc) (h : Unwritten b := by decide) :
    W7 m c (Proc.devRef .tc b) = m ((c : Thread nD τ).loc b) :=
  (W7_keep m c b h.2.2.2.2.2.2.1).trans (W6_launch m c b h)
theorem W8_launch (c : Dev nD) (b : Ref sig .tc) (h : Unwritten b := by decide) :
    W8 m c (Proc.devRef .tc b) = m ((c : Thread nD τ).loc b) :=
  (W8_keep m c b h.2.2.2.2.2.2.2.1).trans (W7_launch m c b h)
theorem W9_launch (c : Dev nD) (b : Ref sig .tc) (h : Unwritten b := by decide) :
    W9 m c (Proc.devRef .tc b) = m ((c : Thread nD τ).loc b) :=
  (W9_keep m c b h.2.2.2.2.2.2.2.2.1).trans (W8_launch m c b h)
theorem W10_launch (c : Dev nD) (b : Ref sig .tc) (h : Unwritten b := by decide) :
    W10 m c (Proc.devRef .tc b) = m ((c : Thread nD τ).loc b) :=
  (W10_keep m c b h.2.2.2.2.2.2.2.2.2.1).trans (W9_launch m c b h)
theorem W11_launch (c : Dev nD) (b : Ref sig .tc) (h : Unwritten b := by decide) :
    W11 m c (Proc.devRef .tc b) = m ((c : Thread nD τ).loc b) :=
  (W11_keep m c b h.2.2.2.2.2.2.2.2.2.2).trans (W10_launch m c b h)

theorem W11_main_v58 (c : Dev nD) : W11 m c (Proc.devRef .tc main_v58) = (dat5 (A10 m) c).arrAt 5 cfg5.N :=
  W11_arr m c 5
theorem W11_main_v50 (c : Dev nD) : W11 m c (Proc.devRef .tc main_v50) = (dat4 (A8 m) c).arrAt 5 cfg4.N :=
  (W11_keep m c main_v50 (by decide)).trans <| (W10_keep m c main_v50 (by decide)).trans <| W9_arr m c 5

end Cert.KernelIdeal.Reg

end
-- ==== Proof.KI.Regs.lean ====
/-
  The six kernel regions as segments of the main function's run.  Between two items a core holds every
  buffer that is not a kernel's own at the boundary's contents, its generator register at some state,
  and owes nothing.  A region splits its arrays out of those buffers, runs its pipeline over the grid
  (the body's obligation is the region's own module), and puts the arrays back at the exit contents; the
  generator register goes into the pipeline's invariant and comes out again.  Region 5 carries a scratch
  between grid points: its invariant is entered from, and left at, the plain one.
-/
import proofs.«418024_j36704790511896_3_alg».proof.Proof.KI.Fold

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Every pipeline's proof data, each at its region's entry contents. -/
def pdats : (p : Fin 6) → (c : Dev nD) → Dat τ (Elt F) Unit ℕ (UR sig nD τ) ℕ (Pipeline.pin (pcfgs (F := F)) adm p) c
  | ⟨0, _⟩ => fun c => dat0 (A1 m) c
  | ⟨1, _⟩ => fun c => dat1 (A3 m) c
  | ⟨2, _⟩ => fun c => dat2 (A5 m) c
  | ⟨3, _⟩ => fun c => dat3 (A6 m) c
  | ⟨4, _⟩ => fun c => dat4 (A8 m) c
  | ⟨5, _⟩ => fun c => dat5 (A10 m) c

/-- No core owes another anything: no level is assigned. -/
abbrev Lr : GSem nD τ sig → Finset Unit := fun _ => ∅
abbrev lvr : GSem nD τ sig → Unit → ℕ := fun _ _ => 0
/-- What rides beside the buffers through every segment: the generator register at some state, and nothing owed. -/
abbrev Rr (c : Dev nD) : sProp 𝕄 := iprop((∃ r, prngReg c r) ∗ ∃ W, owes (c : Thread nD τ) (0 : CellTallies nD τ sig Unit) W)
/-- The last thread state without the debts: every buffer at the last boundary's contents, the generator register at some state. -/
abbrev TN (c : Dev nD) : sProp 𝕄 := iprop(StableHlo.held (c : Thread nD τ) (Pipeline.ucRefs τ sig) (W11 m c) ∗ ∃ r, prngReg c r)
/-- A host stretch as a segment, from given contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none Lr lvr :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr

/-- The plain invariant of region 5 from what its entry hands over: the generator register and the kernels' own buffers. -/
theorem phiA_in5 (c : Dev nD) (P : sProp 𝕄) :
    iprop((∃ r, prngReg c r) ∗ P ∗ Pipeline.scopedRest spec5 c) ⊢ (Pipeline.ΦA spec5 c : sProp 𝕄) := by
  unfold Pipeline.ΦA
  iintro ⟨Hp, -, Hr⟩
  isplitl [Hr]; · iexact Hr
  iexact Hp
/-- and back, at its exit. -/
theorem phiA_out5 (c : Dev nD) :
    (Pipeline.ΦA spec5 c : sProp 𝕄) ⊢ iprop((∃ r, prngReg c r) ∗ BI.emp ∗ Pipeline.scopedRest spec5 c) := by
  unfold Pipeline.ΦA
  iintro ⟨Hr, Hp⟩
  isplitl [Hp]; · iexact Hp
  isplitr; · iempintro
  iexact Hr

set_option backward.isDefEq.respectTransparency.types false in
/-- Region 0 over the thread state: entered from the contents at boundary 1, left at boundary 2. -/
def reg0 : Pipeline.RegionSeg (pcfgs (F := F)) adm (pdats m) () defs₀ Variants.none Lr lvr 0 where
  win := launch0.win.to₀
  block_pos := launch0.block_pos
  stage_whole := launch0.stage_whole
  K := PEmpty
  osem k := k.elim
  ho := Pipeline.OwnSemFacts.none _
  hbody c := (body_obligation0 (A1 m) c).loose
  hwaits := Pipeline.hwaits_of_owed_zero _ _ _ _ Lr lvr 0 fun _ _ => rfl
  pre c := iprop(StableHlo.held (c : Thread nD τ) (Pipeline.ucRefs τ sig) (W1 m c) ∗ Rr c)
  post c := iprop(StableHlo.held (c : Thread nD τ) (Pipeline.ucRefs τ sig) (W2 m c) ∗ Rr c)
  X c := iprop(∃ r, prngReg c r)
  Y c := iprop(∃ r, prngReg c r)
  Z c := Pipeline.unscopedRest (Ix := Unit) (Name := ℕ) (U := UR sig nD τ) (Lvl := ℕ) spec0 c (A1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (A1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (A1 m c) (A2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from the contents at boundary 3, left at boundary 4. -/
def reg1 : Pipeline.RegionSeg (pcfgs (F := F)) adm (pdats m) () defs₀ Variants.none Lr lvr 1 where
  win := launch1.win.to₀
  block_pos := launch1.block_pos
  stage_whole := launch1.stage_whole
  K := PEmpty
  osem k := k.elim
  ho := Pipeline.OwnSemFacts.none _
  hbody c := (body_obligation1 (A3 m) c).loose
  hwaits := Pipeline.hwaits_of_owed_zero _ _ _ _ Lr lvr 1 fun _ _ => rfl
  pre c := iprop(StableHlo.held (c : Thread nD τ) (Pipeline.ucRefs τ sig) (W3 m c) ∗ Rr c)
  post c := iprop(StableHlo.held (c : Thread nD τ) (Pipeline.ucRefs τ sig) (W4 m c) ∗ Rr c)
  X c := iprop(∃ r, prngReg c r)
  Y c := iprop(∃ r, prngReg c r)
  Z c := Pipeline.unscopedRest (Ix := Unit) (Name := ℕ) (U := UR sig nD τ) (Lvl := ℕ) spec1 c (A3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (A3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (A3 m c) (A4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from the contents at boundary 5, left at boundary 6. -/
def reg2 : Pipeline.RegionSeg (pcfgs (F := F)) adm (pdats m) () defs₀ Variants.none Lr lvr 2 where
  win := launch2.win.to₀
  block_pos := launch2.block_pos
  stage_whole := launch2.stage_whole
  K := PEmpty
  osem k := k.elim
  ho := Pipeline.OwnSemFacts.none _
  hbody c := (body_obligation2 (A5 m) c).loose
  hwaits := Pipeline.hwaits_of_owed_zero _ _ _ _ Lr lvr 2 fun _ _ => rfl
  pre c := iprop(StableHlo.held (c : Thread nD τ) (Pipeline.ucRefs τ sig) (W5 m c) ∗ Rr c)
  post c := iprop(StableHlo.held (c : Thread nD τ) (Pipeline.ucRefs τ sig) (W6 m c) ∗ Rr c)
  X c := iprop(∃ r, prngReg c r)
  Y c := iprop(∃ r, prngReg c r)
  Z c := Pipeline.unscopedRest (Ix := Unit) (Name := ℕ) (U := UR sig nD τ) (Lvl := ℕ) spec2 c (A5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (A5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (A5 m c) (A6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from the contents at boundary 6, left at boundary 7. -/
def reg3 : Pipeline.RegionSeg (pcfgs (F := F)) adm (pdats m) () defs₀ Variants.none Lr lvr 3 where
  win := launch3.win.to₀
  block_pos := launch3.block_pos
  stage_whole := launch3.stage_whole
  K := PEmpty
  osem k := k.elim
  ho := Pipeline.OwnSemFacts.none _
  hbody c := (body_obligation3 (A6 m) c).loose
  hwaits := Pipeline.hwaits_of_owed_zero _ _ _ _ Lr lvr 3 fun _ _ => rfl
  pre c := iprop(StableHlo.held (c : Thread nD τ) (Pipeline.ucRefs τ sig) (W6 m c) ∗ Rr c)
  post c := iprop(StableHlo.held (c : Thread nD τ) (Pipeline.ucRefs τ sig) (W7 m c) ∗ Rr c)
  X c := iprop(∃ r, prngReg c r)
  Y c := iprop(∃ r, prngReg c r)
  Z c := Pipeline.unscopedRest (Ix := Unit) (Name := ℕ) (U := UR sig nD τ) (Lvl := ℕ) spec3 c (A6 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (A6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (A6 m c) (A7 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from the contents at boundary 8, left at boundary 9. -/
def reg4 : Pipeline.RegionSeg (pcfgs (F := F)) adm (pdats m) () defs₀ Variants.none Lr lvr 4 where
  win := launch4.win.to₀
  block_pos := launch4.block_pos
  stage_whole := launch4.stage_whole
  K := PEmpty
  osem k := k.elim
  ho := Pipeline.OwnSemFacts.none _
  hbody c := (body_obligation4 (A8 m) c).loose
  hwaits := Pipeline.hwaits_of_owed_zero _ _ _ _ Lr lvr 4 fun _ _ => rfl
  pre c := iprop(StableHlo.held (c : Thread nD τ) (Pipeline.ucRefs τ sig) (W8 m c) ∗ Rr c)
  post c := iprop(StableHlo.held (c : Thread nD τ) (Pipeline.ucRefs τ sig) (W9 m c) ∗ Rr c)
  X c := iprop(∃ r, prngReg c r)
  Y c := iprop(∃ r, prngReg c r)
  Z c := Pipeline.unscopedRest (Ix := Unit) (Name := ℕ) (U := UR sig nD τ) (Lvl := ℕ) spec4 c (A8 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (A8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (A8 m c) (A9 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from the contents at boundary 10, left at boundary 11. -/
def reg5 : Pipeline.RegionSeg (pcfgs (F := F)) adm (pdats m) () defs₀ Variants.none Lr lvr 5 where
  win := launch5.win.to₀
  block_pos := launch5.block_pos
  stage_whole := launch5.stage_whole
  K := PEmpty
  osem k := k.elim
  ho := Pipeline.OwnSemFacts.none _
  hbody c := (body_obligation5 (A10 m) c).loose
  hwaits := Pipeline.hwaits_of_owed_zero _ _ _ _ Lr lvr 5 fun _ _ => rfl
  pre c := iprop(StableHlo.held (c : Thread nD τ) (Pipeline.ucRefs τ sig) (W10 m c) ∗ Rr c)
  post c := iprop(TN m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (A10 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (A10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = (dat5 (A10 m) c).Φ 0 from rfl]
    exact (phiA_in5 c _).trans (hin5 (A10 m) c)
  hout c := by
    rw [Pipeline.ownSems0_none, show (pdats m 5 c).Φ (Fin.last _) = (dat5 (A10 m) c).Φ (Fin.last cfg5.N) from rfl]
    exact (hout5 (A10 m) c).trans (phiA_out5 c)
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (A10 m c) (A11 m c) ((pdats m 5 c).arrAt · cfg5.N) (hF5 m c) (hrest5 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.KernelIdeal.Reg

end
-- ==== Proof.KI.Run.lean ====
import proofs.«418024_j36704790511896_3_alg».proof.Proof.KI.Regs

/-! The main function's run: its eleven items chained from the launch memory. -/

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev mainSegs : List (Pipeline.Seg (pcfgs (F := F)) adm (pdats m) () defs₀ Variants.none Lr lvr) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .region (reg3 m),
    .host (hseg hostOps4 hostOps4_sub hostOps4_fresh (W7 m)),
    .region (reg4 m),
    .host (hseg hostOps5 hostOps5_sub hostOps5_fresh (W9 m)),
    .region (reg5 m) ]

theorem main_run (c : Dev nD) : main (F := F) c = Pipeline.Seg.run (mainSegs m) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
theorem run_all : θ_run defs (onTc (τ := τ) (main (F := F))) ⟨m, fun _ => 0, ρ⟩
    (fun r => ∀ c : Dev nD, ∀ b ∈ Pipeline.ucRefs τ sig, r.2.mem (((c : Thread nD τ)).1, b) = W11 m c b) :=
  Pipeline.θ_run_regions_kit (pcfgs (F := F)) adm (pdats m) () cellOf_inj emb₁ defs₀ Variants.none Lr lvr m ρ main (mainSegs m)
    (fun c Q => by rw [main_run m c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rr c)) (Tₙ := TN m)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl⟩)
    (hinit := by
      refine Pipeline.initEach Lr lvr fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m c b)
    (hfin := fun c s' => by
      iintro ⟨⟨Hh, -⟩, HSI⟩
      unfold StableHlo.held
      imodintro
      iapply (pointsTo_read_all (Pipeline.ucRefs τ sig) (fun b => (((c : Thread nD τ)).1, b)) (W11 m c) s')
      isplitl [Hh] <;> iassumption)
    (hQ := fun s h c => h c)

/-- What the frame claims of one buffer. -/
abbrev Kept (mem : (ℓ : Loc nD τ sig) → Buf (Elt F) ℓ) (c : Dev nD) (b : Ref sig .tc) : Prop :=
  mem ((c : Thread nD τ).loc b) = m ((c : Thread nD τ).loc b)

variable {m} {mem : (ℓ : Loc nD τ sig) → Buf (Elt F) ℓ} {c : Dev nD}
  (h : ∀ b ∈ Pipeline.ucRefs τ sig, mem ((c : Thread nD τ).1, b) = W11 m c b)
include h

theorem kept_of_end (b : Ref sig .tc) (hs : ¬ (Proc.devRef .tc b : DevRef τ sig).isScoped := by decide)
    (hu : Unwritten b := by decide) : Kept m mem c b :=
  (h _ (mem_uc b hs)).trans (W11_launch m c b hu)

theorem args_kept : Kept m mem c main_arg0 ∧ Kept m mem c main_arg1 ∧ Kept m mem c main_arg2 ∧ Kept m mem c main_arg3 ∧
    Kept m mem c main_arg4 ∧ Kept m mem c main_arg5 ∧ Kept m mem c main_arg6 ∧ Kept m mem c main_arg7 ∧ Kept m mem c main_arg8 ∧
    Kept m mem c main_arg9 ∧ Kept m mem c main_arg10 ∧ Kept m mem c main_arg11 ∧ Kept m mem c main_arg12 ∧ Kept m mem c main_arg13 :=
  ⟨kept_of_end h main_arg0, kept_of_end h main_arg1, kept_of_end h main_arg2, kept_of_end h main_arg3, kept_of_end h main_arg4,
    kept_of_end h main_arg5, kept_of_end h main_arg6, kept_of_end h main_arg7, kept_of_end h main_arg8, kept_of_end h main_arg9,
    kept_of_end h main_arg10, kept_of_end h main_arg11, kept_of_end h main_arg12, kept_of_end h main_arg13⟩

end Cert.KernelIdeal.Reg

end
-- ==== Proof.Spec.lean ====
import Idealize.ShloMosaic.PureOps.Ideal
import Mathlib.Algebra.BigOperators.Group.Finset.Basic

/-! A graph layer, the three-layer network and mean pooling as formulas over the extended reals, in both arrangements. -/

noncomputable section

open scoped BigOperators

namespace Cert.Spec

open Idealize.ShloMosaic

variable {ν ε γ : Type} [Fintype ν] [Fintype ε]

def mm {α κ ι : Type} [Fintype κ] (l : α → κ → EReal) (r : κ → ι → EReal) (a : α) (j : ι) : EReal :=
  ∑ k, l a k * r k j

section Graph

variable (hit : ε → ν → Prop) [∀ e n, Decidable (hit e n)] (g : ε → ν)

def agg {ι : Type} (v : ν → ι → EReal) (n : ν) (j : ι) : EReal :=
  ∑ e, if hit e n then v (g e) j else 0

def cnt (n : ν) : EReal := ∑ e : ε, if hit e n then (1 : EReal) else 0

def cmax (n : ν) : EReal := max (cnt hit n) 1

variable {κ ι : Type} [Fintype κ]

def sageRef (v : ν → κ → EReal) (Wl Wr : κ → ι → EReal) (b : ι → EReal) (n : ν) (j : ι) : EReal :=
  (mm (fun n k => Ideal.div (agg hit g v n k) (cmax hit n)) Wl n j + b j) + mm v Wr n j

def sageProj (v : ν → κ → EReal) (Wl Wr : κ → ι → EReal) (b : ι → EReal) (n : ν) (j : ι) : EReal :=
  (mm v Wr n j + agg hit g (mm v Wl) n j * Ideal.div 1 (cmax hit n)) + b j

def sageMean (v : ν → κ → EReal) (Wl Wr : κ → ι → EReal) (b : ι → EReal) (n : ν) (j : ι) : EReal :=
  (mm (fun n k => agg hit g v n k * Ideal.div 1 (cmax hit n)) Wl n j + mm v Wr n j) + b j

end Graph

def relu {α ι : Type} (v : α → ι → EReal) (a : α) (j : ι) : EReal := max (v a j) 0

section Pool

variable (inG : ν → γ → Prop) [∀ r c, Decidable (inG r c)] {κ ι : Type} [Fintype κ]

def gmax (c : γ) : EReal := max (∑ r : ν, if inG r c then (1 : EReal) else 0) 1

def poolRef (h : ν → κ → EReal) (Wc : κ → ι → EReal) (bc : ι → EReal) (c : γ) (j : ι) : EReal :=
  mm (fun c f => Ideal.div (∑ r : ν, if inG r c then h r f else 0) (gmax inG c)) Wc c j + bc j

def poolKer (h : ν → κ → EReal) (Wc : κ → ι → EReal) (bc : ι → EReal) (c : γ) (j : ι) : EReal :=
  mm (fun c f => Ideal.div (∑ r : ν, (if inG r c then (1 : EReal) else 0) * h r f) (gmax inG c)) Wc c j + bc j

end Pool

def Fin2 {α ι : Type} (v : α → ι → EReal) : Prop := ∀ a j, ∃ r : ℝ, v a j = (r : EReal)

def Fin1 {ι : Type} (b : ι → EReal) : Prop := ∀ j, ∃ r : ℝ, b j = (r : EReal)

end Cert.Spec

end
-- ==== Proof.Graph.lean ====
import proofs.«418024_j36704790511896_3_alg».proof.Proof.Spec
import Idealize.ShloMosaic.Lib.ValueIdx

/-! The graph the integer arguments encode: the node an edge lands on and the row it reads. -/

noncomputable section

namespace Cert.Graph

open Idealize.ShloMosaic Idealize.ShloMosaic.ValueIdx

abbrev NN : Nat := 100000
abbrev NE : Nat := 3200000
abbrev NG : Nat := 64

def srcW (ei : IVec ⟨2, ![2, 3200000]⟩ 32) (e : Fin NE) : BitVec 32 := ei (ix2 (0 : Fin 2) e)

def dstW (ei : IVec ⟨2, ![2, 3200000]⟩ 32) (e : Fin NE) : BitVec 32 := ei (ix2 (1 : Fin 2) e)

def wrapW (w : BitVec 32) : BitVec 32 :=
  Scalar.select (IntOp.cmpi .slt w 0#32) (IntOp.addi w 100000#32) w

def hit (ei : IVec ⟨2, ![2, 3200000]⟩ 32) (e : Fin NE) (n : Fin NN) : Prop := (dstW ei e).toInt = (n.val : ℤ)

instance (ei : IVec ⟨2, ![2, 3200000]⟩ 32) (e : Fin NE) (n : Fin NN) : Decidable (hit ei e n) := by
  unfold hit; infer_instance

def grow (ei : IVec ⟨2, ![2, 3200000]⟩ 32) (e : Fin NE) : Fin NN :=
  ⟨min (wrapW (srcW ei e)).toInt.toNat (NN - 1), by have : NN = 100000 := rfl; omega⟩

def inG (batch : IVec ⟨1, ![100000]⟩ 32) (r : Fin NN) (c : Fin NG) : Prop := (batch (ix1 r)).toInt = (c.val : ℤ)

instance (batch : IVec ⟨1, ![100000]⟩ 32) (r : Fin NN) (c : Fin NG) : Decidable (inG batch r c) := by
  unfold inG; infer_instance

def cur2 {R C : Nat} {α : Type} (a : (⟨2, ![R, C]⟩ : Shape).Idx → α) : Fin R → Fin C → α := fun p q => a (ix2 p q)

def cur1 {C : Nat} {α : Type} (a : (⟨1, ![C]⟩ : Shape).Idx → α) : Fin C → α := fun q => a (ix1 q)

theorem cur2_apply {R C : Nat} {α : Type} (a : (⟨2, ![R, C]⟩ : Shape).Idx → α) (p : Fin R) (q : Fin C) :
    cur2 a p q = a (ix2 p q) := rfl
end Cert.Graph

end
-- ==== Proof.LibScatterGather.lean ====
import Idealize.ShloMosaic.PureOps.Ideal
import Idealize.ShloMosaic.PureOps.Ideal.Laws
import Idealize.ShloMosaic.Lib.ValueIdx
import Idealize.ShloMosaic.Lib.StableHlo.Predicate

/-! An accumulating scatter and a row gather, read at one element. -/

noncomputable section

namespace Cert.LibScatterGather

open Idealize.ShloMosaic Idealize.ShloMosaic.ValueIdx

def idxEquiv1 {n : Nat} : (⟨1, ![n]⟩ : Shape).Idx ≃ Fin n where
  toFun i := i 0
  invFun a := ix1 a
  left_inv i := (eq_ix1 i).symm
  right_inv _ := rfl

theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

abbrev vecDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

theorem vec_landing {N M w : Nat} (wf : ScatterDims.WF ⟨1, ![N]⟩ ⟨2, ![M, 1]⟩ ⟨1, ![M]⟩ [] [0] [0] 1)
    (idx : IVec ⟨2, ![M, 1]⟩ w) (j : (⟨1, ![M]⟩ : Shape).Idx) (a : Fin 1) :
    (vecDims N M wf).start j idx a + ((vecDims N M wf).window j a : ℤ) = (idx (ix2 (j 0) (0 : Fin 1))).toInt := by
  obtain rfl : a = 0 := Subsingleton.elim _ _
  unfold ScatterDims.start ScatterDims.window
  rw [dif_pos (show (0 : Fin 1) ∈ (vecDims N M wf).scatterDimsToOperandDims from List.mem_singleton.mpr rfl),
    dif_neg (show (0 : Fin 1) ∉ (vecDims N M wf).sKept by
      show (0 : Fin 1) ∉ (List.finRange 1).filter (· ∉ [0]); decide)]
  have hsi : (vecDims N M wf).siIdx j ⟨List.idxOf (0 : Fin 1) (vecDims N M wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  simp

theorem vec_resultIdx {N M w : Nat} (wf : ScatterDims.WF ⟨1, ![N]⟩ ⟨2, ![M, 1]⟩ ⟨1, ![M]⟩ [] [0] [0] 1)
    (idx : IVec ⟨2, ![M, 1]⟩ w) (j : (⟨1, ![M]⟩ : Shape).Idx) (i : Fin N) :
    (vecDims N M wf).resultIdx? j idx = some (ix1 i) ↔ (idx (ix2 (j 0) (0 : Fin 1))).toInt = (i.val : ℤ) := by
  have hl := vec_landing wf idx j
  unfold ScatterDims.resultIdx?
  constructor
  · intro h
    split at h
    · next hc =>
      have h0 := congrFun (Option.some.inj h) 0
      have h1 := congrArg Fin.val h0
      simp only at h1
      have := hc 0
      rw [← hl 0]
      change ((vecDims N M wf).start j idx 0 + ((vecDims N M wf).window j 0 : ℤ)).toNat = i.val at h1
      omega
    · exact absurd h (by simp)
  · intro h
    have hc : ∀ a, 0 ≤ (vecDims N M wf).start j idx a + ((vecDims N M wf).window j a : ℤ) ∧
        (vecDims N M wf).start j idx a + ((vecDims N M wf).window j a : ℤ) < ((⟨1, ![N]⟩ : Shape).size a : ℤ) := by
      intro a
      obtain rfl : a = 0 := Subsingleton.elim _ _
      rw [hl 0, h]
      have := i.isLt
      constructor
      · omega
      · show (i.val : ℤ) < (N : ℤ); omega
    rw [dif_pos hc]
    congr 1
    funext a
    obtain rfl : a = 0 := Subsingleton.elim _ _
    refine Fin.ext ?_
    show ((vecDims N M wf).start j idx 0 + ((vecDims N M wf).window j 0 : ℤ)).toNat = i.val
    rw [hl 0, h]; simp

theorem scatterAdd_vec_apply {N M w : Nat} {φ : FTy} (d : ScatterDims ⟨1, ![N]⟩ ⟨2, ![M, 1]⟩ ⟨1, ![M]⟩)
    (huw : d.updateWindowDims = []) (hiw : d.insertedWindowDims = [0]) (hsd : d.scatterDimsToOperandDims = [0])
    (hivd : d.indexVectorDim = 1)
    (x : FVec Ideal ⟨1, ![N]⟩ φ) (idx : IVec ⟨2, ![M, 1]⟩ w) (upd : FVec Ideal ⟨1, ![M]⟩ φ) (i : Fin N) :
    Host.scatterAdd d x idx upd (ix1 i)
      = x (ix1 i) + ∑ e : Fin M, if (idx (ix2 e (0 : Fin 1))).toInt = (i.val : ℤ) then upd (ix1 e) else 0 := by
  obtain ⟨uw, iw, sd, ivd, wf⟩ := d
  simp only at huw hiw hsd hivd
  subst huw hiw hsd hivd
  show Ideal.hostScatterAdd (vecDims N M wf) x idx upd (ix1 i) = _
  unfold Ideal.hostScatterAdd
  congr 1
  rw [Finset.sum_filter, sum_idx1]
  refine Finset.sum_congr rfl fun e _ => ?_
  exact if_congr (vec_resultIdx wf idx (ix1 e) i) rfl rfl

abbrev rowDims (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

theorem row_landing0 {N M C w : Nat} (wf : ScatterDims.WF ⟨2, ![N, C]⟩ ⟨2, ![M, 1]⟩ ⟨2, ![M, C]⟩ [1] [0] [0] 1)
    (idx : IVec ⟨2, ![M, 1]⟩ w) (q : (⟨2, ![M, C]⟩ : Shape).Idx) :
    (rowDims N M C wf).start q idx 0 + ((rowDims N M C wf).window q 0 : ℤ) = (idx (ix2 (q 0) (0 : Fin 1))).toInt := by
  unfold ScatterDims.start ScatterDims.window
  rw [dif_pos (show (0 : Fin 2) ∈ (rowDims N M C wf).scatterDimsToOperandDims from List.mem_singleton.mpr rfl),
    dif_neg (show (0 : Fin 2) ∉ (rowDims N M C wf).sKept by
      show (0 : Fin 2) ∉ (List.finRange 2).filter (· ∉ [(0 : Fin 2)]); decide)]
  have hsi : (rowDims N M C wf).siIdx q ⟨List.idxOf (0 : Fin 2) (rowDims N M C wf).scatterDimsToOperandDims,
      List.idxOf_lt_length_iff.2 (List.mem_singleton.mpr rfl)⟩ = ix2 (q 0) (0 : Fin 1) := by
    funext b; refine Fin.ext ?_
    match b with
    | ⟨0, _⟩ => rfl
    | ⟨1, _⟩ => rfl
  rw [hsi]
  simp

theorem row_landing1 {N M C w : Nat} (wf : ScatterDims.WF ⟨2, ![N, C]⟩ ⟨2, ![M, 1]⟩ ⟨2, ![M, C]⟩ [1] [0] [0] 1)
    (idx : IVec ⟨2, ![M, 1]⟩ w) (q : (⟨2, ![M, C]⟩ : Shape).Idx) :
    (rowDims N M C wf).start q idx 1 + ((rowDims N M C wf).window q 1 : ℤ) = ((q 1).val : ℤ) := by
  unfold ScatterDims.start ScatterDims.window
  rw [dif_neg (show (1 : Fin 2) ∉ (rowDims N M C wf).scatterDimsToOperandDims by
      show (1 : Fin 2) ∉ [(0 : Fin 2)]; decide),
    dif_pos (show (1 : Fin 2) ∈ (rowDims N M C wf).sKept by
      show (1 : Fin 2) ∈ (List.finRange 2).filter (· ∉ [(0 : Fin 2)]); decide), Int.zero_add]
  rfl

theorem row_resultIdx {N M C w : Nat} (wf : ScatterDims.WF ⟨2, ![N, C]⟩ ⟨2, ![M, 1]⟩ ⟨2, ![M, C]⟩ [1] [0] [0] 1)
    (idx : IVec ⟨2, ![M, 1]⟩ w) (q : (⟨2, ![M, C]⟩ : Shape).Idx) (i : Fin N) (k : Fin C) :
    (rowDims N M C wf).resultIdx? q idx = some (ix2 i k)
      ↔ (idx (ix2 (q 0) (0 : Fin 1))).toInt = (i.val : ℤ) ∧ q 1 = k := by
  have hl0 := row_landing0 wf idx q
  have hl1 := row_landing1 wf idx q
  unfold ScatterDims.resultIdx?
  constructor
  · intro h
    split at h
    · next hc =>
      have hf := Option.some.inj h
      have h0 := congrArg Fin.val (congrFun hf 0)
      have h1 := congrArg Fin.val (congrFun hf 1)
      change ((rowDims N M C wf).start q idx 0 + ((rowDims N M C wf).window q 0 : ℤ)).toNat = i.val at h0
      change ((rowDims N M C wf).start q idx 1 + ((rowDims N M C wf).window q 1 : ℤ)).toNat = k.val at h1
      have hc0 := (hc 0).1
      rw [hl0] at h0 hc0
      rw [hl1] at h1
      refine ⟨by omega, Fin.ext ?_⟩
      simpa using h1
    · exact absurd h (by simp)
  · rintro ⟨h, hk⟩
    have hc : ∀ a, 0 ≤ (rowDims N M C wf).start q idx a + ((rowDims N M C wf).window q a : ℤ) ∧
        (rowDims N M C wf).start q idx a + ((rowDims N M C wf).window q a : ℤ) < ((⟨2, ![N, C]⟩ : Shape).size a : ℤ) := by
      intro a
      match a with
      | ⟨0, _⟩ =>
        have := i.isLt
        refine ⟨?_, ?_⟩
        · show 0 ≤ (rowDims N M C wf).start q idx 0 + ((rowDims N M C wf).window q 0 : ℤ)
          rw [hl0, h]; omega
        · show (rowDims N M C wf).start q idx 0 + ((rowDims N M C wf).window q 0 : ℤ) < (N : ℤ)
          rw [hl0, h]; omega
      | ⟨1, _⟩ =>
        have := idx2_lt1 q
        refine ⟨?_, ?_⟩
        · show 0 ≤ (rowDims N M C wf).start q idx 1 + ((rowDims N M C wf).window q 1 : ℤ)
          rw [hl1]; omega
        · show (rowDims N M C wf).start q idx 1 + ((rowDims N M C wf).window q 1 : ℤ) < (C : ℤ)
          rw [hl1]; omega
    rw [dif_pos hc]
    congr 1
    funext a
    refine Fin.ext ?_
    match a with
    | ⟨0, _⟩ =>
      show ((rowDims N M C wf).start q idx 0 + ((rowDims N M C wf).window q 0 : ℤ)).toNat = i.val
      rw [hl0, h]; simp
    | ⟨1, _⟩ =>
      show ((rowDims N M C wf).start q idx 1 + ((rowDims N M C wf).window q 1 : ℤ)).toNat = k.val
      rw [hl1, hk]; simp

theorem scatterAdd_rows_apply {N M C w : Nat} {φ : FTy} (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1)
    (x : FVec Ideal ⟨2, ![N, C]⟩ φ) (idx : IVec ⟨2, ![M, 1]⟩ w) (upd : FVec Ideal ⟨2, ![M, C]⟩ φ) (i : Fin N) (j : Fin C) :
    Host.scatterAdd d x idx upd (ix2 i j)
      = x (ix2 i j) + ∑ e : Fin M, if (idx (ix2 e (0 : Fin 1))).toInt = (i.val : ℤ) then upd (ix2 e j) else 0 := by
  obtain ⟨uw, iw, sd, ivd, wf⟩ := d
  simp only at huw hiw hsd hivd
  subst huw hiw hsd hivd
  show Ideal.hostScatterAdd (rowDims N M C wf) x idx upd (ix2 i j) = _
  unfold Ideal.hostScatterAdd
  congr 1
  rw [Finset.sum_filter, sum_idx2]
  refine Finset.sum_congr rfl fun e _ => ?_
  have hstep : ∀ b : Fin C,
      (if (rowDims N M C wf).resultIdx? (ix2 e b) idx = some (ix2 i j) then upd (ix2 e b) else 0)
        = if b = j then (if (idx (ix2 e (0 : Fin 1))).toInt = (i.val : ℤ) then upd (ix2 e b) else 0) else 0 := by
    intro b
    have hiff := row_resultIdx wf idx (ix2 e b) i j
    by_cases hb : b = j
    · rw [if_pos hb]
      exact if_congr (hiff.trans ⟨fun h => h.1, fun h => ⟨h, hb⟩⟩) rfl rfl
    · rw [if_neg hb, if_neg]
      exact fun h => hb (hiff.mp h).2
  rw [Finset.sum_congr rfl fun b _ => hstep b, Finset.sum_ite_eq' Finset.univ j, if_pos (Finset.mem_univ j)]

abbrev rowGatherDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

theorem rowGather_axis0 {N M C w : Nat}
    (wf : GatherDims.WF ⟨2, ![N, C]⟩ ⟨2, ![M, 1]⟩ ⟨2, ![M, C]⟩ [1] [0] [] [0] [] 1 ![1, C])
    (idx : IVec ⟨2, ![M, 1]⟩ w) (e : Fin M) (j : Fin C) :
    ((rowGatherDims N M C wf).operandIdx (ix2 e j) idx 0).val = min (idx (ix2 e (0 : Fin 1))).toInt.toNat (N - 1) := by
  show (rowGatherDims N M C wf).start (ix2 e j) idx 0 + (rowGatherDims N M C wf).batchCoord (ix2 e j) 0
    + (rowGatherDims N M C wf).offCoord (ix2 e j) 0 = _
  rw [GatherDims.batchCoord_eq_zero _ _ _ List.not_mem_nil, Nat.add_zero,
    GatherDims.offCoord_eq_zero _ _ _ (fun h => ((GatherDims.mem_sKept _ _).mp h).1 (List.mem_singleton.mpr rfl)),
    Nat.add_zero]
  unfold GatherDims.start
  rw [dif_pos (show (0 : Fin 2) ∈ (rowGatherDims N M C wf).startIndexMap from List.mem_singleton.mpr rfl)]
  have hsi : (rowGatherDims N M C wf).siIdx (ix2 e j) ⟨List.idxOf (0 : Fin 2) (rowGatherDims N M C wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

theorem rowGather_axis1 {N M C w : Nat}
    (wf : GatherDims.WF ⟨2, ![N, C]⟩ ⟨2, ![M, 1]⟩ ⟨2, ![M, C]⟩ [1] [0] [] [0] [] 1 ![1, C])
    (idx : IVec ⟨2, ![M, 1]⟩ w) (e : Fin M) (j : Fin C) :
    ((rowGatherDims N M C wf).operandIdx (ix2 e j) idx 1).val = j.val := by
  show (rowGatherDims N M C wf).start (ix2 e j) idx 1 + (rowGatherDims N M C wf).batchCoord (ix2 e j) 1
    + (rowGatherDims N M C wf).offCoord (ix2 e j) 1 = _
  rw [GatherDims.batchCoord_eq_zero _ _ _ List.not_mem_nil, Nat.add_zero]
  unfold GatherDims.start
  rw [dif_neg (show (1 : Fin 2) ∉ (rowGatherDims N M C wf).startIndexMap by
    show (1 : Fin 2) ∉ [(0 : Fin 2)]; decide), Nat.zero_add]
  unfold GatherDims.offCoord
  rw [dif_pos (show (1 : Fin 2) ∈ (rowGatherDims N M C wf).sKept by
    show (1 : Fin 2) ∈ (List.finRange 2).filter (· ∉ [(0 : Fin 2)] ++ []); decide)]
  rfl

theorem gather_rows_apply {α : Type} {N M C w : Nat} (d : GatherDims ⟨2, ![N, C]⟩ ⟨2, ![M, 1]⟩ ⟨2, ![M, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, C])
    (x : (⟨2, ![N, C]⟩ : Shape).Idx → α) (idx : IVec ⟨2, ![M, 1]⟩ w) (e : Fin M) (j : Fin C) (hN : 0 < N) :
    Host.gather d x idx (ix2 e j)
      = x (ix2 (⟨min (idx (ix2 e (0 : Fin 1))).toInt.toNat (N - 1), by omega⟩ : Fin N) j) := by
  obtain ⟨od, cd, ob, sb, sm, ivd, ss, wf⟩ := d
  simp only at hoff hcoll hob hsb hsim hivd hss
  subst hoff hcoll hob hsb hsim hivd hss
  show x ((rowGatherDims N M C wf).operandIdx (ix2 e j) idx) = _
  congr 1
  funext a
  refine Fin.ext ?_
  match a with
  | ⟨0, _⟩ => exact rowGather_axis0 wf idx e j
  | ⟨1, _⟩ => exact rowGather_axis1 wf idx e j

end Cert.LibScatterGather

end
-- ==== Proof.RefSide.lean ====
import proofs.«418024_j36704790511896_3_alg».proof.Proof.Gen.ReferenceIdeal.Run
import proofs.«418024_j36704790511896_3_alg».proof.Proof.Gen.ReferenceIdeal.Read
import proofs.«418024_j36704790511896_3_alg».proof.Proof.Graph
import proofs.«418024_j36704790511896_3_alg».proof.Proof.LibScatterGather
import Idealize.ShloMosaic.Lib.IdealHost

/-! The reference read one operation at a time: its two results, index by index. -/

noncomputable section

open scoped BigOperators

namespace Cert.ReferenceIdeal.RefSide

open Cert.ReferenceIdeal Cert.ReferenceIdeal.Read Idealize.ShloMosaic Idealize.ShloMosaic.ValueIdx
open Cert.Graph Cert.Spec Cert.LibScatterGather

section Words

variable (ei : (⟨S2x3200000, .i32⟩ : BufTy).Contents (Elt Ideal))

theorem src_word (e : Fin 3200000) : val_main_v1 (F := Ideal) ei (ix1 e) = srcW ei e := by
  rw [val_main_v1_apply, val_main_v0_apply]
  unfold srcW
  refine congrArg ei (funext fun a => Fin.ext ?_)
  match a with
  | ⟨0, _⟩ => rfl
  | ⟨1, _⟩ => exact Nat.mod_eq_of_lt e.isLt

theorem dst_word (e : Fin 3200000) : val_main_v3 (F := Ideal) ei (ix1 e) = dstW ei e := by
  rw [val_main_v3_apply, val_main_v2_apply]
  unfold dstW
  refine congrArg ei (funext fun a => Fin.ext ?_)
  match a with
  | ⟨0, _⟩ => rfl
  | ⟨1, _⟩ => exact Nat.mod_eq_of_lt e.isLt

theorem wrap_col1 (e : Fin 3200000) : val_main_v9 (F := Ideal) ei (ix2 e (0 : Fin 1)) = wrapW (srcW ei e) := by
  rw [val_main_v9_apply, val_main_v8_apply, val_main_v5_apply, val_main_v7_apply, val_main_v4_apply,
    val_main_v6_apply, val_main_c_apply, val_main_c_0_apply,
    show idx_main_v9 (ix2 e (0 : Fin 1)) = ix1 e from funext fun a => by match a with | ⟨0, _⟩ => rfl,
    src_word]
  rfl

theorem wrap_col2 (e : Fin 3200000) : val_main_v35 (F := Ideal) ei (ix2 e (0 : Fin 1)) = wrapW (srcW ei e) := by
  rw [val_main_v35_apply, val_main_v34_apply, val_main_v31_apply, val_main_v33_apply, val_main_v30_apply,
    val_main_v32_apply, val_main_c_4_apply, val_main_c_5_apply,
    show idx_main_v35 (ix2 e (0 : Fin 1)) = ix1 e from funext fun a => by match a with | ⟨0, _⟩ => rfl,
    src_word]
  rfl

theorem wrap_col3 (e : Fin 3200000) : val_main_v61 (F := Ideal) ei (ix2 e (0 : Fin 1)) = wrapW (srcW ei e) := by
  rw [val_main_v61_apply, val_main_v60_apply, val_main_v57_apply, val_main_v59_apply, val_main_v56_apply,
    val_main_v58_apply, val_main_c_10_apply, val_main_c_11_apply,
    show idx_main_v61 (ix2 e (0 : Fin 1)) = ix1 e from funext fun a => by match a with | ⟨0, _⟩ => rfl,
    src_word]
  rfl

theorem dst_col12 (e : Fin 3200000) : val_main_v12 (F := Ideal) ei (ix2 e (0 : Fin 1)) = dstW ei e := by
  rw [val_main_v12_apply,
    show idx_main_v12 (ix2 e (0 : Fin 1)) = ix1 e from funext fun a => by match a with | ⟨0, _⟩ => rfl,
    dst_word]
theorem dst_col16 (e : Fin 3200000) : val_main_v16 (F := Ideal) ei (ix2 e (0 : Fin 1)) = dstW ei e := by
  rw [val_main_v16_apply,
    show idx_main_v16 (ix2 e (0 : Fin 1)) = ix1 e from funext fun a => by match a with | ⟨0, _⟩ => rfl,
    dst_word]
theorem dst_col38 (e : Fin 3200000) : val_main_v38 (F := Ideal) ei (ix2 e (0 : Fin 1)) = dstW ei e := by
  rw [val_main_v38_apply,
    show idx_main_v38 (ix2 e (0 : Fin 1)) = ix1 e from funext fun a => by match a with | ⟨0, _⟩ => rfl,
    dst_word]
theorem dst_col42 (e : Fin 3200000) : val_main_v42 (F := Ideal) ei (ix2 e (0 : Fin 1)) = dstW ei e := by
  rw [val_main_v42_apply,
    show idx_main_v42 (ix2 e (0 : Fin 1)) = ix1 e from funext fun a => by match a with | ⟨0, _⟩ => rfl,
    dst_word]
theorem dst_col64 (e : Fin 3200000) : val_main_v64 (F := Ideal) ei (ix2 e (0 : Fin 1)) = dstW ei e := by
  rw [val_main_v64_apply,
    show idx_main_v64 (ix2 e (0 : Fin 1)) = ix1 e from funext fun a => by match a with | ⟨0, _⟩ => rfl,
    dst_word]
theorem dst_col68 (e : Fin 3200000) : val_main_v68 (F := Ideal) ei (ix2 e (0 : Fin 1)) = dstW ei e := by
  rw [val_main_v68_apply,
    show idx_main_v68 (ix2 e (0 : Fin 1)) = ix1 e from funext fun a => by match a with | ⟨0, _⟩ => rfl,
    dst_word]

end Words

section Reads

variable {K : Nat} (ei : (⟨S2x3200000, .i32⟩ : BufTy).Contents (Elt Ideal))

theorem agg_read (gd : GatherDims ⟨2, ![100000, K]⟩ ⟨2, ![3200000, 1]⟩ ⟨2, ![3200000, K]⟩)
    (hoff : gd.offsetDims = [1]) (hcoll : gd.collapsedSliceDims = [0]) (hob : gd.operandBatchingDims = [])
    (hsb : gd.startIndicesBatchingDims = []) (hsim : gd.startIndexMap = [0]) (hivd : gd.indexVectorDim = 1)
    (hss : gd.sliceSizes = ![1, K])
    (sd : ScatterDims ⟨2, ![100000, K]⟩ ⟨2, ![3200000, 1]⟩ ⟨2, ![3200000, K]⟩)
    (huw : sd.updateWindowDims = [1]) (hiw : sd.insertedWindowDims = [0])
    (hsd : sd.scatterDimsToOperandDims = [0]) (hsv : sd.indexVectorDim = 1)
    (V z : FVec Ideal ⟨2, ![100000, K]⟩ .f32) (hz : ∀ i, z i = 0)
    (scol dcol : IVec ⟨2, ![3200000, 1]⟩ 32)
    (hs : ∀ e : Fin 3200000, scol (ix2 e (0 : Fin 1)) = wrapW (srcW ei e))
    (hd : ∀ e : Fin 3200000, dcol (ix2 e (0 : Fin 1)) = dstW ei e) (n : Fin 100000) (k : Fin K) :
    Host.scatterAdd sd z dcol (Host.gather gd V scol) (ix2 n k) = agg (hit ei) (grow ei) (cur2 V) n k := by
  rw [scatterAdd_rows_apply sd huw hiw hsd hsv, hz, zero_add]
  unfold agg
  refine Finset.sum_congr rfl fun e _ => ?_
  rw [hd, gather_rows_apply gd hoff hcoll hob hsb hsim hivd hss V scol e k (by decide)]
  refine if_congr Iff.rfl (congrArg V (congrArg (fun r => ix2 r k) (Fin.ext ?_))) rfl
  show min (scol (ix2 e (0 : Fin 1))).toInt.toNat (100000 - 1) = min (wrapW (srcW ei e)).toInt.toNat (NN - 1)
  rw [hs]

theorem cnt_read (sd : ScatterDims ⟨1, ![100000]⟩ ⟨2, ![3200000, 1]⟩ ⟨1, ![3200000]⟩)
    (huw : sd.updateWindowDims = []) (hiw : sd.insertedWindowDims = [0])
    (hsd : sd.scatterDimsToOperandDims = [0]) (hsv : sd.indexVectorDim = 1)
    (z : FVec Ideal ⟨1, ![100000]⟩ .f32) (hz : ∀ i, z i = 0)
    (o : FVec Ideal ⟨1, ![3200000]⟩ .f32) (ho : ∀ i, o i = 1)
    (dcol : IVec ⟨2, ![3200000, 1]⟩ 32) (hd : ∀ e : Fin 3200000, dcol (ix2 e (0 : Fin 1)) = dstW ei e)
    (n : Fin 100000) :
    Host.scatterAdd sd z dcol o (ix1 n) = cnt (hit ei) n := by
  rw [scatterAdd_vec_apply sd huw hiw hsd hsv, hz, zero_add]
  unfold cnt
  refine Finset.sum_congr rfl fun e _ => ?_
  rw [hd, ho]
  exact if_congr Iff.rfl rfl rfl

end Reads

section Layers

variable (x : (⟨S100000x64, .f32⟩ : BufTy).Contents (Elt Ideal))
  (ei : (⟨S2x3200000, .i32⟩ : BufTy).Contents (Elt Ideal))
  (W1l : (⟨S64x16, .f32⟩ : BufTy).Contents (Elt Ideal)) (b1 : (⟨S16, .f32⟩ : BufTy).Contents (Elt Ideal))
  (W1r : (⟨S64x16, .f32⟩ : BufTy).Contents (Elt Ideal))
  (W2l : (⟨S16x32, .f32⟩ : BufTy).Contents (Elt Ideal)) (b2 : (⟨S32, .f32⟩ : BufTy).Contents (Elt Ideal))
  (W2r : (⟨S16x32, .f32⟩ : BufTy).Contents (Elt Ideal))
  (W3l : (⟨S32x21, .f32⟩ : BufTy).Contents (Elt Ideal)) (b3 : (⟨S21, .f32⟩ : BufTy).Contents (Elt Ideal))
  (W3r : (⟨S32x21, .f32⟩ : BufTy).Contents (Elt Ideal))

theorem agg1 (n : Fin 100000) (k : Fin 64) :
    val_main_v13 (F := Ideal) x ei (ix2 n k) = agg (hit ei) (grow ei) (cur2 x) n k := by
  unfold val_main_v13 val_main_v10
  exact agg_read ei gather_S100000x64_S3200000x1_S3200000x64_1_0_n_n_0_1_164 rfl rfl rfl rfl rfl rfl rfl
    scatter_S100000x64_S3200000x1_S3200000x64_1_0_0_1 rfl rfl rfl rfl x _
    (fun i => by rw [val_main_v11_apply]; exact Ideal.ofBits_zero_f32) _ _ (wrap_col1 ei) (dst_col12 ei) n k

theorem cnt1 (n : Fin 100000) : val_main_v17 (F := Ideal) ei (ix1 n) = cnt (hit ei) n := by
  unfold val_main_v17
  exact cnt_read ei scatter_S100000_S3200000x1_S3200000_n_0_0_1 rfl rfl rfl rfl _
    (fun i => by rw [val_main_v15_apply]; exact Ideal.ofBits_zero_f32) _
    (fun i => by rw [val_main_v14_apply]; exact Ideal.ofBits_one_f32) _ (dst_col16 ei) n

theorem div1 (n : Fin 100000) (k : Fin 64) : val_main_v21 (F := Ideal) ei (ix2 n k) = cmax (hit ei) n := by
  rw [val_main_v21_apply, val_main_v20_apply,
    show idx_main_v20 (idx_main_v21 (ix2 n k)) = ix1 n from funext fun a => by match a with | ⟨0, _⟩ => rfl,
    val_main_v19_apply, cnt1,
    show val_main_v18 (F := Ideal) (ix1 n) = 1 by rw [val_main_v18_apply]; exact Ideal.ofBits_one_f32]
  rfl

theorem layer1 (n : Fin 100000) (j : Fin 16) :
    val_main_v28 (F := Ideal) x ei W1l b1 W1r (ix2 n j)
      = sageRef (hit ei) (grow ei) (cur2 x) (cur2 W1l) (cur2 W1r) (cur1 b1) n j := by
  rw [val_main_v28_apply, val_main_v26_apply, val_main_v23_apply, val_main_v27_apply, val_main_v25_apply,
    val_main_v24_apply]
  unfold sageRef mm
  refine congrArg₂ (· + ·) (congrArg₂ (· + ·) (Finset.sum_congr rfl fun k _ => ?_) ?_)
    (Finset.sum_congr rfl fun k _ => ?_)
  · rw [show lidx_main_v23 (ix2 n j) k = ix2 n k from funext fun a => by
      match a with | ⟨0, _⟩ => rfl | ⟨1, _⟩ => rfl, val_main_v22_apply, agg1, div1]
    exact congrArg _ (congrArg W1l (funext fun a => by match a with | ⟨0, _⟩ => rfl | ⟨1, _⟩ => rfl))
  · exact congrArg b1 (funext fun a => by match a with | ⟨0, _⟩ => rfl)
  · exact congrArg₂ (· * ·)
      (congrArg x (funext fun a => by match a with | ⟨0, _⟩ => rfl | ⟨1, _⟩ => rfl))
      (congrArg W1r (funext fun a => by match a with | ⟨0, _⟩ => rfl | ⟨1, _⟩ => rfl))

theorem hid1 (n : Fin 100000) (j : Fin 16) :
    val_main_v29 (F := Ideal) x ei W1l b1 W1r (ix2 n j)
      = relu (sageRef (hit ei) (grow ei) (cur2 x) (cur2 W1l) (cur2 W1r) (cur1 b1)) n j := by
  rw [val_main_v29_apply, layer1,
    show val_main_call0_v0 (F := Ideal) (ix2 n j) = 0 by
      rw [val_main_call0_v0_apply]; exact Ideal.ofBits_zero_f32]
  rfl

theorem agg2 (n : Fin 100000) (k : Fin 16) :
    val_main_v39 (F := Ideal) x ei W1l b1 W1r (ix2 n k)
      = agg (hit ei) (grow ei) (cur2 (val_main_v29 (F := Ideal) x ei W1l b1 W1r)) n k := by
  unfold val_main_v39 val_main_v36
  exact agg_read ei gather_S100000x16_S3200000x1_S3200000x16_1_0_n_n_0_1_116 rfl rfl rfl rfl rfl rfl rfl
    scatter_S100000x16_S3200000x1_S3200000x16_1_0_0_1 rfl rfl rfl rfl _ _
    (fun i => by rw [val_main_v37_apply]; exact Ideal.ofBits_zero_f32) _ _ (wrap_col2 ei) (dst_col38 ei) n k

theorem cnt2 (n : Fin 100000) : val_main_v43 (F := Ideal) ei (ix1 n) = cnt (hit ei) n := by
  unfold val_main_v43
  exact cnt_read ei scatter_S100000_S3200000x1_S3200000_n_0_0_1 rfl rfl rfl rfl _
    (fun i => by rw [val_main_v41_apply]; exact Ideal.ofBits_zero_f32) _
    (fun i => by rw [val_main_v40_apply]; exact Ideal.ofBits_one_f32) _ (dst_col42 ei) n

theorem div2 (n : Fin 100000) (k : Fin 16) : val_main_v47 (F := Ideal) ei (ix2 n k) = cmax (hit ei) n := by
  rw [val_main_v47_apply, val_main_v46_apply,
    show idx_main_v46 (idx_main_v47 (ix2 n k)) = ix1 n from funext fun a => by match a with | ⟨0, _⟩ => rfl,
    val_main_v45_apply, cnt2,
    show val_main_v44 (F := Ideal) (ix1 n) = 1 by rw [val_main_v44_apply]; exact Ideal.ofBits_one_f32]
  rfl

theorem layer2 (n : Fin 100000) (j : Fin 32) :
    val_main_v54 (F := Ideal) x ei W1l b1 W1r W2l b2 W2r (ix2 n j)
      = sageRef (hit ei) (grow ei) (cur2 (val_main_v29 (F := Ideal) x ei W1l b1 W1r))
          (cur2 W2l) (cur2 W2r) (cur1 b2) n j := by
  rw [val_main_v54_apply, val_main_v52_apply, val_main_v49_apply, val_main_v53_apply, val_main_v51_apply,
    val_main_v50_apply]
  unfold sageRef mm
  refine congrArg₂ (· + ·) (congrArg₂ (· + ·) (Finset.sum_congr rfl fun k _ => ?_) ?_)
    (Finset.sum_congr rfl fun k _ => ?_)
  · rw [show lidx_main_v49 (ix2 n j) k = ix2 n k from funext fun a => by
      match a with | ⟨0, _⟩ => rfl | ⟨1, _⟩ => rfl, val_main_v48_apply, agg2, div2]
    exact congrArg _ (congrArg W2l (funext fun a => by match a with | ⟨0, _⟩ => rfl | ⟨1, _⟩ => rfl))
  · exact congrArg b2 (funext fun a => by match a with | ⟨0, _⟩ => rfl)
  · exact congrArg₂ (· * ·)
      (congrArg (val_main_v29 (F := Ideal) x ei W1l b1 W1r)
        (funext fun a => by match a with | ⟨0, _⟩ => rfl | ⟨1, _⟩ => rfl))
      (congrArg W2r (funext fun a => by match a with | ⟨0, _⟩ => rfl | ⟨1, _⟩ => rfl))

theorem hid2 (n : Fin 100000) (j : Fin 32) :
    val_main_v55 (F := Ideal) x ei W1l b1 W1r W2l b2 W2r (ix2 n j)
      = relu (cur2 (val_main_v54 (F := Ideal) x ei W1l b1 W1r W2l b2 W2r)) n j := by
  rw [val_main_v55_apply,
    show val_main_call1_v0 (F := Ideal) (ix2 n j) = 0 by
      rw [val_main_call1_v0_apply]; exact Ideal.ofBits_zero_f32]
  rfl

theorem agg3 (n : Fin 100000) (k : Fin 32) :
    val_main_v65 (F := Ideal) x ei W1l b1 W1r W2l b2 W2r (ix2 n k)
      = agg (hit ei) (grow ei) (cur2 (val_main_v55 (F := Ideal) x ei W1l b1 W1r W2l b2 W2r)) n k := by
  unfold val_main_v65 val_main_v62
  exact agg_read ei gather_S100000x32_S3200000x1_S3200000x32_1_0_n_n_0_1_132 rfl rfl rfl rfl rfl rfl rfl
    scatter_S100000x32_S3200000x1_S3200000x32_1_0_0_1 rfl rfl rfl rfl _ _
    (fun i => by rw [val_main_v63_apply]; exact Ideal.ofBits_zero_f32) _ _ (wrap_col3 ei) (dst_col64 ei) n k

theorem cnt3 (n : Fin 100000) : val_main_v69 (F := Ideal) ei (ix1 n) = cnt (hit ei) n := by
  unfold val_main_v69
  exact cnt_read ei scatter_S100000_S3200000x1_S3200000_n_0_0_1 rfl rfl rfl rfl _
    (fun i => by rw [val_main_v67_apply]; exact Ideal.ofBits_zero_f32) _
    (fun i => by rw [val_main_v66_apply]; exact Ideal.ofBits_one_f32) _ (dst_col68 ei) n

theorem div3 (n : Fin 100000) (k : Fin 32) : val_main_v73 (F := Ideal) ei (ix2 n k) = cmax (hit ei) n := by
  rw [val_main_v73_apply, val_main_v72_apply,
    show idx_main_v72 (idx_main_v73 (ix2 n k)) = ix1 n from funext fun a => by match a with | ⟨0, _⟩ => rfl,
    val_main_v71_apply, cnt3,
    show val_main_v70 (F := Ideal) (ix1 n) = 1 by rw [val_main_v70_apply]; exact Ideal.ofBits_one_f32]
  rfl

theorem layer3 (n : Fin 100000) (j : Fin 21) :
    val_main_v80 (F := Ideal) x ei W1l b1 W1r W2l b2 W2r W3l b3 W3r (ix2 n j)
      = sageRef (hit ei) (grow ei) (cur2 (val_main_v55 (F := Ideal) x ei W1l b1 W1r W2l b2 W2r))
          (cur2 W3l) (cur2 W3r) (cur1 b3) n j := by
  rw [val_main_v80_apply, val_main_v78_apply, val_main_v75_apply, val_main_v79_apply, val_main_v77_apply,
    val_main_v76_apply]
  unfold sageRef mm
  refine congrArg₂ (· + ·) (congrArg₂ (· + ·) (Finset.sum_congr rfl fun k _ => ?_) ?_)
    (Finset.sum_congr rfl fun k _ => ?_)
  · rw [show lidx_main_v75 (ix2 n j) k = ix2 n k from funext fun a => by
      match a with | ⟨0, _⟩ => rfl | ⟨1, _⟩ => rfl, val_main_v74_apply, agg3, div3]
    exact congrArg _ (congrArg W3l (funext fun a => by match a with | ⟨0, _⟩ => rfl | ⟨1, _⟩ => rfl))
  · exact congrArg b3 (funext fun a => by match a with | ⟨0, _⟩ => rfl)
  · exact congrArg₂ (· * ·)
      (congrArg (val_main_v55 (F := Ideal) x ei W1l b1 W1r W2l b2 W2r)
        (funext fun a => by match a with | ⟨0, _⟩ => rfl | ⟨1, _⟩ => rfl))
      (congrArg W3r (funext fun a => by match a with | ⟨0, _⟩ => rfl | ⟨1, _⟩ => rfl))

end Layers

section Results

variable (x : (⟨S100000x64, .f32⟩ : BufTy).Contents (Elt Ideal))
  (ei : (⟨S2x3200000, .i32⟩ : BufTy).Contents (Elt Ideal))
  (batch : (⟨S100000, .i32⟩ : BufTy).Contents (Elt Ideal))
  (W1l : (⟨S64x16, .f32⟩ : BufTy).Contents (Elt Ideal)) (b1 : (⟨S16, .f32⟩ : BufTy).Contents (Elt Ideal))
  (W1r : (⟨S64x16, .f32⟩ : BufTy).Contents (Elt Ideal))
  (W2l : (⟨S16x32, .f32⟩ : BufTy).Contents (Elt Ideal)) (b2 : (⟨S32, .f32⟩ : BufTy).Contents (Elt Ideal))
  (W2r : (⟨S16x32, .f32⟩ : BufTy).Contents (Elt Ideal))
  (W3l : (⟨S32x21, .f32⟩ : BufTy).Contents (Elt Ideal)) (b3 : (⟨S21, .f32⟩ : BufTy).Contents (Elt Ideal))
  (W3r : (⟨S32x21, .f32⟩ : BufTy).Contents (Elt Ideal))
  (Wc : (⟨S32x10, .f32⟩ : BufTy).Contents (Elt Ideal)) (bc : (⟨S10, .f32⟩ : BufTy).Contents (Elt Ideal))

theorem hid1_fun :
    cur2 (val_main_v29 (F := Ideal) x ei W1l b1 W1r)
      = relu (sageRef (hit ei) (grow ei) (cur2 x) (cur2 W1l) (cur2 W1r) (cur1 b1)) :=
  funext fun n => funext fun j => hid1 x ei W1l b1 W1r n j

theorem pre2_fun :
    cur2 (val_main_v54 (F := Ideal) x ei W1l b1 W1r W2l b2 W2r)
      = sageRef (hit ei) (grow ei)
          (relu (sageRef (hit ei) (grow ei) (cur2 x) (cur2 W1l) (cur2 W1r) (cur1 b1)))
          (cur2 W2l) (cur2 W2r) (cur1 b2) := by
  funext n j
  rw [cur2_apply, layer2, hid1_fun]

theorem hid2_fun :
    cur2 (val_main_v55 (F := Ideal) x ei W1l b1 W1r W2l b2 W2r)
      = relu (sageRef (hit ei) (grow ei)
          (relu (sageRef (hit ei) (grow ei) (cur2 x) (cur2 W1l) (cur2 W1r) (cur1 b1)))
          (cur2 W2l) (cur2 W2r) (cur1 b2)) := by
  funext n j
  rw [cur2_apply, hid2, pre2_fun]

theorem ref_color (n : Fin 100000) (j : Fin 21) :
    val_main_v80 (F := Ideal) x ei W1l b1 W1r W2l b2 W2r W3l b3 W3r (ix2 n j)
      = sageRef (hit ei) (grow ei)
          (relu (sageRef (hit ei) (grow ei)
            (relu (sageRef (hit ei) (grow ei) (cur2 x) (cur2 W1l) (cur2 W1r) (cur1 b1)))
            (cur2 W2l) (cur2 W2r) (cur1 b2)))
          (cur2 W3l) (cur2 W3r) (cur1 b3) n j := by
  rw [layer3, hid2_fun]

theorem ref_color_fun :
    val_main_v80 (F := Ideal) x ei W1l b1 W1r W2l b2 W2r W3l b3 W3r
      = fun y => sageRef (hit ei) (grow ei)
          (relu (sageRef (hit ei) (grow ei)
            (relu (sageRef (hit ei) (grow ei) (cur2 x) (cur2 W1l) (cur2 W1r) (cur1 b1)))
            (cur2 W2l) (cur2 W2r) (cur1 b2)))
          (cur2 W3l) (cur2 W3r) (cur1 b3) (y 0) (y 1) := by
  funext y
  obtain ⟨p, q, rfl⟩ : ∃ (p : Fin 100000) (q : Fin 21), y = ix2 p q := ⟨y 0, y 1, eq_ix2 y⟩
  exact ref_color x ei W1l b1 W1r W2l b2 W2r W3l b3 W3r p q

theorem batch_col82 (r : Fin 100000) : val_main_v82 (F := Ideal) batch (ix2 r (0 : Fin 1)) = batch (ix1 r) := by
  rw [val_main_v82_apply]
  exact congrArg batch (funext fun a => by match a with | ⟨0, _⟩ => rfl)
theorem batch_col86 (r : Fin 100000) : val_main_v86 (F := Ideal) batch (ix2 r (0 : Fin 1)) = batch (ix1 r) := by
  rw [val_main_v86_apply]
  exact congrArg batch (funext fun a => by match a with | ⟨0, _⟩ => rfl)

theorem gsum (c : Fin 64) (f : Fin 32) :
    val_main_v83 (F := Ideal) x ei batch W1l b1 W1r W2l b2 W2r (ix2 c f)
      = ∑ r : Fin 100000, if inG batch r c
          then cur2 (val_main_v54 (F := Ideal) x ei W1l b1 W1r W2l b2 W2r) r f else 0 := by
  unfold val_main_v83
  rw [scatterAdd_rows_apply scatter_S64x32_S100000x1_S100000x32_1_0_0_1 rfl rfl rfl rfl,
    show val_main_v81 (F := Ideal) (ix2 c f) = 0 by rw [val_main_v81_apply]; exact Ideal.ofBits_zero_f32,
    zero_add]
  refine Finset.sum_congr rfl fun r _ => ?_
  rw [batch_col82]
  exact if_congr Iff.rfl rfl rfl

theorem gcnt (c : Fin 64) :
    val_main_v87 (F := Ideal) batch (ix1 c) = ∑ r : Fin 100000, if inG batch r c then (1 : EReal) else 0 := by
  unfold val_main_v87
  rw [scatterAdd_vec_apply scatter_S64_S100000x1_S100000_n_0_0_1 rfl rfl rfl rfl,
    show val_main_v85 (F := Ideal) (ix1 c) = 0 by rw [val_main_v85_apply]; exact Ideal.ofBits_zero_f32,
    zero_add]
  refine Finset.sum_congr rfl fun r _ => ?_
  rw [batch_col86,
    show val_main_v84 (F := Ideal) (ix1 r) = 1 by rw [val_main_v84_apply]; exact Ideal.ofBits_one_f32]
  exact if_congr Iff.rfl rfl rfl

theorem gdiv (c : Fin 64) (f : Fin 32) : val_main_v91 (F := Ideal) batch (ix2 c f) = gmax (inG batch) c := by
  rw [val_main_v91_apply, val_main_v90_apply,
    show idx_main_v90 (idx_main_v91 (ix2 c f)) = ix1 c from funext fun a => by match a with | ⟨0, _⟩ => rfl,
    val_main_v89_apply, gcnt,
    show val_main_v88 (F := Ideal) (ix1 c) = 1 by rw [val_main_v88_apply]; exact Ideal.ofBits_one_f32]
  rfl

theorem pool (c : Fin 64) (j : Fin 10) :
    val_main_v96 (F := Ideal) x ei batch W1l b1 W1r W2l b2 W2r Wc bc (ix2 c j)
      = poolRef (inG batch) (cur2 (val_main_v54 (F := Ideal) x ei W1l b1 W1r W2l b2 W2r))
          (cur2 Wc) (cur1 bc) c j := by
  rw [val_main_v96_apply, val_main_v93_apply, val_main_v95_apply, val_main_v94_apply]
  unfold poolRef mm
  refine congrArg₂ (· + ·) (Finset.sum_congr rfl fun k _ => ?_) ?_
  · rw [show lidx_main_v93 (ix2 c j) k = ix2 c k from funext fun a => by
      match a with | ⟨0, _⟩ => rfl | ⟨1, _⟩ => rfl, val_main_v92_apply, gsum, gdiv]
    exact congrArg _ (congrArg Wc (funext fun a => by match a with | ⟨0, _⟩ => rfl | ⟨1, _⟩ => rfl))
  · exact congrArg bc (funext fun a => by match a with | ⟨0, _⟩ => rfl)

theorem ref_classif (c : Fin 64) (j : Fin 10) :
    val_main_v96 (F := Ideal) x ei batch W1l b1 W1r W2l b2 W2r Wc bc (ix2 c j)
      = poolRef (inG batch)
          (sageRef (hit ei) (grow ei)
            (relu (sageRef (hit ei) (grow ei) (cur2 x) (cur2 W1l) (cur2 W1r) (cur1 b1)))
            (cur2 W2l) (cur2 W2r) (cur1 b2))
          (cur2 Wc) (cur1 bc) c j := by
  rw [pool, pre2_fun]

theorem ref_classif_fun :
    val_main_v96 (F := Ideal) x ei batch W1l b1 W1r W2l b2 W2r Wc bc
      = fun y => poolRef (inG batch)
          (sageRef (hit ei) (grow ei)
            (relu (sageRef (hit ei) (grow ei) (cur2 x) (cur2 W1l) (cur2 W1r) (cur1 b1)))
            (cur2 W2l) (cur2 W2r) (cur1 b2))
          (cur2 Wc) (cur1 bc) (y 0) (y 1) := by
  funext y
  obtain ⟨p, q, rfl⟩ : ∃ (p : Fin 64) (q : Fin 10), y = ix2 p q := ⟨y 0, y 1, eq_ix2 y⟩
  exact ref_classif x ei batch W1l b1 W1r W2l b2 W2r Wc bc p q

end Results

end Cert.ReferenceIdeal.RefSide

end
-- ==== Proof.LibRowOps.lean ====
import Idealize.ShloMosaic.Lib.ValueIdx
import Idealize.ShloMosaic.Lib.ValueLayout
import Idealize.ShloMosaic.Lib.Pipeline.Value
import Idealize.ShloMosaic.PureOps.Ideal.Laws

/-! Rows and columns spread over a matrix, read at an index. -/

noncomputable section

open scoped BigOperators

namespace Cert.LibRowOps

open Idealize.ShloMosaic Idealize.ShloMosaic.ValueIdx

variable {R C : Nat} {α : Type} {φ : FTy}

theorem lift_row (h : (⟨2, ![R, C]⟩ : Shape).Reduces [1] ⟨1, ![R]⟩) (p : Fin R) (k : Fin C) :
    h.lift (ix1 p) k = ix2 p k := by
  funext a
  match a with
  | ⟨0, _⟩ => exact Fin.ext rfl
  | ⟨1, _⟩ => exact Fin.ext rfl

theorem hostReduceAdd_row {u : Shape} (x : FVec Ideal ⟨2, ![R, C]⟩ φ) (init : u.Idx → Ideal φ)
    (h' : (⟨2, ![R, C]⟩ : Shape).ReducesTo [1] ⟨1, ![R]⟩) (hu : 0 < u.numel)
    (h : (⟨2, ![R, C]⟩ : Shape).Reduces [1] ⟨1, ![R]⟩) (b : Fin R) :
    Host.reduceAdd x init h' hu (ix1 b) = init (Shape.Idx.first hu) + ∑ k : Fin C, x (ix2 b k) := by
  unfold Host.reduceAdd
  rw [Ideal.hostReduceAdd_def, Ideal.hostReduceAdd_single h' h]
  exact congrArg (init (Shape.Idx.first hu) + ·) (Finset.sum_congr rfl fun k _ => congrArg x (lift_row h b k))

theorem shapeCast_col (u : (⟨1, ![R]⟩ : Shape).Idx → α) (h : (⟨1, ![R]⟩ : Shape).ShapeCasts ⟨2, ![R, 1]⟩) (p : Fin R) (z : Fin 1) :
    shapeCast ⟨2, ![R, 1]⟩ u h (ix2 p z) = u (ix1 p) :=
  shapeCast_apply u h _ _ (by
    have hz : z.val = 0 := by omega
    rw [Shape.rowMajor_val_two, Shape.rowMajor_val_one]
    show p.val = p.val * 1 + z.val
    rw [hz, Nat.mul_one, Nat.add_zero])

theorem broadcastInDim_col (u : (⟨1, ![R]⟩ : Shape).Idx → α) (h : (⟨1, ![R]⟩ : Shape).BroadcastsInDim ⟨2, ![R, 1]⟩ ![0])
    (b : Fin R) (z : Fin 1) : broadcastInDim ⟨2, ![R, 1]⟩ ![0] h u (ix2 b z) = u (ix1 b) := by
  refine broadcastInDim_apply _ h u (ix2 b z) (ix1 b) fun a => ?_
  match a with
  | ⟨0, _⟩ =>
    show b.val = if R = 1 then 0 else b.val
    split
    · have := b.isLt; omega
    · rfl

theorem broadcastTo_col (w : (⟨2, ![R, 1]⟩ : Shape).Idx → α) (h : (⟨2, ![R, 1]⟩ : Shape).Broadcasts ⟨2, ![R, C]⟩)
    (p : Fin R) (q : Fin C) : broadcastTo ⟨2, ![R, C]⟩ w h (ix2 p q) = w (ix2 p (0 : Fin 1)) := by
  refine broadcastTo_apply w h (ix2 p q) (ix2 p (0 : Fin 1)) fun ax => ?_
  match ax with
  | ⟨0, _⟩ =>
    show p.val = if R = 1 then 0 else p.val
    split
    · have := p.isLt; omega
    · rfl
  | ⟨1, _⟩ => rfl

theorem broadcastInDim_scalar {t : Shape} (x : (⟨0, ![]⟩ : Shape).Idx → α) (dims : Fin 0 → Fin t.rank)
    (h : (⟨0, ![]⟩ : Shape).BroadcastsInDim t dims) (j : t.Idx) :
    broadcastInDim t dims h x j = x ix0 :=
  broadcastInDim_apply dims h x j ix0 fun a => a.elim0

end Cert.LibRowOps

end
-- ==== Proof.KI.Host.lean ====
import proofs.«418024_j36704790511896_3_alg».proof.Proof.Gen.KernelIdeal.Regions
import proofs.«418024_j36704790511896_3_alg».proof.Proof.RefSide
import proofs.«418024_j36704790511896_3_alg».proof.Proof.LibRowOps
import proofs.«418024_j36704790511896_3_alg».proof.Proof.LibScatterGather
import Idealize.ShloMosaic.Lib.StableHlo.Run
import Idealize.ShloMosaic.Lib.IdealHost

/-! What each stretch of host operations computes, entry by entry, from any contents it starts at. -/

noncomputable section

namespace Cert.KernelIdeal.Val

open Cert.KernelIdeal Cert.KernelIdeal.Gen
open Idealize.ShloMosaic Idealize.ShloMosaic.TcCoe Idealize.ShloMosaic.ValueIdx Idealize.ShloMosaic.StableHlo
open Cert.Graph Cert.Spec Cert.ReferenceIdeal.RefSide

theorem shapeCast_row {C : Nat} {α : Type} (u : (⟨1, ![C]⟩ : Shape).Idx → α) (h : (⟨1, ![C]⟩ : Shape).ShapeCasts ⟨2, ![1, C]⟩)
    (z : Fin 1) (q : Fin C) : shapeCast ⟨2, ![1, C]⟩ u h (ix2 z q) = u (ix1 q) :=
  shapeCast_apply u h _ _ (by
    have hz : z.val = 0 := by omega
    rw [Shape.rowMajor_val_two, Shape.rowMajor_val_one]
    show q.val = z.val * C + q.val
    rw [hz, Nat.zero_mul, Nat.zero_add])

variable (W : Valuation τ sig (Elt Ideal))

abbrev eiOf : (⟨S2x3200000, .i32⟩ : BufTy).Contents (Elt Ideal) := W (Proc.devRef .tc main_arg1)

abbrev batchOf : (⟨S100000, .i32⟩ : BufTy).Contents (Elt Ideal) := W (Proc.devRef .tc main_arg2)

set_option maxHeartbeats 1000000 in
theorem h0_v1 (e : Fin 3200000) :
    (StableHlo.after (hostOps0 (F := Ideal)) W (Proc.devRef .tc main_v1) : (⟨S3200000, .i32⟩ : BufTy).Contents (Elt Ideal)) (ix1 e) = srcW (eiOf W) e := by
  after_results
  exact src_word (eiOf W) e

set_option maxHeartbeats 1000000 in
theorem h0_v3 (e : Fin 3200000) :
    (StableHlo.after (hostOps0 (F := Ideal)) W (Proc.devRef .tc main_v3) : (⟨S3200000, .i32⟩ : BufTy).Contents (Elt Ideal)) (ix1 e) = dstW (eiOf W) e := by
  after_results
  exact dst_word (eiOf W) e

set_option maxHeartbeats 2000000 in
theorem h0_v12 (n : Fin 100000) :
    (StableHlo.after (hostOps0 (F := Ideal)) W (Proc.devRef .tc main_v12) : (⟨S100000x1, .f32⟩ : BufTy).Contents (Elt Ideal)) (ix2 n (0 : Fin 1))
      = Ideal.div 1 (cmax (hit (eiOf W)) n) := by
  after_results
  show shapeCast S100000x1 _ shapeCasts_S100000_S100000x1 (ix2 n (0 : Fin 1)) = _
  rw [Cert.LibRowOps.shapeCast_col, hostDivf_apply, maximumf_apply, Cert.LibRowOps.broadcastInDim_scalar, constant_apply,
    Ideal.ofBits_one_f32]
  unfold cmax
  refine congrArg (Ideal.div 1) (congrArg (fun t => max t 1) ?_)
  refine cnt_read (eiOf W) scatter_S100000_S3200000x1_S3200000_n_0_0_1 rfl rfl rfl rfl _ (fun i => ?_) _ (fun i => ?_) _
    (fun e => ?_) n
  · rw [Cert.LibRowOps.broadcastInDim_scalar, constant_apply]; exact Ideal.ofBits_zero_f32
  · rw [Cert.LibRowOps.broadcastInDim_scalar, constant_apply]; exact Ideal.ofBits_one_f32
  · rw [Cert.LibRowOps.broadcastInDim_col]; exact dst_word (eiOf W) e

set_option maxHeartbeats 2000000 in
theorem h1_v23 (ei : (⟨S2x3200000, .i32⟩ : BufTy).Contents (Elt Ideal))
    (hs : ∀ e : Fin 3200000, (W (Proc.devRef .tc main_v1) : (⟨S3200000, .i32⟩ : BufTy).Contents (Elt Ideal)) (ix1 e) = srcW ei e)
    (hd : ∀ e : Fin 3200000, (W (Proc.devRef .tc main_v3) : (⟨S3200000, .i32⟩ : BufTy).Contents (Elt Ideal)) (ix1 e) = dstW ei e)
    (n : Fin 100000) (j : Fin 16) :
    (StableHlo.after (hostOps1 (F := Ideal)) W (Proc.devRef .tc main_v23) : (⟨S100000x16, .f32⟩ : BufTy).Contents (Elt Ideal)) (ix2 n j)
      = agg (hit ei) (grow ei) (cur2 (W (Proc.devRef .tc main_v13) : (⟨S100000x16, .f32⟩ : BufTy).Contents (Elt Ideal))) n j := by
  after_results
  refine agg_read ei gather_S100000x16_S3200000x1_S3200000x16_1_0_n_n_0_1_116 rfl rfl rfl rfl rfl rfl rfl scatter_S100000x16_S3200000x1_S3200000x16_1_0_0_1 rfl rfl rfl rfl _ _
    (fun i => ?_) _ _ (fun e => ?_) (fun e => ?_) n j
  · rw [Cert.LibRowOps.broadcastInDim_scalar, constant_apply]; exact Ideal.ofBits_zero_f32
  · rw [Cert.LibRowOps.broadcastInDim_col, select_apply]
    show Scalar.select (IntOp.cmpi .slt ((W (Proc.devRef .tc main_v1) : (⟨S3200000, .i32⟩ : BufTy).Contents (Elt Ideal)) (ix1 e)) 0#32)
      (IntOp.addi ((W (Proc.devRef .tc main_v1) : (⟨S3200000, .i32⟩ : BufTy).Contents (Elt Ideal)) (ix1 e)) 100000#32)
      ((W (Proc.devRef .tc main_v1) : (⟨S3200000, .i32⟩ : BufTy).Contents (Elt Ideal)) (ix1 e)) = wrapW (srcW ei e)
    rw [hs e]; rfl
  · rw [Cert.LibRowOps.broadcastInDim_col]; exact hd e

set_option maxHeartbeats 1000000 in
theorem h1_v24 (j : Fin 16) :
    (StableHlo.after (hostOps1 (F := Ideal)) W (Proc.devRef .tc main_v24) : (⟨S1x16, .f32⟩ : BufTy).Contents (Elt Ideal)) (ix2 (0 : Fin 1) j)
      = (W (Proc.devRef .tc main_arg4) : (⟨S16, .f32⟩ : BufTy).Contents (Elt Ideal)) (ix1 j) := by
  after_results
  exact shapeCast_row _ _ _ _

set_option maxHeartbeats 2000000 in
theorem h2_v35 (ei : (⟨S2x3200000, .i32⟩ : BufTy).Contents (Elt Ideal))
    (hs : ∀ e : Fin 3200000, (W (Proc.devRef .tc main_v1) : (⟨S3200000, .i32⟩ : BufTy).Contents (Elt Ideal)) (ix1 e) = srcW ei e)
    (hd : ∀ e : Fin 3200000, (W (Proc.devRef .tc main_v3) : (⟨S3200000, .i32⟩ : BufTy).Contents (Elt Ideal)) (ix1 e) = dstW ei e)
    (n : Fin 100000) (j : Fin 16) :
    (StableHlo.after (hostOps2 (F := Ideal)) W (Proc.devRef .tc main_v35) : (⟨S100000x16, .f32⟩ : BufTy).Contents (Elt Ideal)) (ix2 n j)
      = agg (hit ei) (grow ei) (cur2 (W (Proc.devRef .tc main_v25) : (⟨S100000x16, .f32⟩ : BufTy).Contents (Elt Ideal))) n j := by
  after_results
  refine agg_read ei gather_S100000x16_S3200000x1_S3200000x16_1_0_n_n_0_1_116 rfl rfl rfl rfl rfl rfl rfl scatter_S100000x16_S3200000x1_S3200000x16_1_0_0_1 rfl rfl rfl rfl _ _
    (fun i => ?_) _ _ (fun e => ?_) (fun e => ?_) n j
  · rw [Cert.LibRowOps.broadcastInDim_scalar, constant_apply]; exact Ideal.ofBits_zero_f32
  · rw [Cert.LibRowOps.broadcastInDim_col, select_apply]
    show Scalar.select (IntOp.cmpi .slt ((W (Proc.devRef .tc main_v1) : (⟨S3200000, .i32⟩ : BufTy).Contents (Elt Ideal)) (ix1 e)) 0#32)
      (IntOp.addi ((W (Proc.devRef .tc main_v1) : (⟨S3200000, .i32⟩ : BufTy).Contents (Elt Ideal)) (ix1 e)) 100000#32)
      ((W (Proc.devRef .tc main_v1) : (⟨S3200000, .i32⟩ : BufTy).Contents (Elt Ideal)) (ix1 e)) = wrapW (srcW ei e)
    rw [hs e]; rfl
  · rw [Cert.LibRowOps.broadcastInDim_col]; exact hd e

set_option maxHeartbeats 1000000 in
theorem h2_v36 (j : Fin 32) :
    (StableHlo.after (hostOps2 (F := Ideal)) W (Proc.devRef .tc main_v36) : (⟨S1x32, .f32⟩ : BufTy).Contents (Elt Ideal)) (ix2 (0 : Fin 1) j)
      = (W (Proc.devRef .tc main_arg7) : (⟨S32, .f32⟩ : BufTy).Contents (Elt Ideal)) (ix1 j) := by
  after_results
  exact shapeCast_row _ _ _ _

set_option maxHeartbeats 2000000 in
theorem h4_v48 (ei : (⟨S2x3200000, .i32⟩ : BufTy).Contents (Elt Ideal))
    (hs : ∀ e : Fin 3200000, (W (Proc.devRef .tc main_v1) : (⟨S3200000, .i32⟩ : BufTy).Contents (Elt Ideal)) (ix1 e) = srcW ei e)
    (hd : ∀ e : Fin 3200000, (W (Proc.devRef .tc main_v3) : (⟨S3200000, .i32⟩ : BufTy).Contents (Elt Ideal)) (ix1 e) = dstW ei e)
    (n : Fin 100000) (j : Fin 21) :
    (StableHlo.after (hostOps4 (F := Ideal)) W (Proc.devRef .tc main_v48) : (⟨S100000x21, .f32⟩ : BufTy).Contents (Elt Ideal)) (ix2 n j)
      = agg (hit ei) (grow ei) (cur2 (W (Proc.devRef .tc main_v38) : (⟨S100000x21, .f32⟩ : BufTy).Contents (Elt Ideal))) n j := by
  after_results
  refine agg_read ei gather_S100000x21_S3200000x1_S3200000x21_1_0_n_n_0_1_121 rfl rfl rfl rfl rfl rfl rfl scatter_S100000x21_S3200000x1_S3200000x21_1_0_0_1 rfl rfl rfl rfl _ _
    (fun i => ?_) _ _ (fun e => ?_) (fun e => ?_) n j
  · rw [Cert.LibRowOps.broadcastInDim_scalar, constant_apply]; exact Ideal.ofBits_zero_f32
  · rw [Cert.LibRowOps.broadcastInDim_col, select_apply]
    show Scalar.select (IntOp.cmpi .slt ((W (Proc.devRef .tc main_v1) : (⟨S3200000, .i32⟩ : BufTy).Contents (Elt Ideal)) (ix1 e)) 0#32)
      (IntOp.addi ((W (Proc.devRef .tc main_v1) : (⟨S3200000, .i32⟩ : BufTy).Contents (Elt Ideal)) (ix1 e)) 100000#32)
      ((W (Proc.devRef .tc main_v1) : (⟨S3200000, .i32⟩ : BufTy).Contents (Elt Ideal)) (ix1 e)) = wrapW (srcW ei e)
    rw [hs e]; rfl
  · rw [Cert.LibRowOps.broadcastInDim_col]; exact hd e

set_option maxHeartbeats 1000000 in
theorem h4_v49 (j : Fin 21) :
    (StableHlo.after (hostOps4 (F := Ideal)) W (Proc.devRef .tc main_v49) : (⟨S1x21, .f32⟩ : BufTy).Contents (Elt Ideal)) (ix2 (0 : Fin 1) j)
      = (W (Proc.devRef .tc main_arg10) : (⟨S21, .f32⟩ : BufTy).Contents (Elt Ideal)) (ix1 j) := by
  after_results
  exact shapeCast_row _ _ _ _

set_option maxHeartbeats 1000000 in
theorem h5_v51 (r : Fin 100000) :
    (StableHlo.after (hostOps5 (F := Ideal)) W (Proc.devRef .tc main_v51) : (⟨S100000x1, .i32⟩ : BufTy).Contents (Elt Ideal)) (ix2 r (0 : Fin 1)) = batchOf W (ix1 r) := by
  after_results
  exact Cert.LibRowOps.shapeCast_col _ _ _ _

set_option maxHeartbeats 2000000 in
theorem h5_v56 (c : Fin 64) :
    (StableHlo.after (hostOps5 (F := Ideal)) W (Proc.devRef .tc main_v56) : (⟨S64x1, .f32⟩ : BufTy).Contents (Elt Ideal)) (ix2 c (0 : Fin 1))
      = ((∑ r : Fin 100000, if inG (batchOf W) r c then (1 : EReal) else 0 : EReal)) := by
  after_results
  rw [Cert.LibRowOps.broadcastInDim_col,
    Cert.LibScatterGather.scatterAdd_vec_apply scatter_S64_S100000x1_S100000_n_0_0_1 rfl rfl rfl rfl,
    Cert.LibRowOps.broadcastInDim_scalar, constant_apply, Ideal.ofBits_zero_f32, zero_add]
  show ((∑ e : Fin 100000, _ : EReal)) = _
  refine Finset.sum_congr rfl fun r _ => ?_
  rw [Cert.LibRowOps.broadcastInDim_col, Cert.LibRowOps.broadcastInDim_scalar, constant_apply, Ideal.ofBits_one_f32]
  exact if_congr Iff.rfl rfl rfl

set_option maxHeartbeats 1000000 in
theorem h5_v57 (j : Fin 10) :
    (StableHlo.after (hostOps5 (F := Ideal)) W (Proc.devRef .tc main_v57) : (⟨S1x10, .f32⟩ : BufTy).Contents (Elt Ideal)) (ix2 (0 : Fin 1) j)
      = (W (Proc.devRef .tc main_arg13) : (⟨S10, .f32⟩ : BufTy).Contents (Elt Ideal)) (ix1 j) := by
  after_results
  exact shapeCast_row _ _ _ _

end Cert.KernelIdeal.Val

end
-- ==== Proof.LibPlainDot.lean ====
import Idealize.ShloMosaic.Lib.ValueIdx
import Idealize.ShloMosaic.PureOps.Ideal.Laws

/-! A matrix product without batch axes, read at an index, is the sum over the contracted axis. -/

noncomputable section

open scoped BigOperators

namespace Cert.LibPlainDot

open Idealize.ShloMosaic Idealize.ShloMosaic.ValueIdx

variable {M K N : Nat} (D : DotDims ⟨2, ![M, K]⟩ ⟨2, ![K, N]⟩ ⟨2, ![M, N]⟩)

theorem coord_val_congr {s : Shape} (j : s.Idx) (p q : Nat) (hp : p < s.rank) (hq : q < s.rank) (h : p = q) :
    (j ⟨p, hp⟩).val = (j ⟨q, hq⟩).val := by subst h; rfl

theorem lhs_row (hlb : D.lhsBatch = []) (hln : D.lhsNonContracting = [0]) (p : Fin M) (q : Fin N) (k : D.contr.Idx) :
    (D.lhsIdx (ix2 p q) k 0).val = p.val := by
  unfold DotDims.lhsIdx
  rw [dif_neg (by rw [hlb]; exact List.not_mem_nil), dif_pos (by rw [hln]; exact List.mem_singleton.mpr rfl)]
  simp only [Fin.val_cast]
  exact coord_val_congr (ix2 p q) _ 0 _ (show 0 < 2 by omega) (by simp [hlb, hln])

theorem rhs_col (hlb : D.lhsBatch = []) (hrb : D.rhsBatch = []) (hln : D.lhsNonContracting = [0]) (hrn : D.rhsNonContracting = [1])
    (p : Fin M) (q : Fin N) (k : D.contr.Idx) : (D.rhsIdx (ix2 p q) k 1).val = q.val := by
  unfold DotDims.rhsIdx
  rw [dif_neg (by rw [hrb]; exact List.not_mem_nil), dif_pos (by rw [hrn]; exact List.mem_singleton.mpr rfl)]
  simp only [Fin.val_cast]
  exact coord_val_congr (ix2 p q) _ 1 _ (show 1 < 2 by omega) (by simp [hlb, hln, hrn])

theorem sum_plain (hlc : D.lhsContracting = [1]) (hrc : D.rhsContracting = [0]) (hln : D.lhsNonContracting = [0])
    (hrn : D.rhsNonContracting = [1]) (hlb : D.lhsBatch = []) (hrb : D.rhsBatch = [])
    (l : (⟨2, ![M, K]⟩ : Shape).Idx → EReal) (r : (⟨2, ![K, N]⟩ : Shape).Idx → EReal) (p : Fin M) (q : Fin N) :
    ∑ k : D.contr.Idx, l (D.lhsIdx (ix2 p q) k) * r (D.rhsIdx (ix2 p q) k) = ∑ k : Fin K, l (ix2 p k) * r (ix2 k q) := by
  have hr : D.contr.rank = 1 := by rw [D.rank_contr, hlc]; rfl
  have hs : D.contr.size ⟨0, by omega⟩ = K := by
    have h := D.size_contr 0 (by rw [hlc]; exact Nat.one_pos)
    rw [h]; simp [hlc]
  rw [← Equiv.sum_comp (contrEquiv1 D K hr hs).symm]
  refine Finset.sum_congr rfl fun k _ => ?_
  have hk := contrEquiv1_symm_val D K hr hs k
  have e1 : D.lhsIdx (ix2 p q) ((contrEquiv1 D K hr hs).symm k) = ix2 p k := by
    funext a
    match a with
    | ⟨0, _⟩ => exact Fin.ext (lhs_row D hlb hln p q _)
    | ⟨1, _⟩ => exact Fin.ext ((D.lhsIdx_val_of_single hlc (ix2 p q) _).trans hk)
  have e2 : D.rhsIdx (ix2 p q) ((contrEquiv1 D K hr hs).symm k) = ix2 k q := by
    funext a
    match a with
    | ⟨0, _⟩ => exact Fin.ext ((D.rhsIdx_val_of_single hrc (ix2 p q) _).trans hk)
    | ⟨1, _⟩ => exact Fin.ext (rhs_col D hlb hrb hln hrn p q _)
  rw [e1, e2]

def matProd (l : (⟨2, ![M, K]⟩ : Shape).Idx → EReal) (r : (⟨2, ![K, N]⟩ : Shape).Idx → EReal) :
    (⟨2, ![M, N]⟩ : Shape).Idx → EReal :=
  fun y => ∑ k : Fin K, l (ix2 (y 0) k) * r (ix2 k (y 1))

theorem matProd_ix2 (l : (⟨2, ![M, K]⟩ : Shape).Idx → EReal) (r : (⟨2, ![K, N]⟩ : Shape).Idx → EReal) (p : Fin M) (q : Fin N) :
    matProd l r (ix2 p q) = ∑ k : Fin K, l (ix2 p k) * r (ix2 k q) := rfl

theorem matmul_zero_eq_matProd {φ₁ φ₂ : FTy} (hlc : D.lhsContracting = [1]) (hrc : D.rhsContracting = [0]) (hln : D.lhsNonContracting = [0])
    (hrn : D.rhsNonContracting = [1]) (hlb : D.lhsBatch = []) (hrb : D.rhsBatch = []) (prec : Option ContractPrecision)
    (l : FVec Ideal ⟨2, ![M, K]⟩ φ₁) (r : FVec Ideal ⟨2, ![K, N]⟩ φ₂) :
    FloatOps.matmul D prec l r (constant ⟨2, ![M, N]⟩ .f32 0x00000000#32) = matProd (M := M) (K := K) (N := N) l r := by
  funext y
  obtain ⟨p, q, rfl⟩ : ∃ (p : Fin M) (q : Fin N), y = ix2 p q := ⟨y 0, y 1, eq_ix2 y⟩
  rw [Ideal.matmul_constant_zero_apply, matProd_ix2]
  exact sum_plain D hlc hrc hln hrn hlb hrb l r p q

end Cert.LibPlainDot

end
-- ==== Proof.KI.V0.lean ====
import proofs.«418024_j36704790511896_3_alg».proof.Proof.KI.R0
import proofs.«418024_j36704790511896_3_alg».proof.Proof.LibPlainDot
import proofs.«418024_j36704790511896_3_alg».proof.Proof.LibRowOps
import Idealize.ShloMosaic.Lib.ValueIdx
import Idealize.ShloMosaic.Lib.ValueLayout
import Idealize.ShloMosaic.Lib.Pipeline.Value
import Idealize.ShloMosaic.PureOps.Ideal.Laws

/-! Region 0 at the ideal values: its output array as one function of its argument arrays. -/

set_option maxRecDepth 16384

noncomputable section

open scoped BigOperators

namespace Cert.KernelIdeal.Val

open Cert.KernelIdeal Cert.KernelIdeal.Gen Cert.KernelIdeal.Reg
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz0 : (![0, 0] : Fin 2 → Nat) = fun _ => 0 := funext fun a => by fin_cases a <;> rfl

def G0_2 (a : S100000x64.Idx → EReal) (b : S64x16.Idx → EReal) : S100000x16.Idx → EReal :=
  fun y => ∑ k : Fin 64, a (ix2 (y 0) k) * b (ix2 k (y 1))

theorem pay0_eq (x0 : Vec Ideal S10000x64 .f32) (x1 : Vec Ideal S64x16 .f32) :
    k0_pay1 x0 x1 = Cert.LibPlainDot.matProd (M := 10000) (K := 64) (N := 16) x0 x1 := by
  unfold k0_pay1
  exact Cert.LibPlainDot.matmul_zero_eq_matProd dot_S10000x64_S64x16_S10000x16_1_0_0_1_n_n rfl rfl rfl rfl rfl rfl none _ _

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem iblk0_0_apply (c : Dev nD) (t : Fin cfg0.N) (p : Fin 10000) (k : Fin 64) (i : S100000x64.Idx)
    (h0 : (i 0).val = 10000 * t.val + p.val) (h1 : (i 1).val = k.val) :
    (iblk0 V c 0 t : Vec Ideal S10000x64 .f32) (ix2 p k) = (V c (Pipeline.arrRef spec0 0) : S100000x64.Idx → EReal) i := by
  obtain ⟨e0, e1, -, -, -, -⟩ := idx_facts0 t
  have he : ((cfg0.win 0).blk t).view.emb (ix2 p k : S10000x64.Idx) = i := by
    funext a
    apply Fin.ext
    match a with
    | ⟨0, _⟩ => show win0_0.index t (0 : Fin 2) * 10000 + 1 * p.val = (i 0).val; rw [e0, h0]; omega
    | ⟨1, _⟩ => show win0_0.index t (1 : Fin 2) * 64 + 1 * k.val = (i 1).val; rw [e1, h1]; omega
  unfold iblk0
  rw [View.read_apply]
  exact congrArg (V c (Pipeline.arrRef spec0 0)) he

theorem iblk0_1_apply (c : Dev nD) (t : Fin cfg0.N) (k : Fin 64) (q : Fin 16) :
    (iblk0 V c 1 t : Vec Ideal S64x16 .f32) (ix2 k q) = (V c (Pipeline.arrRef spec0 1) : S64x16.Idx → EReal) (ix2 k q) := by
  obtain ⟨-, -, e2, e3, -, -⟩ := idx_facts0 t
  have he : ((cfg0.win 1).blk t).view.emb (ix2 k q : S64x16.Idx) = (ix2 k q : S64x16.Idx) := by
    funext a
    apply Fin.ext
    match a with
    | ⟨0, _⟩ => show win0_1.index t (0 : Fin 2) * 64 + 1 * k.val = k.val; rw [e2]; omega
    | ⟨1, _⟩ => show win0_1.index t (1 : Fin 2) * 16 + 1 * q.val = q.val; rw [e3]; omega
  unfold iblk0
  rw [View.read_apply]
  exact congrArg (V c (Pipeline.arrRef spec0 1)) he

theorem block_entry0 (x0 : Vec Ideal S10000x64 .f32) (x1 : Vec Ideal S64x16 .f32) (A : S100000x64.Idx → EReal) (B : S64x16.Idx → EReal)
    (p : Fin 10000) (q : Fin 16) (i : S100000x16.Idx)
    (h0 : ∀ k : Fin 64, x0 (ix2 p k) = A (ix2 (i 0) k)) (h1 : ∀ k : Fin 64, x1 (ix2 k q) = B (ix2 k (i 1))) :
    Cert.LibPlainDot.matProd (M := 10000) (K := 64) (N := 16) x0 x1 (ix2 p q) = G0_2 A B i := by
  rw [Cert.LibPlainDot.matProd_ix2]
  unfold G0_2
  exact Finset.sum_congr rfl fun k _ => by rw [h0 k, h1 k]

theorem flushed0_2_eq (c : Dev nD) (t : Fin cfg0.N) :
    (dat0 (F := Ideal) V c).flushed 2 t
      = ((cfg0.win 2).blk t).view.read (Elt Ideal) (G0_2 (V c (Pipeline.arrRef spec0 0)) (V c (Pipeline.arrRef spec0 1))) := by
  show (cfg0.win 2).cut (grid0.coords t) ((dat0 V c).after 2 t) = _
  rw [after0_2]
  unfold out0_2
  rw [View.canon_unit_zero hz0]
  simp only [View.ld_unit_zero (S := S10000x64) hz0, View.ld_unit_zero (S := S64x16) hz0]
  rw [pay0_eq]
  obtain ⟨-, -, -, -, e4, e5⟩ := idx_facts0 t
  funext j
  obtain ⟨p, q, rfl⟩ : ∃ (p : Fin 10000) (q : Fin 16), j = ix2 p q := ⟨j 0, j 1, eq_ix2 j⟩
  have hr : ((((cfg0.win 2).blk t).view.emb (ix2 p q : S10000x16.Idx)) 0).val = 10000 * t.val + p.val := by
    show win0_2.index t (0 : Fin 2) * 10000 + 1 * p.val = _; rw [e4]; omega
  have hq : ((((cfg0.win 2).blk t).view.emb (ix2 p q : S10000x16.Idx)) 1).val = q.val := by
    show win0_2.index t (1 : Fin 2) * 16 + 1 * q.val = _; rw [e5]; omega
  refine block_entry0 (iblk0 V c 0 t) (iblk0 V c 1 t) (V c (Pipeline.arrRef spec0 0)) (V c (Pipeline.arrRef spec0 1)) p q
    (((cfg0.win 2).blk t).view.emb (ix2 p q : S10000x16.Idx)) (fun k => ?_) (fun k => ?_)
  · exact iblk0_0_apply V c t p k _ hr rfl
  · refine (iblk0_1_apply V c t k q).trans (congrArg (V c (Pipeline.arrRef spec0 1)) ?_)
    funext a
    apply Fin.ext
    match a with
    | ⟨0, _⟩ => rfl
    | ⟨1, _⟩ => exact hq.symm

theorem mem_blk0_2 (t : Fin cfg0.N) (i : S100000x16.Idx) :
    i ∈ ((cfg0.win 2).blk t).view.set ↔ ∀ a : Fin 2, win0_2.index t a * S10000x16.size a ≤ (i a).val ∧ (i a).val < win0_2.index t a * S10000x16.size a + S10000x16.size a := by
  show i ∈ ((View.whole main_v13).slice (win0_2.rect t)).set ↔ _
  rw [View.set_slice_whole, Rect.mem_set_unit]
  exact Iff.rfl

theorem cover0_2_arr (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  have hN : cfg0.N = 10 := N_0
  let t : Fin cfg0.N := ⟨(i 0).val / 10000, by rw [hN]; omega⟩
  have ht : t.val = (i 0).val / 10000 := rfl
  obtain ⟨-, -, -, -, e4, e5⟩ := idx_facts0 t
  refine ⟨t, flush0_2 t, ?_⟩
  rw [mem_blk0_2]
  intro a
  match a with
  | ⟨0, _⟩ => show win0_2.index t (0 : Fin 2) * 10000 ≤ (i 0).val ∧ (i 0).val < win0_2.index t (0 : Fin 2) * 10000 + 10000; rw [e4, ht]; omega
  | ⟨1, _⟩ => show win0_2.index t (1 : Fin 2) * 16 ≤ (i 1).val ∧ (i 1).val < win0_2.index t (1 : Fin 2) * 16 + 16; rw [e5]; omega

theorem final0_2 (c : Dev nD) :
    (dat0 (F := Ideal) V c).arrAt 2 cfg0.N = G0_2 (V c (Pipeline.arrRef spec0 0)) (V c (Pipeline.arrRef spec0 1)) :=
  (dat0 (F := Ideal) V c).arrAt_eq_of_cover 2 (G0_2 (V c (Pipeline.arrRef spec0 0)) (V c (Pipeline.arrRef spec0 1)))
    (fun t _ => flushed0_2_eq V c t) cover0_2_arr

end Cert.KernelIdeal.Val

end
-- ==== Proof.KI.V1.lean ====
import proofs.«418024_j36704790511896_3_alg».proof.Proof.KI.R1
import proofs.«418024_j36704790511896_3_alg».proof.Proof.LibPlainDot
import proofs.«418024_j36704790511896_3_alg».proof.Proof.LibRowOps
import Idealize.ShloMosaic.Lib.ValueIdx
import Idealize.ShloMosaic.Lib.ValueLayout
import Idealize.ShloMosaic.Lib.Pipeline.Value
import Idealize.ShloMosaic.PureOps.Ideal.Laws

/-! Region 1 at the ideal values: its output array as one function of its argument arrays. -/

set_option maxRecDepth 16384

noncomputable section

open scoped BigOperators

namespace Cert.KernelIdeal.Val

open Cert.KernelIdeal Cert.KernelIdeal.Gen Cert.KernelIdeal.Reg
open Idealize.ShloMosaic Idealize.ShloMosaic.TcCoe Idealize.SL.Sem Idealize.ShloMosaic.ValueIdx
open Idealize.ShloMosaic.Pipeline (Dat)

def combineRelu1 (s : S100000x16.Idx → EReal) (a : S100000x64.Idx → EReal) (d : S100000x1.Idx → EReal)
    (W : S64x16.Idx → EReal) (b : S1x16.Idx → EReal) : S100000x16.Idx → EReal :=
  fun y => max ((∑ k : Fin 64, a (ix2 (y 0) k) * W (ix2 k (y 1))) + s y * d (ix2 (y 0) (0 : Fin 1)) + b (ix2 (0 : Fin 1) (y 1))) 0

theorem broadcastTo_row1 {R C : Nat} {α : Type} (g : (⟨2, ![1, C]⟩ : Shape).Idx → α) (h : (⟨2, ![1, C]⟩ : Shape).Broadcasts ⟨2, ![R, C]⟩)
    (p : Fin R) (q : Fin C) : broadcastTo ⟨2, ![R, C]⟩ g h (ix2 p q) = g (ix2 (0 : Fin 1) q) := by
  refine broadcastTo_apply g h (ix2 p q) (ix2 (0 : Fin 1) q) fun ax => ?_
  match ax with
  | ⟨0, _⟩ => rfl
  | ⟨1, _⟩ =>
    show q.val = if C = 1 then 0 else q.val
    split
    · have := q.isLt; omega
    · rfl

theorem pay1_apply (x0 : Vec Ideal S5000x16 .f32) (x2 : Vec Ideal S5000x1 .f32) (x6 : Vec Ideal S5000x64 .f32) (x8 : Vec Ideal S64x16 .f32) (x12 : Vec Ideal S1x16 .f32)
    (p : Fin 5000) (q : Fin 16) :
    k1_pay1 x0 x2 x6 x8 x12 (ix2 p q)
      = max ((∑ k : Fin 64, x6 (ix2 p k) * x8 (ix2 k q)) + x0 (ix2 p q) * x2 (ix2 p (0 : Fin 1)) + x12 (ix2 (0 : Fin 1) q)) 0 := by
  unfold k1_pay1
  simp only [Idealize.ShloMosaic.matmul, maximumf_apply, addf_apply, mulf_apply, broadcast_apply, shapeCast_self, Cert.LibRowOps.broadcastTo_col, broadcastTo_row1]
  rw [Cert.LibPlainDot.matmul_zero_eq_matProd (M := 5000) (K := 64) (N := 16) dot_S5000x64_S64x16_S5000x16_1_0_0_1_n_n rfl rfl rfl rfl rfl rfl,
    Cert.LibPlainDot.matProd_ix2]
  simp only [truncf_apply]
  show max _ (Ideal.ofBits .f32 0x00000000#32) = _
  rw [Ideal.ofBits_zero_f32]

theorem pay1_at (x0 : Vec Ideal S5000x16 .f32) (x2 : Vec Ideal S5000x1 .f32) (x6 : Vec Ideal S5000x64 .f32) (x8 : Vec Ideal S64x16 .f32) (x12 : Vec Ideal S1x16 .f32)
    (j : S5000x16.Idx) :
    k1_pay1 x0 x2 x6 x8 x12 j
      = max ((∑ k : Fin 64, x6 (ix2 (j 0) k) * x8 (ix2 k (j 1))) + x0 j * x2 (ix2 (j 0) (0 : Fin 1)) + x12 (ix2 (0 : Fin 1) (j 1))) 0 := by
  obtain ⟨p, q, rfl⟩ : ∃ (p : Fin 5000) (q : Fin 16), j = ix2 p q := ⟨j 0, j 1, eq_ix2 j⟩
  exact pay1_apply x0 x2 x6 x8 x12 p q

theorem block1_eq (s : S100000x16.Idx → EReal) (a : S100000x64.Idx → EReal) (d : S100000x1.Idx → EReal) (W : S64x16.Idx → EReal) (b : S1x16.Idx → EReal)
    (x0 : Vec Ideal S5000x16 .f32) (x1 : Vec Ideal S5000x64 .f32) (x2 : Vec Ideal S5000x1 .f32) (x3 : Vec Ideal S64x16 .f32) (x4 : Vec Ideal S1x16 .f32)
    (j : S5000x16.Idx) (i : S100000x16.Idx)
    (h0 : x0 j = s i)
    (h1 : ∀ k : Fin 64, x1 (ix2 (j 0) k) = a (ix2 (i 0) k))
    (h2 : x2 (ix2 (j 0) (0 : Fin 1)) = d (ix2 (i 0) (0 : Fin 1)))
    (h3 : ∀ k : Fin 64, x3 (ix2 k (j 1)) = W (ix2 k (i 1)))
    (h4 : x4 (ix2 (0 : Fin 1) (j 1)) = b (ix2 (0 : Fin 1) (i 1))) :
    k1_pay1 x0 x2 x1 x3 x4 j = combineRelu1 s a d W b i := by
  rw [pay1_at]
  unfold combineRelu1
  rw [h0, h2, h4]
  simp only [h1, h3]

variable (V : (c : Dev nD) → (b : Ref sig .tc) → Buf (Elt Ideal) ((c : Thread nD τ).loc b))

theorem hz1 : (![0, 0] : Fin 2 → Nat) = fun _ => 0 := funext fun a => by fin_cases a <;> rfl

theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem iblk1_0_at (c : Dev nD) (t : Fin cfg1.N) (x : S5000x16.Idx) (i : S100000x16.Idx)
    (h0 : (i 0).val = 5000 * t.val + (x 0).val) (h1 : (i 1).val = (x 1).val) :
    (iblk1 V c 0 t : Vec Ideal S5000x16 .f32) x = (V c (Pipeline.arrRef spec1 0) : S100000x16.Idx → Elt Ideal .f32) i := by
  obtain ⟨e00, e01, e10, e11, e20, e21, e30, e31, e40, e41, e50, e51⟩ := idx_facts1 t
  unfold iblk1
  rw [View.read_apply]
  refine congrArg (V c (Pipeline.arrRef spec1 0)) (funext fun a => Fin.ext ?_)
  match a with
  | ⟨0, _⟩ => show win1_0.index t (0 : Fin 2) * 5000 + 1 * (x 0).val = (i 0).val; omega
  | ⟨1, _⟩ => show win1_0.index t (1 : Fin 2) * 16 + 1 * (x 1).val = (i 1).val; omega

theorem iblk1_1_at (c : Dev nD) (t : Fin cfg1.N) (x : S5000x64.Idx) (i : S100000x64.Idx)
    (h0 : (i 0).val = 5000 * t.val + (x 0).val) (h1 : (i 1).val = (x 1).val) :
    (iblk1 V c 1 t : Vec Ideal S5000x64 .f32) x = (V c (Pipeline.arrRef spec1 1) : S100000x64.Idx → Elt Ideal .f32) i := by
  obtain ⟨e00, e01, e10, e11, e20, e21, e30, e31, e40, e41, e50, e51⟩ := idx_facts1 t
  unfold iblk1
  rw [View.read_apply]
  refine congrArg (V c (Pipeline.arrRef spec1 1)) (funext fun a => Fin.ext ?_)
  match a with
  | ⟨0, _⟩ => show win1_1.index t (0 : Fin 2) * 5000 + 1 * (x 0).val = (i 0).val; omega
  | ⟨1, _⟩ => show win1_1.index t (1 : Fin 2) * 64 + 1 * (x 1).val = (i 1).val; omega

theorem iblk1_2_at (c : Dev nD) (t : Fin cfg1.N) (x : S5000x1.Idx) (i : S100000x1.Idx)
    (h0 : (i 0).val = 5000 * t.val + (x 0).val) (h1 : (i 1).val = (x 1).val) :
    (iblk1 V c 2 t : Vec Ideal S5000x1 .f32) x = (V c (Pipeline.arrRef spec1 2) : S100000x1.Idx → Elt Ideal .f32) i := by
  obtain ⟨e00, e01, e10, e11, e20, e21, e30, e31, e40, e41, e50, e51⟩ := idx_facts1 t
  unfold iblk1
  rw [View.read_apply]
  refine congrArg (V c (Pipeline.arrRef spec1 2)) (funext fun a => Fin.ext ?_)
  match a with
  | ⟨0, _⟩ => show win1_2.index t (0 : Fin 2) * 5000 + 1 * (x 0).val = (i 0).val; omega
  | ⟨1, _⟩ => show win1_2.index t (1 : Fin 2) * 1 + 1 * (x 1).val = (i 1).val; omega

theorem iblk1_3_at (c : Dev nD) (t : Fin cfg1.N) (x : S64x16.Idx) :
    (iblk1 V c 3 t : Vec Ideal S64x16 .f32) x = (V c (Pipeline.arrRef spec1 3) : S64x16.Idx → Elt Ideal .f32) x := by
  obtain ⟨e00, e01, e10, e11, e20, e21, e30, e31, e40, e41, e50, e51⟩ := idx_facts1 t
  unfold iblk1
  rw [View.read_apply]
  refine congrArg (V c (Pipeline.arrRef spec1 3)) (funext fun a => Fin.ext ?_)
  match a with
  | ⟨0, _⟩ => show win1_3.index t (0 : Fin 2) * 64 + 1 * (x 0).val = (x 0).val; omega
  | ⟨1, _⟩ => show win1_3.index t (1 : Fin 2) * 16 + 1 * (x 1).val = (x 1).val; omega

theorem iblk1_4_at (c : Dev nD) (t : Fin cfg1.N) (x : S1x16.Idx) :
    (iblk1 V c 4 t : Vec Ideal S1x16 .f32) x = (V c (Pipeline.arrRef spec1 4) : S1x16.Idx → Elt Ideal .f32) x := by
  obtain ⟨e00, e01, e10, e11, e20, e21, e30, e31, e40, e41, e50, e51⟩ := idx_facts1 t
  unfold iblk1
  rw [View.read_apply]
  refine congrArg (V c (Pipeline.arrRef spec1 4)) (funext fun a => Fin.ext ?_)
  match a with
  | ⟨0, _⟩ => show win1_4.index t (0 : Fin 2) * 1 + 1 * (x 0).val = (x 0).val; omega
  | ⟨1, _⟩ => show win1_4.index t (1 : Fin 2) * 16 + 1 * (x 1).val = (x 1).val; omega

theorem flushed1_5_eq (c : Dev nD) (t : Fin cfg1.N) :
    (dat1 (F := Ideal) V c).flushed 5 t = ((cfg1.win 5).blk t).view.read (Elt Ideal)
      (combineRelu1 (V c (Pipeline.arrRef spec1 0)) (V c (Pipeline.arrRef spec1 1)) (V c (Pipeline.arrRef spec1 2)) (V c (Pipeline.arrRef spec1 3)) (V c (Pipeline.arrRef spec1 4))) := by
  show (cfg1.win 5).cut (grid1.coords t) ((dat1 V c).after 5 t) = _
  rw [after1_5]
  unfold out1_5
  rw [View.canon_unit_zero hz1]
  simp only [View.ld_unit_zero (S := S5000x16) hz1, View.ld_unit_zero (S := S5000x64) hz1, View.ld_unit_zero (S := S5000x1) hz1, View.ld_unit_zero (S := S64x16) hz1, View.ld_unit_zero (S := S1x16) hz1]
  obtain ⟨e00, e01, e10, e11, e20, e21, e30, e31, e40, e41, e50, e51⟩ := idx_facts1 t
  funext j
  show k1_pay1 (iblk1 V c 0 t) (iblk1 V c 2 t) (iblk1 V c 1 t) (iblk1 V c 3 t) (iblk1 V c 4 t) j
    = combineRelu1 (V c (Pipeline.arrRef spec1 0)) (V c (Pipeline.arrRef spec1 1)) (V c (Pipeline.arrRef spec1 2)) (V c (Pipeline.arrRef spec1 3)) (V c (Pipeline.arrRef spec1 4)) (((cfg1.win 5).blk t).view.emb j)
  have hi0 : ((((cfg1.win 5).blk t).view.emb j) 0).val = 5000 * t.val + (j 0).val := by
    show win1_5.index t (0 : Fin 2) * 5000 + 1 * (j 0).val = _; omega
  have hi1 : ((((cfg1.win 5).blk t).view.emb j) 1).val = (j 1).val := by
    show win1_5.index t (1 : Fin 2) * 16 + 1 * (j 1).val = _; omega
  refine block1_eq _ _ _ _ _ _ _ _ _ _ j _ ?_ ?_ ?_ ?_ ?_
  · exact iblk1_0_at V c t j _ hi0 hi1
  · intro k; exact iblk1_1_at V c t _ _ hi0 rfl
  · exact iblk1_2_at V c t _ _ hi0 rfl
  · intro k; exact (iblk1_3_at V c t _).trans (congrArg _ (funext fun a => Fin.ext (by match a with | ⟨0, _⟩ => rfl | ⟨1, _⟩ => exact hi1.symm)))
  · exact (iblk1_4_at V c t _).trans (congrArg _ (funext fun a => Fin.ext (by match a with | ⟨0, _⟩ => rfl | ⟨1, _⟩ => exact hi1.symm)))

theorem mem_blk1_5 (t : Fin cfg1.N) (i : S100000x16.Idx) :
    i ∈ ((cfg1.win 5).blk t).view.set ↔ ∀ a : Fin 2, win1_5.index t a * S5000x16.size a ≤ (i a).val ∧ (i a).val < win1_5.index t a * S5000x16.size a + S5000x16.size a := by
  show i ∈ ((View.whole main_v25).slice (win1_5.rect t)).set ↔ _
  rw [View.set_slice_whole, Rect.mem_set_unit]
  exact Iff.rfl

theorem covered1_5 (i : S100000x16.Idx) :
    ∃ t : Fin cfg1.N, (cfg1.win 5).flush t = true ∧ i ∈ ((cfg1.win 5).blk t).view.set := by
  have hi0 : (i 0).val < 100000 := (i 0).isLt
  have hi1 : (i 1).val < 16 := (i 1).isLt
  have hN : cfg1.N = 20 := N_1
  have ht : (i 0).val / 5000 < cfg1.N := by rw [hN]; omega
  obtain ⟨e00, e01, e10, e11, e20, e21, e30, e31, e40, e41, e50, e51⟩ := idx_facts1 ⟨(i 0).val / 5000, ht⟩
  refine ⟨⟨(i 0).val / 5000, ht⟩, flush1_5 _, ?_⟩
  rw [mem_blk1_5]
  intro a
  match a with
  | ⟨0, _⟩ =>
    show win1_5.index ⟨(i 0).val / 5000, ht⟩ (0 : Fin 2) * 5000 ≤ (i 0).val ∧ (i 0).val < win1_5.index ⟨(i 0).val / 5000, ht⟩ (0 : Fin 2) * 5000 + 5000
    rw [e50]
    show (i 0).val / 5000 * 5000 ≤ (i 0).val ∧ (i 0).val < (i 0).val / 5000 * 5000 + 5000
    omega
  | ⟨1, _⟩ =>
    show win1_5.index ⟨(i 0).val / 5000, ht⟩ (1 : Fin 2) * 16 ≤ (i 1).val ∧ (i 1).val < win1_5.index ⟨(i 0).val / 5000, ht⟩ (1 : Fin 2) * 16 + 16
    omega

theorem final1_5 (c : Dev nD) :
    (dat1 (F := Ideal) V c).arrAt 5 cfg1.N
      = combineRelu1 (V c (Pipeline.arrRef spec1 0)) (V c (Pipeline.arrRef spec1 1)) (V c (Pipeline.arrRef spec1 2)) (V c (Pipeline.arrRef spec1 3)) (V c (Pipeline.arrRef spec1 4)) :=
  (dat1 V c).arrAt_eq_of_cover 5 _ (fun t _ => flushed1_5_eq V c t) covered1_5

end Cert.KernelIdeal.Val

end
-- ==== Proof.KI.V2.lean ====
import proofs.«418024_j36704790511896_3_alg».proof.Proof.KI.R2
import proofs.«418024_j36704790511896_3_alg».proof.Proof.LibPlainDot
import proofs.«418024_j36704790511896_3_alg».proof.Proof.LibRowOps
import Idealize.ShloMosaic.Lib.ValueIdx
import Idealize.ShloMosaic.Lib.ValueLayout
import Idealize.ShloMosaic.Lib.Pipeline.Value
import Idealize.ShloMosaic.PureOps.Ideal.Laws

/-! Region 2 at the ideal values: its output arrays as one function of its argument arrays. -/

set_option maxRecDepth 16384

noncomputable section

open scoped BigOperators

namespace Cert.KernelIdeal.Val

open Cert.KernelIdeal Cert.KernelIdeal.Gen Cert.KernelIdeal.Reg
open Idealize.ShloMosaic Idealize.ShloMosaic.TcCoe Idealize.ShloMosaic.ValueIdx
open Idealize.SL.Sem
open Idealize.ShloMosaic.Pipeline (Dat)

def G2_6 (agg x : S100000x16.Idx → EReal) (inv : S100000x1.Idx → EReal) (wl : S16x32.Idx → EReal) (b : S1x32.Idx → EReal)
    (wr : S16x32.Idx → EReal) : S100000x32.Idx → EReal :=
  fun y => ((∑ k : Fin 16, (agg (ix2 (y 0) k) * inv (ix2 (y 0) (0 : Fin 1))) * wl (ix2 k (y 1)))
      + ∑ k : Fin 16, x (ix2 (y 0) k) * wr (ix2 k (y 1))) + b (ix2 (0 : Fin 1) (y 1))

def G2_7 (agg x : S100000x16.Idx → EReal) (inv : S100000x1.Idx → EReal) (wl : S16x32.Idx → EReal) (b : S1x32.Idx → EReal)
    (wr : S16x32.Idx → EReal) : S100000x32.Idx → EReal :=
  fun y => max (G2_6 agg x inv wl b wr y) 0

theorem G2_6_ix2 (agg x : S100000x16.Idx → EReal) (inv : S100000x1.Idx → EReal) (wl : S16x32.Idx → EReal) (b : S1x32.Idx → EReal)
    (wr : S16x32.Idx → EReal) (r : Fin 100000) (q : Fin 32) :
    G2_6 agg x inv wl b wr (ix2 r q) = ((∑ k : Fin 16, (agg (ix2 r k) * inv (ix2 r (0 : Fin 1))) * wl (ix2 k q))
      + ∑ k : Fin 16, x (ix2 r k) * wr (ix2 k q)) + b (ix2 (0 : Fin 1) q) := rfl

theorem broadcastTo_row {R C : Nat} {α : Type} (w : (⟨2, ![1, C]⟩ : Shape).Idx → α) (h : (⟨2, ![1, C]⟩ : Shape).Broadcasts ⟨2, ![R, C]⟩)
    (p : Fin R) (q : Fin C) : broadcastTo ⟨2, ![R, C]⟩ w h (ix2 p q) = w (ix2 (0 : Fin 1) q) := by
  refine broadcastTo_apply w h (ix2 p q) (ix2 (0 : Fin 1) q) fun ax => ?_
  match ax with
  | ⟨0, _⟩ => rfl
  | ⟨1, _⟩ =>
    show q.val = if C = 1 then 0 else q.val
    split
    · have := q.isLt; omega
    · rfl

theorem pay2w_at (v0 : Vec Ideal S5000x16 .f32) (v2 : Vec Ideal S5000x1 .f32) (v7 : Vec Ideal S16x32 .f32)
    (v9 : Vec Ideal S5000x16 .f32) (v12 : Vec Ideal S16x32 .f32) (v17 : Vec Ideal S1x32 .f32) (p : Fin 5000) (q : Fin 32) :
    k2_pay1 v0 v2 v7 v9 v12 v17 (ix2 p q)
      = ((∑ k : Fin 16, (v0 (ix2 p k) * v2 (ix2 p (0 : Fin 1))) * v7 (ix2 k q)) + ∑ k : Fin 16, v9 (ix2 p k) * v12 (ix2 k q))
        + v17 (ix2 (0 : Fin 1) q) := by
  unfold k2_pay1
  rw [addf_apply, addf_apply]
  refine congrArg₂ (· + ·) (congrArg₂ (· + ·) ?_ ?_) ?_
  · refine (congrFun (Cert.LibPlainDot.matmul_zero_eq_matProd dot_S5000x16_S16x32_S5000x32_1_0_0_1_n_n rfl rfl rfl rfl rfl rfl none _ _) (ix2 p q)).trans ?_
    rw [Cert.LibPlainDot.matProd_ix2]
    refine Finset.sum_congr rfl fun k _ => ?_
    rw [truncf_apply, truncf_apply, mulf_apply, shapeCast_self, shapeCast_self, Cert.LibRowOps.broadcastTo_col]
  · refine (congrFun (Cert.LibPlainDot.matmul_zero_eq_matProd dot_S5000x16_S16x32_S5000x32_1_0_0_1_n_n rfl rfl rfl rfl rfl rfl none _ _) (ix2 p q)).trans ?_
    rw [Cert.LibPlainDot.matProd_ix2]
    refine Finset.sum_congr rfl fun k _ => ?_
    rw [truncf_apply, truncf_apply, shapeCast_self]
  · rw [shapeCast_self]
    exact broadcastTo_row _ _ p q

theorem pay2_at (v0 : Vec Ideal S5000x16 .f32) (v2 : Vec Ideal S5000x1 .f32) (v7 : Vec Ideal S16x32 .f32)
    (v9 : Vec Ideal S5000x16 .f32) (v12 : Vec Ideal S16x32 .f32) (v17 : Vec Ideal S1x32 .f32) (j : S5000x32.Idx) :
    k2_pay2 v0 v2 v7 v9 v12 v17 j = max (k2_pay1 v0 v2 v7 v9 v12 v17 j) 0 := by
  unfold k2_pay2
  rw [maximumf_apply, broadcast_apply]
  show max _ (Ideal.ofBits .f32 0x00000000#32) = _
  rw [Ideal.ofBits_zero_f32]

variable (V : (c : Dev nD) → (b : Ref sig .tc) → Buf (Elt Ideal) ((c : Thread nD τ).loc b))

theorem hz2 : (![0, 0] : Fin 2 → Nat) = fun _ => 0 := funext fun a => by fin_cases a <;> rfl

theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 2) = t.val ∧ win2_7.index t (1 : Fin 2) = 0 :=
  (by decide +kernel : ∀ t : Fin grid2.N, _)

theorem iblk2_0_at (c : Dev nD) (t : Fin cfg2.N) (x : S5000x16.Idx) (i : S100000x16.Idx)
    (h0 : (i 0).val = t.val * 5000 + (x 0).val) (h1 : (i 1).val = (x 1).val) :
    (iblk2 V c 0 t : Vec Ideal S5000x16 .f32) x = (V c (Pipeline.arrRef spec2 0) : S100000x16.Idx → EReal) i := by
  have hf := idx_facts2 t
  unfold iblk2
  rw [View.read_apply]
  show V c main_v35 _ = V c main_v35 _
  congr 1
  funext a
  apply Fin.ext
  match a with
  | ⟨0, _⟩ => show win2_0.index t (0 : Fin 2) * 5000 + 1 * (x 0).val = (i 0).val; omega
  | ⟨1, _⟩ => show win2_0.index t (1 : Fin 2) * 16 + 1 * (x 1).val = (i 1).val; omega

theorem iblk2_1_at (c : Dev nD) (t : Fin cfg2.N) (x : S5000x16.Idx) (i : S100000x16.Idx)
    (h0 : (i 0).val = t.val * 5000 + (x 0).val) (h1 : (i 1).val = (x 1).val) :
    (iblk2 V c 1 t : Vec Ideal S5000x16 .f32) x = (V c (Pipeline.arrRef spec2 1) : S100000x16.Idx → EReal) i := by
  have hf := idx_facts2 t
  unfold iblk2
  rw [View.read_apply]
  show V c main_v25 _ = V c main_v25 _
  congr 1
  funext a
  apply Fin.ext
  match a with
  | ⟨0, _⟩ => show win2_1.index t (0 : Fin 2) * 5000 + 1 * (x 0).val = (i 0).val; omega
  | ⟨1, _⟩ => show win2_1.index t (1 : Fin 2) * 16 + 1 * (x 1).val = (i 1).val; omega

theorem iblk2_2_at (c : Dev nD) (t : Fin cfg2.N) (x : S5000x1.Idx) (i : S100000x1.Idx)
    (h0 : (i 0).val = t.val * 5000 + (x 0).val) (h1 : (i 1).val = (x 1).val) :
    (iblk2 V c 2 t : Vec Ideal S5000x1 .f32) x = (V c (Pipeline.arrRef spec2 2) : S100000x1.Idx → EReal) i := by
  have hf := idx_facts2 t
  unfold iblk2
  rw [View.read_apply]
  show V c main_v12 _ = V c main_v12 _
  congr 1
  funext a
  apply Fin.ext
  match a with
  | ⟨0, _⟩ => show win2_2.index t (0 : Fin 2) * 5000 + 1 * (x 0).val = (i 0).val; omega
  | ⟨1, _⟩ => show win2_2.index t (1 : Fin 2) * 1 + 1 * (x 1).val = (i 1).val; omega

theorem iblk2_3_at (c : Dev nD) (t : Fin cfg2.N) (x : S16x32.Idx) :
    (iblk2 V c 3 t : Vec Ideal S16x32 .f32) x = (V c (Pipeline.arrRef spec2 3) : S16x32.Idx → EReal) x := by
  have hf := idx_facts2 t
  unfold iblk2
  rw [View.read_apply]
  show V c main_arg6 _ = V c main_arg6 _
  congr 1
  funext a
  apply Fin.ext
  match a with
  | ⟨0, _⟩ => show win2_3.index t (0 : Fin 2) * 16 + 1 * (x 0).val = (x 0).val; omega
  | ⟨1, _⟩ => show win2_3.index t (1 : Fin 2) * 32 + 1 * (x 1).val = (x 1).val; omega

theorem iblk2_4_at (c : Dev nD) (t : Fin cfg2.N) (x : S1x32.Idx) :
    (iblk2 V c 4 t : Vec Ideal S1x32 .f32) x = (V c (Pipeline.arrRef spec2 4) : S1x32.Idx → EReal) x := by
  have hf := idx_facts2 t
  unfold iblk2
  rw [View.read_apply]
  show V c main_v36 _ = V c main_v36 _
  congr 1
  funext a
  apply Fin.ext
  match a with
  | ⟨0, _⟩ => show win2_4.index t (0 : Fin 2) * 1 + 1 * (x 0).val = (x 0).val; omega
  | ⟨1, _⟩ => show win2_4.index t (1 : Fin 2) * 32 + 1 * (x 1).val = (x 1).val; omega

theorem iblk2_5_at (c : Dev nD) (t : Fin cfg2.N) (x : S16x32.Idx) :
    (iblk2 V c 5 t : Vec Ideal S16x32 .f32) x = (V c (Pipeline.arrRef spec2 5) : S16x32.Idx → EReal) x := by
  have hf := idx_facts2 t
  unfold iblk2
  rw [View.read_apply]
  show V c main_arg8 _ = V c main_arg8 _
  congr 1
  funext a
  apply Fin.ext
  match a with
  | ⟨0, _⟩ => show win2_5.index t (0 : Fin 2) * 16 + 1 * (x 0).val = (x 0).val; omega
  | ⟨1, _⟩ => show win2_5.index t (1 : Fin 2) * 32 + 1 * (x 1).val = (x 1).val; omega

theorem pay1_blocks (c : Dev nD) (t : Fin cfg2.N) (p : Fin 5000) (q : Fin 32) (i : S100000x32.Idx)
    (h0 : (i 0).val = t.val * 5000 + p.val) (h1 : (i 1).val = q.val) :
    k2_pay1 (iblk2 V c 0 t) (iblk2 V c 2 t) (iblk2 V c 3 t) (iblk2 V c 1 t) (iblk2 V c 5 t) (iblk2 V c 4 t) (ix2 p q)
      = G2_6 (V c (Pipeline.arrRef spec2 0)) (V c (Pipeline.arrRef spec2 1)) (V c (Pipeline.arrRef spec2 2))
          (V c (Pipeline.arrRef spec2 3)) (V c (Pipeline.arrRef spec2 4)) (V c (Pipeline.arrRef spec2 5)) i := by
  obtain ⟨r, q', rfl⟩ : ∃ (r : Fin 100000) (q' : Fin 32), i = ix2 r q' := ⟨i 0, i 1, eq_ix2 i⟩
  have hr : r.val = t.val * 5000 + p.val := h0
  obtain rfl : q' = q := Fin.ext h1
  rw [pay2w_at, G2_6_ix2]
  refine congrArg₂ (· + ·) (congrArg₂ (· + ·) (Finset.sum_congr rfl fun k _ => ?_) (Finset.sum_congr rfl fun k _ => ?_)) ?_
  · rw [iblk2_0_at V c t (ix2 p k) (ix2 r k) hr rfl, iblk2_2_at V c t (ix2 p (0 : Fin 1)) (ix2 r (0 : Fin 1)) hr rfl, iblk2_3_at]
  · rw [iblk2_1_at V c t (ix2 p k) (ix2 r k) hr rfl, iblk2_5_at]
  · rw [iblk2_4_at]

theorem mem_blk2_6 (t : Fin cfg2.N) (i : S100000x32.Idx) :
    i ∈ ((cfg2.win 6).blk t).view.set ↔ ∀ a : Fin 2, win2_6.index t a * S5000x32.size a ≤ (i a).val ∧ (i a).val < win2_6.index t a * S5000x32.size a + S5000x32.size a := by
  show i ∈ ((View.whole main_v37_0).slice (win2_6.rect t)).set ↔ _
  rw [View.set_slice_whole, Rect.mem_set_unit]
  exact Iff.rfl
theorem mem_blk2_7 (t : Fin cfg2.N) (i : S100000x32.Idx) :
    i ∈ ((cfg2.win 7).blk t).view.set ↔ ∀ a : Fin 2, win2_7.index t a * S5000x32.size a ≤ (i a).val ∧ (i a).val < win2_7.index t a * S5000x32.size a + S5000x32.size a := by
  show i ∈ ((View.whole main_v37_1).slice (win2_7.rect t)).set ↔ _
  rw [View.set_slice_whole, Rect.mem_set_unit]
  exact Iff.rfl

theorem cover2_6_arr (i : S100000x32.Idx) : ∃ t : Fin cfg2.N, (cfg2.win 6).flush t = true ∧ i ∈ ((cfg2.win 6).blk t).view.set := by
  have hi0 : (i 0).val < 100000 := (i 0).isLt
  have hi1 : (i 1).val < 32 := (i 1).isLt
  have hN : cfg2.N = 20 := N_2
  let t : Fin cfg2.N := ⟨(i 0).val / 5000, by rw [hN]; omega⟩
  have ht : t.val = (i 0).val / 5000 := rfl
  have hf := idx_facts2 t
  refine ⟨t, flush2_6 t, ?_⟩
  rw [mem_blk2_6]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 32 ≤ (i 1).val ∧ (i 1).val < win2_6.index t (1 : Fin 2) * 32 + 32; omega
theorem cover2_7_arr (i : S100000x32.Idx) : ∃ t : Fin cfg2.N, (cfg2.win 7).flush t = true ∧ i ∈ ((cfg2.win 7).blk t).view.set := by
  have hi0 : (i 0).val < 100000 := (i 0).isLt
  have hi1 : (i 1).val < 32 := (i 1).isLt
  have hN : cfg2.N = 20 := N_2
  let t : Fin cfg2.N := ⟨(i 0).val / 5000, by rw [hN]; omega⟩
  have ht : t.val = (i 0).val / 5000 := rfl
  have hf := idx_facts2 t
  refine ⟨t, flush2_7 t, ?_⟩
  rw [mem_blk2_7]
  intro a
  match a with
  | ⟨0, _⟩ => show win2_7.index t (0 : Fin 2) * 5000 ≤ (i 0).val ∧ (i 0).val < win2_7.index t (0 : Fin 2) * 5000 + 5000; omega
  | ⟨1, _⟩ => show win2_7.index t (1 : Fin 2) * 32 ≤ (i 1).val ∧ (i 1).val < win2_7.index t (1 : Fin 2) * 32 + 32; omega

theorem flushed2_6_eq (c : Dev nD) (t : Fin cfg2.N) :
    (dat2 (F := Ideal) V c).flushed 6 t = ((cfg2.win 6).blk t).view.read (Elt Ideal)
      (G2_6 (V c (Pipeline.arrRef spec2 0)) (V c (Pipeline.arrRef spec2 1)) (V c (Pipeline.arrRef spec2 2))
          (V c (Pipeline.arrRef spec2 3)) (V c (Pipeline.arrRef spec2 4)) (V c (Pipeline.arrRef spec2 5))) := by
  show (cfg2.win 6).cut (grid2.coords t) ((dat2 V c).after 6 t) = _
  rw [after2_6]
  unfold out2_6
  rw [View.canon_unit_zero hz2]
  simp only [View.ld_unit_zero (S := S5000x16) hz2, View.ld_unit_zero (S := S5000x1) hz2, View.ld_unit_zero (S := S16x32) hz2,
    View.ld_unit_zero (S := S1x32) hz2]
  have hf := idx_facts2 t
  funext j
  obtain ⟨p, q, rfl⟩ : ∃ (p : Fin 5000) (q : Fin 32), j = ix2 p q := ⟨j 0, j 1, eq_ix2 j⟩
  rw [View.read_apply]
  refine pay1_blocks V c t p q _ ?_ ?_
  · show win2_6.index t (0 : Fin 2) * 5000 + 1 * p.val = t.val * 5000 + p.val; omega
  · show win2_6.index t (1 : Fin 2) * 32 + 1 * q.val = q.val; omega

theorem flushed2_7_eq (c : Dev nD) (t : Fin cfg2.N) :
    (dat2 (F := Ideal) V c).flushed 7 t = ((cfg2.win 7).blk t).view.read (Elt Ideal)
      (G2_7 (V c (Pipeline.arrRef spec2 0)) (V c (Pipeline.arrRef spec2 1)) (V c (Pipeline.arrRef spec2 2))
          (V c (Pipeline.arrRef spec2 3)) (V c (Pipeline.arrRef spec2 4)) (V c (Pipeline.arrRef spec2 5))) := by
  show (cfg2.win 7).cut (grid2.coords t) ((dat2 V c).after 7 t) = _
  rw [after2_7]
  unfold out2_7
  rw [View.canon_unit_zero hz2]
  simp only [View.ld_unit_zero (S := S5000x16) hz2, View.ld_unit_zero (S := S5000x1) hz2, View.ld_unit_zero (S := S16x32) hz2,
    View.ld_unit_zero (S := S1x32) hz2]
  have hf := idx_facts2 t
  funext j
  obtain ⟨p, q, rfl⟩ : ∃ (p : Fin 5000) (q : Fin 32), j = ix2 p q := ⟨j 0, j 1, eq_ix2 j⟩
  rw [View.read_apply]
  show k2_pay2 (F := Ideal) _ _ _ _ _ _ (ix2 p q) = max (G2_6 _ _ _ _ _ _ _) 0
  rw [pay2_at]
  refine congrArg (max · 0) (pay1_blocks V c t p q _ ?_ ?_)
  · show win2_7.index t (0 : Fin 2) * 5000 + 1 * p.val = t.val * 5000 + p.val; omega
  · show win2_7.index t (1 : Fin 2) * 32 + 1 * q.val = q.val; omega

theorem final2_6 (c : Dev nD) : (dat2 (F := Ideal) V c).arrAt 6 cfg2.N
    = G2_6 (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5)) :=
  (dat2 (F := Ideal) V c).arrAt_eq_of_cover 6 _ (fun t _ => flushed2_6_eq V c t) cover2_6_arr

theorem final2_7 (c : Dev nD) : (dat2 (F := Ideal) V c).arrAt 7 cfg2.N
    = G2_7 (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5)) :=
  (dat2 (F := Ideal) V c).arrAt_eq_of_cover 7 _ (fun t _ => flushed2_7_eq V c t) cover2_7_arr

end Cert.KernelIdeal.Val

end
-- ==== Proof.KI.V3.lean ====
import proofs.«418024_j36704790511896_3_alg».proof.Proof.KI.R3
import proofs.«418024_j36704790511896_3_alg».proof.Proof.LibPlainDot
import proofs.«418024_j36704790511896_3_alg».proof.Proof.LibRowOps
import Idealize.ShloMosaic.Lib.ValueIdx
import Idealize.ShloMosaic.Lib.ValueLayout
import Idealize.ShloMosaic.Lib.Pipeline.Value
import Idealize.ShloMosaic.PureOps.Ideal.Laws

/-! Region 3 at the ideal values: its output array as one function of its argument arrays. -/

set_option maxRecDepth 16384

noncomputable section

open scoped BigOperators

namespace Cert.KernelIdeal.Val

open Cert.KernelIdeal Cert.KernelIdeal.Gen Cert.KernelIdeal.Reg
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz3 : (![0, 0] : Fin 2 → Nat) = fun _ => 0 := funext fun a => by fin_cases a <;> rfl

def G3_2 (a : S100000x32.Idx → EReal) (b : S32x21.Idx → EReal) : S100000x21.Idx → EReal :=
  fun y => ∑ k : Fin 32, a (ix2 (y 0) k) * b (ix2 k (y 1))

theorem pay3_eq (x0 : Vec Ideal S10000x32 .f32) (x1 : Vec Ideal S32x21 .f32) :
    k3_pay1 x0 x1 = Cert.LibPlainDot.matProd (M := 10000) (K := 32) (N := 21) x0 x1 := by
  unfold k3_pay1
  rw [shapeCast_self]
  exact Cert.LibPlainDot.matmul_zero_eq_matProd dot_S10000x32_S32x21_S10000x21_1_0_0_1_n_n rfl rfl rfl rfl rfl rfl none _ _

theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

theorem iblk3_0_apply (c : Dev nD) (t : Fin cfg3.N) (p : Fin 10000) (k : Fin 32) (i : S100000x32.Idx)
    (h0 : (i 0).val = 10000 * t.val + p.val) (h1 : (i 1).val = k.val) :
    (iblk3 V c 0 t : Vec Ideal S10000x32 .f32) (ix2 p k) = (V c (Pipeline.arrRef spec3 0) : S100000x32.Idx → EReal) i := by
  obtain ⟨e0, e1, -, -, -, -⟩ := idx_facts3 t
  have he : ((cfg3.win 0).blk t).view.emb (ix2 p k : S10000x32.Idx) = i := by
    funext a
    apply Fin.ext
    match a with
    | ⟨0, _⟩ => show win3_0.index t (0 : Fin 2) * 10000 + 1 * p.val = (i 0).val; rw [e0, h0]; omega
    | ⟨1, _⟩ => show win3_0.index t (1 : Fin 2) * 32 + 1 * k.val = (i 1).val; rw [e1, h1]; omega
  unfold iblk3
  rw [View.read_apply]
  exact congrArg (V c (Pipeline.arrRef spec3 0)) he

theorem iblk3_1_apply (c : Dev nD) (t : Fin cfg3.N) (k : Fin 32) (q : Fin 21) :
    (iblk3 V c 1 t : Vec Ideal S32x21 .f32) (ix2 k q) = (V c (Pipeline.arrRef spec3 1) : S32x21.Idx → EReal) (ix2 k q) := by
  obtain ⟨-, -, e2, e3, -, -⟩ := idx_facts3 t
  have he : ((cfg3.win 1).blk t).view.emb (ix2 k q : S32x21.Idx) = (ix2 k q : S32x21.Idx) := by
    funext a
    apply Fin.ext
    match a with
    | ⟨0, _⟩ => show win3_1.index t (0 : Fin 2) * 32 + 1 * k.val = k.val; rw [e2]; omega
    | ⟨1, _⟩ => show win3_1.index t (1 : Fin 2) * 21 + 1 * q.val = q.val; rw [e3]; omega
  unfold iblk3
  rw [View.read_apply]
  exact congrArg (V c (Pipeline.arrRef spec3 1)) he

theorem block_entry3 (x0 : Vec Ideal S10000x32 .f32) (x1 : Vec Ideal S32x21 .f32) (A : S100000x32.Idx → EReal) (B : S32x21.Idx → EReal)
    (p : Fin 10000) (q : Fin 21) (i : S100000x21.Idx)
    (h0 : ∀ k : Fin 32, x0 (ix2 p k) = A (ix2 (i 0) k)) (h1 : ∀ k : Fin 32, x1 (ix2 k q) = B (ix2 k (i 1))) :
    Cert.LibPlainDot.matProd (M := 10000) (K := 32) (N := 21) x0 x1 (ix2 p q) = G3_2 A B i := by
  rw [Cert.LibPlainDot.matProd_ix2]
  unfold G3_2
  exact Finset.sum_congr rfl fun k _ => by rw [h0 k, h1 k]

theorem flushed3_2_eq (c : Dev nD) (t : Fin cfg3.N) :
    (dat3 (F := Ideal) V c).flushed 2 t
      = ((cfg3.win 2).blk t).view.read (Elt Ideal) (G3_2 (V c (Pipeline.arrRef spec3 0)) (V c (Pipeline.arrRef spec3 1))) := by
  show (cfg3.win 2).cut (grid3.coords t) ((dat3 V c).after 2 t) = _
  rw [after3_2]
  unfold out3_2
  rw [View.canon_unit_zero hz3]
  simp only [View.ld_unit_zero (S := S10000x32) hz3, View.ld_unit_zero (S := S32x21) hz3]
  rw [pay3_eq]
  obtain ⟨-, -, -, -, e4, e5⟩ := idx_facts3 t
  funext j
  obtain ⟨p, q, rfl⟩ : ∃ (p : Fin 10000) (q : Fin 21), j = ix2 p q := ⟨j 0, j 1, eq_ix2 j⟩
  have hr : ((((cfg3.win 2).blk t).view.emb (ix2 p q : S10000x21.Idx)) 0).val = 10000 * t.val + p.val := by
    show win3_2.index t (0 : Fin 2) * 10000 + 1 * p.val = _; rw [e4]; omega
  have hq : ((((cfg3.win 2).blk t).view.emb (ix2 p q : S10000x21.Idx)) 1).val = q.val := by
    show win3_2.index t (1 : Fin 2) * 21 + 1 * q.val = _; rw [e5]; omega
  refine block_entry3 (iblk3 V c 0 t) (iblk3 V c 1 t) (V c (Pipeline.arrRef spec3 0)) (V c (Pipeline.arrRef spec3 1)) p q
    (((cfg3.win 2).blk t).view.emb (ix2 p q : S10000x21.Idx)) (fun k => ?_) (fun k => ?_)
  · exact iblk3_0_apply V c t p k _ hr rfl
  · refine (iblk3_1_apply V c t k q).trans (congrArg (V c (Pipeline.arrRef spec3 1)) ?_)
    funext a
    apply Fin.ext
    match a with
    | ⟨0, _⟩ => rfl
    | ⟨1, _⟩ => exact hq.symm

theorem mem_blk3_2 (t : Fin cfg3.N) (i : S100000x21.Idx) :
    i ∈ ((cfg3.win 2).blk t).view.set ↔ ∀ a : Fin 2, win3_2.index t a * S10000x21.size a ≤ (i a).val ∧ (i a).val < win3_2.index t a * S10000x21.size a + S10000x21.size a := by
  show i ∈ ((View.whole main_v38).slice (win3_2.rect t)).set ↔ _
  rw [View.set_slice_whole, Rect.mem_set_unit]
  exact Iff.rfl

theorem cover3_2_arr (i : S100000x21.Idx) :
    ∃ t : Fin cfg3.N, (cfg3.win 2).flush t = true ∧ i ∈ ((cfg3.win 2).blk t).view.set := by
  have hi0 : (i 0).val < 100000 := (i 0).isLt
  have hi1 : (i 1).val < 21 := (i 1).isLt
  have hN : cfg3.N = 10 := N_3
  let t : Fin cfg3.N := ⟨(i 0).val / 10000, by rw [hN]; omega⟩
  have ht : t.val = (i 0).val / 10000 := rfl
  obtain ⟨-, -, -, -, e4, e5⟩ := idx_facts3 t
  refine ⟨t, flush3_2 t, ?_⟩
  rw [mem_blk3_2]
  intro a
  match a with
  | ⟨0, _⟩ => show win3_2.index t (0 : Fin 2) * 10000 ≤ (i 0).val ∧ (i 0).val < win3_2.index t (0 : Fin 2) * 10000 + 10000; rw [e4, ht]; omega
  | ⟨1, _⟩ => show win3_2.index t (1 : Fin 2) * 21 ≤ (i 1).val ∧ (i 1).val < win3_2.index t (1 : Fin 2) * 21 + 21; rw [e5]; omega

theorem final3_2 (c : Dev nD) :
    (dat3 (F := Ideal) V c).arrAt 2 cfg3.N = G3_2 (V c (Pipeline.arrRef spec3 0)) (V c (Pipeline.arrRef spec3 1)) :=
  (dat3 (F := Ideal) V c).arrAt_eq_of_cover 2 (G3_2 (V c (Pipeline.arrRef spec3 0)) (V c (Pipeline.arrRef spec3 1)))
    (fun t _ => flushed3_2_eq V c t) cover3_2_arr

end Cert.KernelIdeal.Val

end
-- ==== Proof.KI.V4.lean ====
import proofs.«418024_j36704790511896_3_alg».proof.Proof.KI.R4
import proofs.«418024_j36704790511896_3_alg».proof.Proof.LibPlainDot
import proofs.«418024_j36704790511896_3_alg».proof.Proof.LibRowOps
import Idealize.ShloMosaic.Lib.ValueIdx
import Idealize.ShloMosaic.Lib.ValueLayout
import Idealize.ShloMosaic.Lib.Pipeline.Value
import Idealize.ShloMosaic.PureOps.Ideal.Laws

/-! Region 4 at the ideal values: its output array as one function of its argument arrays. -/

set_option maxRecDepth 16384

noncomputable section

open scoped BigOperators

namespace Cert.KernelIdeal.Val

open Cert.KernelIdeal Cert.KernelIdeal.Gen Cert.KernelIdeal.Reg
open Idealize.ShloMosaic Idealize.ShloMosaic.TcCoe Idealize.SL.Sem Idealize.ShloMosaic.ValueIdx
open Idealize.ShloMosaic.Pipeline (Dat)

def combine4 (s : S100000x21.Idx → EReal) (a : S100000x32.Idx → EReal) (d : S100000x1.Idx → EReal)
    (W : S32x21.Idx → EReal) (b : S1x21.Idx → EReal) : S100000x21.Idx → EReal :=
  fun y => (∑ k : Fin 32, a (ix2 (y 0) k) * W (ix2 k (y 1))) + s y * d (ix2 (y 0) (0 : Fin 1)) + b (ix2 (0 : Fin 1) (y 1))

theorem broadcastTo_row4 {R C : Nat} {α : Type} (g : (⟨2, ![1, C]⟩ : Shape).Idx → α) (h : (⟨2, ![1, C]⟩ : Shape).Broadcasts ⟨2, ![R, C]⟩)
    (p : Fin R) (q : Fin C) : broadcastTo ⟨2, ![R, C]⟩ g h (ix2 p q) = g (ix2 (0 : Fin 1) q) := by
  refine broadcastTo_apply g h (ix2 p q) (ix2 (0 : Fin 1) q) fun ax => ?_
  match ax with
  | ⟨0, _⟩ => rfl
  | ⟨1, _⟩ =>
    show q.val = if C = 1 then 0 else q.val
    split
    · have := q.isLt; omega
    · rfl

theorem pay4_apply (x0 : Vec Ideal S5000x21 .f32) (x2 : Vec Ideal S5000x1 .f32) (x6 : Vec Ideal S5000x32 .f32) (x9 : Vec Ideal S32x21 .f32) (x13 : Vec Ideal S1x21 .f32)
    (p : Fin 5000) (q : Fin 21) :
    k4_pay1 x0 x2 x6 x9 x13 (ix2 p q)
      = (∑ k : Fin 32, x6 (ix2 p k) * x9 (ix2 k q)) + x0 (ix2 p q) * x2 (ix2 p (0 : Fin 1)) + x13 (ix2 (0 : Fin 1) q) := by
  unfold k4_pay1
  simp only [Idealize.ShloMosaic.matmul, addf_apply, mulf_apply, shapeCast_self, Cert.LibRowOps.broadcastTo_col, broadcastTo_row4]
  rw [Cert.LibPlainDot.matmul_zero_eq_matProd (M := 5000) (K := 32) (N := 21) dot_S5000x32_S32x21_S5000x21_1_0_0_1_n_n rfl rfl rfl rfl rfl rfl,
    Cert.LibPlainDot.matProd_ix2]
  simp only [truncf_apply]

theorem pay4_at (x0 : Vec Ideal S5000x21 .f32) (x2 : Vec Ideal S5000x1 .f32) (x6 : Vec Ideal S5000x32 .f32) (x9 : Vec Ideal S32x21 .f32) (x13 : Vec Ideal S1x21 .f32)
    (j : S5000x21.Idx) :
    k4_pay1 x0 x2 x6 x9 x13 j
      = (∑ k : Fin 32, x6 (ix2 (j 0) k) * x9 (ix2 k (j 1))) + x0 j * x2 (ix2 (j 0) (0 : Fin 1)) + x13 (ix2 (0 : Fin 1) (j 1)) := by
  obtain ⟨p, q, rfl⟩ : ∃ (p : Fin 5000) (q : Fin 21), j = ix2 p q := ⟨j 0, j 1, eq_ix2 j⟩
  exact pay4_apply x0 x2 x6 x9 x13 p q

theorem block4_eq (s : S100000x21.Idx → EReal) (a : S100000x32.Idx → EReal) (d : S100000x1.Idx → EReal) (W : S32x21.Idx → EReal) (b : S1x21.Idx → EReal)
    (x0 : Vec Ideal S5000x21 .f32) (x1 : Vec Ideal S5000x32 .f32) (x2 : Vec Ideal S5000x1 .f32) (x3 : Vec Ideal S32x21 .f32) (x4 : Vec Ideal S1x21 .f32)
    (j : S5000x21.Idx) (i : S100000x21.Idx)
    (h0 : x0 j = s i)
    (h1 : ∀ k : Fin 32, x1 (ix2 (j 0) k) = a (ix2 (i 0) k))
    (h2 : x2 (ix2 (j 0) (0 : Fin 1)) = d (ix2 (i 0) (0 : Fin 1)))
    (h3 : ∀ k : Fin 32, x3 (ix2 k (j 1)) = W (ix2 k (i 1)))
    (h4 : x4 (ix2 (0 : Fin 1) (j 1)) = b (ix2 (0 : Fin 1) (i 1))) :
    k4_pay1 x0 x2 x1 x3 x4 j = combine4 s a d W b i := by
  rw [pay4_at]
  unfold combine4
  rw [h0, h2, h4]
  simp only [h1, h3]

variable (V : (c : Dev nD) → (b : Ref sig .tc) → Buf (Elt Ideal) ((c : Thread nD τ).loc b))

theorem hz4 : (![0, 0] : Fin 2 → Nat) = fun _ => 0 := funext fun a => by fin_cases a <;> rfl

theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

theorem iblk4_0_at (c : Dev nD) (t : Fin cfg4.N) (x : S5000x21.Idx) (i : S100000x21.Idx)
    (h0 : (i 0).val = 5000 * t.val + (x 0).val) (h1 : (i 1).val = (x 1).val) :
    (iblk4 V c 0 t : Vec Ideal S5000x21 .f32) x = (V c (Pipeline.arrRef spec4 0) : S100000x21.Idx → Elt Ideal .f32) i := by
  obtain ⟨e00, e01, e10, e11, e20, e21, e30, e31, e40, e41, e50, e51⟩ := idx_facts4 t
  unfold iblk4
  rw [View.read_apply]
  refine congrArg (V c (Pipeline.arrRef spec4 0)) (funext fun a => Fin.ext ?_)
  match a with
  | ⟨0, _⟩ => show win4_0.index t (0 : Fin 2) * 5000 + 1 * (x 0).val = (i 0).val; omega
  | ⟨1, _⟩ => show win4_0.index t (1 : Fin 2) * 21 + 1 * (x 1).val = (i 1).val; omega

theorem iblk4_1_at (c : Dev nD) (t : Fin cfg4.N) (x : S5000x32.Idx) (i : S100000x32.Idx)
    (h0 : (i 0).val = 5000 * t.val + (x 0).val) (h1 : (i 1).val = (x 1).val) :
    (iblk4 V c 1 t : Vec Ideal S5000x32 .f32) x = (V c (Pipeline.arrRef spec4 1) : S100000x32.Idx → Elt Ideal .f32) i := by
  obtain ⟨e00, e01, e10, e11, e20, e21, e30, e31, e40, e41, e50, e51⟩ := idx_facts4 t
  unfold iblk4
  rw [View.read_apply]
  refine congrArg (V c (Pipeline.arrRef spec4 1)) (funext fun a => Fin.ext ?_)
  match a with
  | ⟨0, _⟩ => show win4_1.index t (0 : Fin 2) * 5000 + 1 * (x 0).val = (i 0).val; omega
  | ⟨1, _⟩ => show win4_1.index t (1 : Fin 2) * 32 + 1 * (x 1).val = (i 1).val; omega

theorem iblk4_2_at (c : Dev nD) (t : Fin cfg4.N) (x : S5000x1.Idx) (i : S100000x1.Idx)
    (h0 : (i 0).val = 5000 * t.val + (x 0).val) (h1 : (i 1).val = (x 1).val) :
    (iblk4 V c 2 t : Vec Ideal S5000x1 .f32) x = (V c (Pipeline.arrRef spec4 2) : S100000x1.Idx → Elt Ideal .f32) i := by
  obtain ⟨e00, e01, e10, e11, e20, e21, e30, e31, e40, e41, e50, e51⟩ := idx_facts4 t
  unfold iblk4
  rw [View.read_apply]
  refine congrArg (V c (Pipeline.arrRef spec4 2)) (funext fun a => Fin.ext ?_)
  match a with
  | ⟨0, _⟩ => show win4_2.index t (0 : Fin 2) * 5000 + 1 * (x 0).val = (i 0).val; omega
  | ⟨1, _⟩ => show win4_2.index t (1 : Fin 2) * 1 + 1 * (x 1).val = (i 1).val; omega

theorem iblk4_3_at (c : Dev nD) (t : Fin cfg4.N) (x : S32x21.Idx) :
    (iblk4 V c 3 t : Vec Ideal S32x21 .f32) x = (V c (Pipeline.arrRef spec4 3) : S32x21.Idx → Elt Ideal .f32) x := by
  obtain ⟨e00, e01, e10, e11, e20, e21, e30, e31, e40, e41, e50, e51⟩ := idx_facts4 t
  unfold iblk4
  rw [View.read_apply]
  refine congrArg (V c (Pipeline.arrRef spec4 3)) (funext fun a => Fin.ext ?_)
  match a with
  | ⟨0, _⟩ => show win4_3.index t (0 : Fin 2) * 32 + 1 * (x 0).val = (x 0).val; omega
  | ⟨1, _⟩ => show win4_3.index t (1 : Fin 2) * 21 + 1 * (x 1).val = (x 1).val; omega

theorem iblk4_4_at (c : Dev nD) (t : Fin cfg4.N) (x : S1x21.Idx) :
    (iblk4 V c 4 t : Vec Ideal S1x21 .f32) x = (V c (Pipeline.arrRef spec4 4) : S1x21.Idx → Elt Ideal .f32) x := by
  obtain ⟨e00, e01, e10, e11, e20, e21, e30, e31, e40, e41, e50, e51⟩ := idx_facts4 t
  unfold iblk4
  rw [View.read_apply]
  refine congrArg (V c (Pipeline.arrRef spec4 4)) (funext fun a => Fin.ext ?_)
  match a with
  | ⟨0, _⟩ => show win4_4.index t (0 : Fin 2) * 1 + 1 * (x 0).val = (x 0).val; omega
  | ⟨1, _⟩ => show win4_4.index t (1 : Fin 2) * 21 + 1 * (x 1).val = (x 1).val; omega

theorem flushed4_5_eq (c : Dev nD) (t : Fin cfg4.N) :
    (dat4 (F := Ideal) V c).flushed 5 t = ((cfg4.win 5).blk t).view.read (Elt Ideal)
      (combine4 (V c (Pipeline.arrRef spec4 0)) (V c (Pipeline.arrRef spec4 1)) (V c (Pipeline.arrRef spec4 2)) (V c (Pipeline.arrRef spec4 3)) (V c (Pipeline.arrRef spec4 4))) := by
  show (cfg4.win 5).cut (grid4.coords t) ((dat4 V c).after 5 t) = _
  rw [after4_5]
  unfold out4_5
  rw [View.canon_unit_zero hz4]
  simp only [View.ld_unit_zero (S := S5000x21) hz4, View.ld_unit_zero (S := S5000x32) hz4, View.ld_unit_zero (S := S5000x1) hz4, View.ld_unit_zero (S := S32x21) hz4, View.ld_unit_zero (S := S1x21) hz4]
  obtain ⟨e00, e01, e10, e11, e20, e21, e30, e31, e40, e41, e50, e51⟩ := idx_facts4 t
  funext j
  show k4_pay1 (iblk4 V c 0 t) (iblk4 V c 2 t) (iblk4 V c 1 t) (iblk4 V c 3 t) (iblk4 V c 4 t) j
    = combine4 (V c (Pipeline.arrRef spec4 0)) (V c (Pipeline.arrRef spec4 1)) (V c (Pipeline.arrRef spec4 2)) (V c (Pipeline.arrRef spec4 3)) (V c (Pipeline.arrRef spec4 4)) (((cfg4.win 5).blk t).view.emb j)
  have hi0 : ((((cfg4.win 5).blk t).view.emb j) 0).val = 5000 * t.val + (j 0).val := by
    show win4_5.index t (0 : Fin 2) * 5000 + 1 * (j 0).val = _; omega
  have hi1 : ((((cfg4.win 5).blk t).view.emb j) 1).val = (j 1).val := by
    show win4_5.index t (1 : Fin 2) * 21 + 1 * (j 1).val = _; omega
  refine block4_eq _ _ _ _ _ _ _ _ _ _ j _ ?_ ?_ ?_ ?_ ?_
  · exact iblk4_0_at V c t j _ hi0 hi1
  · intro k; exact iblk4_1_at V c t _ _ hi0 rfl
  · exact iblk4_2_at V c t _ _ hi0 rfl
  · intro k; exact (iblk4_3_at V c t _).trans (congrArg _ (funext fun a => Fin.ext (by match a with | ⟨0, _⟩ => rfl | ⟨1, _⟩ => exact hi1.symm)))
  · exact (iblk4_4_at V c t _).trans (congrArg _ (funext fun a => Fin.ext (by match a with | ⟨0, _⟩ => rfl | ⟨1, _⟩ => exact hi1.symm)))

theorem mem_blk4_5 (t : Fin cfg4.N) (i : S100000x21.Idx) :
    i ∈ ((cfg4.win 5).blk t).view.set ↔ ∀ a : Fin 2, win4_5.index t a * S5000x21.size a ≤ (i a).val ∧ (i a).val < win4_5.index t a * S5000x21.size a + S5000x21.size a := by
  show i ∈ ((View.whole main_v50).slice (win4_5.rect t)).set ↔ _
  rw [View.set_slice_whole, Rect.mem_set_unit]
  exact Iff.rfl

theorem covered4_5 (i : S100000x21.Idx) :
    ∃ t : Fin cfg4.N, (cfg4.win 5).flush t = true ∧ i ∈ ((cfg4.win 5).blk t).view.set := by
  have hi0 : (i 0).val < 100000 := (i 0).isLt
  have hi1 : (i 1).val < 21 := (i 1).isLt
  have hN : cfg4.N = 20 := N_4
  have ht : (i 0).val / 5000 < cfg4.N := by rw [hN]; omega
  obtain ⟨e00, e01, e10, e11, e20, e21, e30, e31, e40, e41, e50, e51⟩ := idx_facts4 ⟨(i 0).val / 5000, ht⟩
  refine ⟨⟨(i 0).val / 5000, ht⟩, flush4_5 _, ?_⟩
  rw [mem_blk4_5]
  intro a
  match a with
  | ⟨0, _⟩ =>
    show win4_5.index ⟨(i 0).val / 5000, ht⟩ (0 : Fin 2) * 5000 ≤ (i 0).val ∧ (i 0).val < win4_5.index ⟨(i 0).val / 5000, ht⟩ (0 : Fin 2) * 5000 + 5000
    rw [e50]
    show (i 0).val / 5000 * 5000 ≤ (i 0).val ∧ (i 0).val < (i 0).val / 5000 * 5000 + 5000
    omega
  | ⟨1, _⟩ =>
    show win4_5.index ⟨(i 0).val / 5000, ht⟩ (1 : Fin 2) * 21 ≤ (i 1).val ∧ (i 1).val < win4_5.index ⟨(i 0).val / 5000, ht⟩ (1 : Fin 2) * 21 + 21
    omega

theorem final4_5 (c : Dev nD) :
    (dat4 (F := Ideal) V c).arrAt 5 cfg4.N
      = combine4 (V c (Pipeline.arrRef spec4 0)) (V c (Pipeline.arrRef spec4 1)) (V c (Pipeline.arrRef spec4 2)) (V c (Pipeline.arrRef spec4 3)) (V c (Pipeline.arrRef spec4 4)) :=
  (dat4 V c).arrAt_eq_of_cover 5 _ (fun t _ => flushed4_5_eq V c t) covered4_5

end Cert.KernelIdeal.Val

end
-- ==== Proof.LibIdxSums.lean ====
import Idealize.ShloMosaic.Lib.ValueIdx
import Idealize.ShloMosaic.Lib.Pipeline.Value
import Mathlib.Algebra.BigOperators.Fin
import Mathlib.Logic.Equiv.Fin.Basic

/-! Finite sums over index types: a product of ranges, a rank-1 array, a concatenation. -/

noncomputable section

namespace Cert.IdxSums

open Idealize.ShloMosaic Idealize.ShloMosaic.ValueIdx

theorem sum_fin_mul {M : Type*} [AddCommMonoid M] (m n : ℕ) (f : Fin (m * n) → M) :
    ∑ i, f i = ∑ a : Fin m, ∑ b : Fin n,
      f ⟨a.val * n + b.val, by
        have ha := a.isLt; have hb := b.isLt
        calc a.val * n + b.val < a.val * n + n := by omega
          _ = (a.val + 1) * n := by rw [Nat.add_mul, Nat.one_mul]
          _ ≤ m * n := Nat.mul_le_mul_right n ha⟩ := by
  rw [← Equiv.sum_comp finProdFinEquiv f, Fintype.sum_prod_type]
  refine Finset.sum_congr rfl fun a _ => Finset.sum_congr rfl fun b _ => congrArg f (Fin.ext ?_)
  show b.val + n * a.val = a.val * n + b.val
  rw [Nat.mul_comm, Nat.add_comm]

def idxEquiv1 {n : Nat} : (⟨1, ![n]⟩ : Shape).Idx ≃ Fin n where
  toFun i := i 0
  invFun k := ix1 k
  left_inv i := (eq_ix1 i).symm
  right_inv _ := rfl

theorem sum_idx1 {M : Type*} [AddCommMonoid M] {n : Nat} (f : (⟨1, ![n]⟩ : Shape).Idx → M) :
    ∑ i, f i = ∑ k : Fin n, f (ix1 k) := by
  rw [← Equiv.sum_comp (idxEquiv1 (n := n)).symm f]
  rfl

def idxEquiv3u {n : Nat} : (⟨3, ![n, 1, 1]⟩ : Shape).Idx ≃ Fin n where
  toFun i := i 0
  invFun q := ix3 q (0 : Fin 1) (0 : Fin 1)
  left_inv i := by
    funext a
    match a with
    | ⟨0, _⟩ => rfl
    | ⟨1, _⟩ => exact (Subsingleton.elim (α := Fin 1) _ _)
    | ⟨2, _⟩ => exact (Subsingleton.elim (α := Fin 1) _ _)
  right_inv _ := rfl

theorem sum_idx3u {M : Type*} [AddCommMonoid M] {n : Nat} (f : (⟨3, ![n, 1, 1]⟩ : Shape).Idx → M) :
    ∑ i, f i = ∑ q : Fin n, f (ix3 q (0 : Fin 1) (0 : Fin 1)) := by
  rw [← Equiv.sum_comp (idxEquiv3u (n := n)).symm f]
  rfl

theorem sum_concat3 {M : Type} [AddCommMonoid M] (n1 n2 n3 : Nat)
    (u : (⟨1, ![n1]⟩ : Shape).Idx → M) (v : (⟨1, ![n2]⟩ : Shape).Idx → M) (w : (⟨1, ![n3]⟩ : Shape).Idx → M)
    (h : Shape.Concatenates [(⟨1, ![n1]⟩ : Shape), ⟨1, ![n2]⟩, ⟨1, ![n3]⟩] ⟨1, ![n1 + n2 + n3]⟩ 0) :
    ∑ j : (⟨1, ![n1 + n2 + n3]⟩ : Shape).Idx,
        concatenate (⟨1, ![n1 + n2 + n3]⟩ : Shape) 0 [⟨(⟨1, ![n1]⟩ : Shape), u⟩, ⟨(⟨1, ![n2]⟩ : Shape), v⟩, ⟨(⟨1, ![n3]⟩ : Shape), w⟩] h j
      = ∑ i, u i + ∑ i, v i + ∑ i, w i := by
  rw [sum_idx1, sum_idx1 u, sum_idx1 v, sum_idx1 w, Fin.sum_univ_add, Fin.sum_univ_add]
  refine congrArg₂ (· + ·) (congrArg₂ (· + ·) ?_ ?_) ?_
  · refine Finset.sum_congr rfl fun k _ => ?_
    exact concatenate_apply_piece (t := (⟨1, ![n1 + n2 + n3]⟩ : Shape)) (0 : Fin 1)
      [⟨(⟨1, ![n1]⟩ : Shape), u⟩, ⟨(⟨1, ![n2]⟩ : Shape), v⟩, ⟨(⟨1, ![n3]⟩ : Shape), w⟩] h
      (ix1 (Fin.castAdd n3 (Fin.castAdd n2 k))) 0 (by simp) (⟨1, ![n1]⟩ : Shape) u rfl rfl 0 rfl (ix1 k)
      (fun b hb => absurd (Subsingleton.elim (α := Fin 1) _ _) hb) (Nat.zero_add _)
  · refine Finset.sum_congr rfl fun k _ => ?_
    exact concatenate_apply_piece (t := (⟨1, ![n1 + n2 + n3]⟩ : Shape)) (0 : Fin 1)
      [⟨(⟨1, ![n1]⟩ : Shape), u⟩, ⟨(⟨1, ![n2]⟩ : Shape), v⟩, ⟨(⟨1, ![n3]⟩ : Shape), w⟩] h
      (ix1 (Fin.castAdd n3 (Fin.natAdd n1 k))) 1 (by simp) (⟨1, ![n2]⟩ : Shape) v rfl rfl n1 (by simp) (ix1 k)
      (fun b hb => absurd (Subsingleton.elim (α := Fin 1) _ _) hb) rfl
  · refine Finset.sum_congr rfl fun k _ => ?_
    exact concatenate_apply_piece (t := (⟨1, ![n1 + n2 + n3]⟩ : Shape)) (0 : Fin 1)
      [⟨(⟨1, ![n1]⟩ : Shape), u⟩, ⟨(⟨1, ![n2]⟩ : Shape), v⟩, ⟨(⟨1, ![n3]⟩ : Shape), w⟩] h
      (ix1 (Fin.natAdd (n1 + n2) k)) 2 (by simp) (⟨1, ![n3]⟩ : Shape) w rfl rfl (n1 + n2) (by simp) (ix1 k)
      (fun b hb => absurd (Subsingleton.elim (α := Fin 1) _ _) hb) rfl

end Cert.IdxSums

end
-- ==== Proof.KI.V5.lean ====
import proofs.«418024_j36704790511896_3_alg».proof.Proof.KI.R5
import proofs.«418024_j36704790511896_3_alg».proof.Proof.LibPlainDot
import proofs.«418024_j36704790511896_3_alg».proof.Proof.LibIdxSums
import Idealize.ShloMosaic.Lib.Pipeline.Value
import Idealize.ShloMosaic.Lib.ValueIdx
import Idealize.ShloMosaic.Lib.ValueIdxCoords
import Idealize.ShloMosaic.PureOps.Ideal.Laws
import Idealize.ShloMosaic.Lib.IdealHost
import Idealize.ShloMosaic.Lib.Tactic

/-! Region 5 at the ideal values: its output array as one function of its argument arrays. -/

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Val

open Cert.KernelIdeal Cert.KernelIdeal.Gen Cert.KernelIdeal.Reg

section Pieces
variable {F : FTy → Type} [FloatOps F]

theorem hz : (![0, 0] : Fin 2 → Nat) = fun _ => 0 := funext fun a => by fin_cases a <;> rfl

theorem soutA_eq (c : Dev nD) (i : grid5.Coords) (arg1 : Memref sig .tc .vmem S10000x1 .i32) (harg1 : arg1.IsWhole) (arg2 : Memref sig .tc .vmem S10000x32 .f32) (harg2 : arg2.IsWhole) (arg3 : Memref sig .tc .vmem S64x1 .f32) (harg3 : arg3.IsWhole) (arg4 : Memref sig .tc .vmem S32x10 .f32) (harg4 : arg4.IsWhole) (arg5 : Memref sig .tc .vmem S1x10 .f32) (harg5 : arg5.IsWhole) (arg6 : Memref sig .tc .vmem S64x10 .f32) (harg6 : arg6.IsWhole) (arg7 : Memref sig .tc .vmem S64x32 .f32) (harg7 : arg7.IsWhole) (hc0 : cond5_0 i) (hc1 : ¬cond5_1 i)
    (x0 : Vec F S10000x1 .i32) (x1 : Vec F S10000x32 .f32) (x2 : Vec F S64x1 .f32) (x3 : Vec F S32x10 .f32) (x4 : Vec F S1x10 .f32) :
    sout5_A_0 c i arg1 harg1 arg2 harg2 arg3 harg3 arg4 harg4 arg5 harg5 arg6 harg6 arg7 harg7 hc0 hc1 x0 x1 x2 x3 x4 = k5_pay2 x0 x1 (k5_pay1 (F := F)) := by
  unfold sout5_A_0
  rw [View.read_writes_eq_canon _ _ _ (scover5_A_0 c i arg1 harg1 arg2 harg2 arg3 harg3 arg4 harg4 arg5 harg5 arg6 harg6 arg7 harg7 hc0 hc1 x0 x1 x2 x3 x4)]
  unfold kernelRun5_A
  dsimp only
  try sl_unfold_words
  rw [View.canon_cons_unit_zero (S := S64x32) hz, View.readCov_unit_zero (S := S64x32) _ hz]
  simp only [View.readAt_eq_ld, harg1.read_unread, harg2.read_unread, View.ld_unit_zero (S := S10000x1) hz, View.ld_unit_zero (S := S10000x32) hz]

theorem soutB_eq (c : Dev nD) (i : grid5.Coords) (arg1 : Memref sig .tc .vmem S10000x1 .i32) (harg1 : arg1.IsWhole) (arg2 : Memref sig .tc .vmem S10000x32 .f32) (harg2 : arg2.IsWhole) (arg3 : Memref sig .tc .vmem S64x1 .f32) (harg3 : arg3.IsWhole) (arg4 : Memref sig .tc .vmem S32x10 .f32) (harg4 : arg4.IsWhole) (arg5 : Memref sig .tc .vmem S1x10 .f32) (harg5 : arg5.IsWhole) (arg6 : Memref sig .tc .vmem S64x10 .f32) (harg6 : arg6.IsWhole) (arg7 : Memref sig .tc .vmem S64x32 .f32) (harg7 : arg7.IsWhole) (hc0 : ¬cond5_0 i) (hc1 : ¬cond5_1 i)
    (x0 : Vec F S10000x1 .i32) (x1 : Vec F S10000x32 .f32) (x2 : Vec F S64x1 .f32) (x3 : Vec F S32x10 .f32) (x4 : Vec F S1x10 .f32) (xs0 : Vec F S64x32 .f32) :
    sout5_B_0 c i arg1 harg1 arg2 harg2 arg3 harg3 arg4 harg4 arg5 harg5 arg6 harg6 arg7 harg7 hc0 hc1 x0 x1 x2 x3 x4 xs0 = k5_pay2 x0 x1 xs0 := by
  unfold sout5_B_0
  rw [View.read_writes_eq_canon _ _ _ (scover5_B_0 c i arg1 harg1 arg2 harg2 arg3 harg3 arg4 harg4 arg5 harg5 arg6 harg6 arg7 harg7 hc0 hc1 x0 x1 x2 x3 x4 xs0)]
  unfold kernelRun5_B
  dsimp only
  try sl_unfold_words
  rw [View.canon_unit_zero (S := S64x32) hz]
  simp only [View.readAt_eq_ld, harg1.read_unread, harg2.read_unread, harg7.read_unread, View.ld_unit_zero (S := S10000x1) hz, View.ld_unit_zero (S := S10000x32) hz, View.ld_unit_zero (S := S64x32) hz]

theorem soutC_eq (c : Dev nD) (i : grid5.Coords) (arg1 : Memref sig .tc .vmem S10000x1 .i32) (harg1 : arg1.IsWhole) (arg2 : Memref sig .tc .vmem S10000x32 .f32) (harg2 : arg2.IsWhole) (arg3 : Memref sig .tc .vmem S64x1 .f32) (harg3 : arg3.IsWhole) (arg4 : Memref sig .tc .vmem S32x10 .f32) (harg4 : arg4.IsWhole) (arg5 : Memref sig .tc .vmem S1x10 .f32) (harg5 : arg5.IsWhole) (arg6 : Memref sig .tc .vmem S64x10 .f32) (harg6 : arg6.IsWhole) (arg7 : Memref sig .tc .vmem S64x32 .f32) (harg7 : arg7.IsWhole) (hc0 : ¬cond5_0 i) (hc1 : cond5_1 i)
    (x0 : Vec F S10000x1 .i32) (x1 : Vec F S10000x32 .f32) (x2 : Vec F S64x1 .f32) (x3 : Vec F S32x10 .f32) (x4 : Vec F S1x10 .f32) (xs0 : Vec F S64x32 .f32) :
    sout5_C_0 c i arg1 harg1 arg2 harg2 arg3 harg3 arg4 harg4 arg5 harg5 arg6 harg6 arg7 harg7 hc0 hc1 x0 x1 x2 x3 x4 xs0 = k5_pay2 x0 x1 xs0 := by
  unfold sout5_C_0
  rw [View.read_writes_eq_canon _ _ _ (scover5_C_0 c i arg1 harg1 arg2 harg2 arg3 harg3 arg4 harg4 arg5 harg5 arg6 harg6 arg7 harg7 hc0 hc1 x0 x1 x2 x3 x4 xs0)]
  unfold kernelRun5_C
  dsimp only
  try sl_unfold_words
  rw [View.canon_unit_zero (S := S64x32) hz]
  simp only [View.readAt_eq_ld, harg1.read_unread, harg2.read_unread, harg7.read_unread, View.ld_unit_zero (S := S10000x1) hz, View.ld_unit_zero (S := S10000x32) hz, View.ld_unit_zero (S := S64x32) hz]

theorem outC_eq (c : Dev nD) (i : grid5.Coords) (arg1 : Memref sig .tc .vmem S10000x1 .i32) (harg1 : arg1.IsWhole) (arg2 : Memref sig .tc .vmem S10000x32 .f32) (harg2 : arg2.IsWhole) (arg3 : Memref sig .tc .vmem S64x1 .f32) (harg3 : arg3.IsWhole) (arg4 : Memref sig .tc .vmem S32x10 .f32) (harg4 : arg4.IsWhole) (arg5 : Memref sig .tc .vmem S1x10 .f32) (harg5 : arg5.IsWhole) (arg6 : Memref sig .tc .vmem S64x10 .f32) (harg6 : arg6.IsWhole) (arg7 : Memref sig .tc .vmem S64x32 .f32) (harg7 : arg7.IsWhole) (hc0 : ¬cond5_0 i) (hc1 : cond5_1 i)
    (x0 : Vec F S10000x1 .i32) (x1 : Vec F S10000x32 .f32) (x2 : Vec F S64x1 .f32) (x3 : Vec F S32x10 .f32) (x4 : Vec F S1x10 .f32) (xs0 : Vec F S64x32 .f32) :
    out5_C_5 c i arg1 harg1 arg2 harg2 arg3 harg3 arg4 harg4 arg5 harg5 arg6 harg6 arg7 harg7 hc0 hc1 x0 x1 x2 x3 x4 xs0 = k5_pay3 (k5_pay2 x0 x1 xs0) x2 x3 x4 := by
  unfold out5_C_5
  rw [View.read_writes_eq_canon _ _ _ (cover5_C_5 c i arg1 harg1 arg2 harg2 arg3 harg3 arg4 harg4 arg5 harg5 arg6 harg6 arg7 harg7 hc0 hc1 x0 x1 x2 x3 x4 xs0)]
  unfold kernelRun5_C
  dsimp only
  try sl_unfold_words
  rw [View.canon_unit_zero (S := S64x10) hz, View.readCov_unit_zero (S := S64x32) _ hz]
  simp only [View.readAt_eq_ld, harg1.read_unread, harg2.read_unread, harg3.read_unread, harg4.read_unread, harg5.read_unread, harg7.read_unread, View.ld_unit_zero (S := S10000x1) hz, View.ld_unit_zero (S := S10000x32) hz, View.ld_unit_zero (S := S64x32) hz, View.ld_unit_zero (S := S64x1) hz, View.ld_unit_zero (S := S32x10) hz, View.ld_unit_zero (S := S1x10) hz]

end Pieces

section Payloads

def oh (b : BitVec 32) (g : Fin 64) : EReal := if b.toInt = (g.val : ℤ) then 1 else 0

theorem toInt_ofNat_graph (g : Fin 64) : (BitVec.ofNat 32 g.val).toInt = (g.val : ℤ) := by
  have hg := g.isLt
  have e := BitVec.toInt_eq_toNat_cond (BitVec.ofNat 32 g.val)
  rw [BitVec.toNat_ofNat, Nat.mod_eq_of_lt (by omega), if_pos (by omega)] at e
  exact e

theorem eq_ofNat_iff (b : BitVec 32) (g : Fin 64) : b = BitVec.ofNat 32 g.val ↔ b.toInt = (g.val : ℤ) := by
  constructor
  · rintro rfl
    exact toInt_ofNat_graph g
  · intro h
    exact BitVec.eq_of_toInt_eq (h.trans (toInt_ofNat_graph g).symm)

theorem pay5a_apply (j : S64x32.Idx) : k5_pay1 (F := Ideal) j = 0 := by
  unfold k5_pay1
  show (Ideal.ofBits .f32 0x00000000#32 : EReal) = 0
  exact Ideal.ofBits_zero_f32

section Rows
variable {M K N : Nat} (D : DotDims ⟨2, ![K, M]⟩ ⟨2, ![K, N]⟩ ⟨2, ![M, N]⟩)

theorem lhs_col (hlb : D.lhsBatch = []) (hln : D.lhsNonContracting = [1]) (p : Fin M) (q : Fin N) (k : D.contr.Idx) :
    (D.lhsIdx (ix2 p q) k 1).val = p.val := by
  unfold DotDims.lhsIdx
  rw [dif_neg (by rw [hlb]; exact List.not_mem_nil), dif_pos (by rw [hln]; exact List.mem_singleton.mpr rfl)]
  simp only [Fin.val_cast]
  exact Cert.LibPlainDot.coord_val_congr (ix2 p q) _ 0 _ (show 0 < 2 by omega) (by simp [hlb, hln])

theorem rhs_col (hlb : D.lhsBatch = []) (hrb : D.rhsBatch = []) (hln : D.lhsNonContracting = [1]) (hrn : D.rhsNonContracting = [1])
    (p : Fin M) (q : Fin N) (k : D.contr.Idx) : (D.rhsIdx (ix2 p q) k 1).val = q.val := by
  unfold DotDims.rhsIdx
  rw [dif_neg (by rw [hrb]; exact List.not_mem_nil), dif_pos (by rw [hrn]; exact List.mem_singleton.mpr rfl)]
  simp only [Fin.val_cast]
  exact Cert.LibPlainDot.coord_val_congr (ix2 p q) _ 1 _ (show 1 < 2 by omega) (by simp [hlb, hln, hrn])

theorem sum_rows (hlc : D.lhsContracting = [0]) (hrc : D.rhsContracting = [0]) (hln : D.lhsNonContracting = [1])
    (hrn : D.rhsNonContracting = [1]) (hlb : D.lhsBatch = []) (hrb : D.rhsBatch = [])
    (l : (⟨2, ![K, M]⟩ : Shape).Idx → EReal) (r : (⟨2, ![K, N]⟩ : Shape).Idx → EReal) (p : Fin M) (q : Fin N) :
    ∑ k : D.contr.Idx, l (D.lhsIdx (ix2 p q) k) * r (D.rhsIdx (ix2 p q) k) = ∑ k : Fin K, l (ix2 k p) * r (ix2 k q) := by
  have hr : D.contr.rank = 1 := by rw [D.rank_contr, hlc]; rfl
  have hs : D.contr.size ⟨0, by omega⟩ = K := by
    have h := D.size_contr 0 (by rw [hlc]; exact Nat.one_pos)
    rw [h]; simp [hlc]
  rw [← Equiv.sum_comp (contrEquiv1 D K hr hs).symm]
  refine Finset.sum_congr rfl fun k _ => ?_
  have hk := contrEquiv1_symm_val D K hr hs k
  have e1 : D.lhsIdx (ix2 p q) ((contrEquiv1 D K hr hs).symm k) = ix2 k p := by
    funext a
    match a with
    | ⟨0, _⟩ => exact Fin.ext ((D.lhsIdx_val_of_single hlc (ix2 p q) _).trans hk)
    | ⟨1, _⟩ => exact Fin.ext (lhs_col D hlb hln p q _)
  have e2 : D.rhsIdx (ix2 p q) ((contrEquiv1 D K hr hs).symm k) = ix2 k q := by
    funext a
    match a with
    | ⟨0, _⟩ => exact Fin.ext ((D.rhsIdx_val_of_single hrc (ix2 p q) _).trans hk)
    | ⟨1, _⟩ => exact Fin.ext (rhs_col D hlb hrb hln hrn p q _)
  rw [e1, e2]

end Rows

theorem mask_apply (v4 : Vec Ideal S10000x1 .i32) (r : Fin 10000) (g : Fin 64) :
    (truncf .bf16 (sitofp .f32 (extui 32 (cmpi .eq (broadcastTo S10000x64 v4 broadcasts_S10000x1_S10000x64)
        (iota .tc S10000x64 32 [1] iota_S10000x64_d1_w32)) natLt_1_32)) bitsLt_bf16_f32 : FVec Ideal S10000x64 .bf16) (ix2 r g)
      = oh (v4 (ix2 r (0 : Fin 1))) g := by
  show ((((IntOp.cmpi .eq (broadcastTo S10000x64 v4 broadcasts_S10000x1_S10000x64 (ix2 r g)) (iota .tc S10000x64 32 [1] iota_S10000x64_d1_w32 (ix2 r g))).setWidth 32).toInt : ℝ) : EReal) = _
  rw [broadcastTo_apply v4 broadcasts_S10000x1_S10000x64 (ix2 r g) (ix2 r (0 : Fin 1)) (fun a => by
    match a with
    | ⟨0, _⟩ => rfl
    | ⟨1, _⟩ => rfl), iota_single_apply]
  show (((((BitVec.ofBool (v4 (ix2 r (0 : Fin 1)) == BitVec.ofNat 32 g.val)).setWidth 32).toInt : ℝ) : EReal)) = _
  unfold oh
  by_cases h : v4 (ix2 r (0 : Fin 1)) = BitVec.ofNat 32 g.val
  · rw [if_pos ((eq_ofNat_iff _ g).mp h), h]; simp
  · rw [if_neg (fun h' => h ((eq_ofNat_iff _ g).mpr h'))]
    have : (v4 (ix2 r (0 : Fin 1)) == BitVec.ofNat 32 g.val) = false := by simpa using h
    rw [this]; simp

theorem pay2_apply (v4 : Vec Ideal S10000x1 .i32) (v11 : Vec Ideal S10000x32 .f32) (v15 : Vec Ideal S64x32 .f32) (g : Fin 64) (f : Fin 32) :
    k5_pay2 v4 v11 v15 (ix2 g f) = v15 (ix2 g f) + ∑ r : Fin 10000, oh (v4 (ix2 r (0 : Fin 1))) g * v11 (ix2 r f) := by
  unfold k5_pay2
  simp only [shapeCast_self]
  show v15 (ix2 g f) + _ = _
  refine congrArg (v15 (ix2 g f) + ·) ?_
  refine (Ideal.matmul_constant_zero_apply dot_S10000x64_S10000x32_S64x32_0_0_1_1_n_n none _ _ (ix2 g f)).trans ?_
  refine (sum_rows dot_S10000x64_S10000x32_S64x32_0_0_1_1_n_n rfl rfl rfl rfl rfl rfl _ _ g f).trans ?_
  refine Finset.sum_congr rfl fun r _ => ?_
  exact congrArg (· * v11 (ix2 r f)) (mask_apply v4 r g)

theorem pay3_apply (v23 : Vec Ideal S64x32 .f32) (v24 : Vec Ideal S64x1 .f32) (v31 : Vec Ideal S32x10 .f32) (v34 : Vec Ideal S1x10 .f32) (g : Fin 64) (k : Fin 10) :
    k5_pay3 v23 v24 v31 v34 (ix2 g k)
      = (∑ f : Fin 32, Ideal.div (v23 (ix2 g f)) (max (v24 (ix2 g (0 : Fin 1))) 1) * v31 (ix2 f k)) + v34 (ix2 (0 : Fin 1) k) := by
  unfold k5_pay3
  simp only [shapeCast_self]
  show _ + _ = _
  refine congrArg₂ (· + ·) ?_ ?_
  · refine (congrFun (Cert.LibPlainDot.matmul_zero_eq_matProd dot_S64x32_S32x10_S64x10_1_0_0_1_n_n rfl rfl rfl rfl rfl rfl none _ _) (ix2 g k)).trans ?_
    rw [Cert.LibPlainDot.matProd_ix2]
    refine Finset.sum_congr rfl fun f _ => ?_
    refine congrArg (· * v31 (ix2 f k)) ?_
    show Ideal.div (v23 (ix2 g f)) (broadcastTo S64x32 _ broadcasts_S64x1_S64x32 (ix2 g f)) = _
    rw [broadcastTo_apply _ broadcasts_S64x1_S64x32 (ix2 g f) (ix2 g (0 : Fin 1)) (fun a => by
      match a with
      | ⟨0, _⟩ => rfl
      | ⟨1, _⟩ => rfl)]
    show Ideal.div _ (max (v24 (ix2 g (0 : Fin 1))) (Ideal.ofBits .f32 0x3F800000#32)) = _
    rw [Ideal.ofBits_one_f32]
  · exact broadcastTo_apply v34 broadcasts_S1x10_S64x10 (ix2 g k) (ix2 (0 : Fin 1) k) (fun a => by
      match a with
      | ⟨0, _⟩ => rfl
      | ⟨1, _⟩ => rfl)

end Payloads

section Value
variable (V : (c : Dev nD) → (b : Ref sig .tc) → Buf (Elt Ideal) ((c : Thread nD τ).loc b))

abbrev bblk (c : Dev nD) (t : Fin cfg5.N) : Vec Ideal S10000x1 .i32 := iblk5 V c 0 t
abbrev hblk (c : Dev nD) (t : Fin cfg5.N) : Vec Ideal S10000x32 .f32 := iblk5 V c 1 t
abbrev gblk (c : Dev nD) (t : Fin cfg5.N) : Vec Ideal S64x1 .f32 := iblk5 V c 2 t
abbrev wblk (c : Dev nD) (t : Fin cfg5.N) : Vec Ideal S32x10 .f32 := iblk5 V c 3 t
abbrev cblk (c : Dev nD) (t : Fin cfg5.N) : Vec Ideal S1x10 .f32 := iblk5 V c 4 t
abbrev batchArr (c : Dev nD) : Vec Ideal S100000x1 .i32 := V c main_v51
abbrev featArr (c : Dev nD) : Vec Ideal S100000x32 .f32 := V c main_v37_0
abbrev cntArr (c : Dev nD) : Vec Ideal S64x1 .f32 := V c main_v56
abbrev wcArr (c : Dev nD) : Vec Ideal S32x10 .f32 := V c main_arg12
abbrev bcArr (c : Dev nD) : Vec Ideal S1x10 .f32 := V c main_v57

theorem bblk_apply (c : Dev nD) (t : Fin cfg5.N) (r : Fin 10000) (R : Fin 100000) (hR : R.val = t.val * 10000 + r.val) :
    bblk V c t (ix2 r (0 : Fin 1)) = batchArr V c (ix2 R (0 : Fin 1)) := by
  have hi : win5_0.index t 0 = t.val ∧ win5_0.index t 1 = 0 := by
    rcases fin_N5 t with rfl | rfl | rfl | rfl | rfl | rfl | rfl | rfl | rfl | rfl <;> decide
  unfold bblk iblk5
  rw [View.read_apply]
  show V c main_v51 _ = V c main_v51 _
  congr 1
  funext a
  apply Fin.ext
  match a with
  | ⟨0, _⟩ => show win5_0.index t 0 * 10000 + 1 * r.val = R.val; rw [hi.1, hR]; omega
  | ⟨1, _⟩ => show win5_0.index t 1 * 1 + 1 * 0 = 0; rw [hi.2]

theorem hblk_apply (c : Dev nD) (t : Fin cfg5.N) (r : Fin 10000) (f : Fin 32) (R : Fin 100000) (hR : R.val = t.val * 10000 + r.val) :
    hblk V c t (ix2 r f) = featArr V c (ix2 R f) := by
  have hi : win5_1.index t 0 = t.val ∧ win5_1.index t 1 = 0 := by
    rcases fin_N5 t with rfl | rfl | rfl | rfl | rfl | rfl | rfl | rfl | rfl | rfl <;> decide
  unfold hblk iblk5
  rw [View.read_apply]
  show V c main_v37_0 _ = V c main_v37_0 _
  congr 1
  funext a
  apply Fin.ext
  match a with
  | ⟨0, _⟩ => show win5_1.index t 0 * 10000 + 1 * r.val = R.val; rw [hi.1, hR]; omega
  | ⟨1, _⟩ => show win5_1.index t 1 * 32 + 1 * f.val = f.val; rw [hi.2]; omega

theorem gblk_eq (c : Dev nD) (t : Fin cfg5.N) : gblk V c t = cntArr V c := by
  have hi : win5_2.index t 0 = 0 ∧ win5_2.index t 1 = 0 := by
    rcases fin_N5 t with rfl | rfl | rfl | rfl | rfl | rfl | rfl | rfl | rfl | rfl <;> decide
  funext x
  unfold gblk iblk5
  rw [View.read_apply]
  show V c main_v56 _ = V c main_v56 x
  congr 1
  funext a
  apply Fin.ext
  match a with
  | ⟨0, _⟩ => show win5_2.index t 0 * 64 + 1 * (x 0).val = (x 0).val; rw [hi.1]; omega
  | ⟨1, _⟩ => show win5_2.index t 1 * 1 + 1 * (x 1).val = (x 1).val; rw [hi.2]; omega

theorem wblk_eq (c : Dev nD) (t : Fin cfg5.N) : wblk V c t = wcArr V c := by
  have hi : win5_3.index t 0 = 0 ∧ win5_3.index t 1 = 0 := by
    rcases fin_N5 t with rfl | rfl | rfl | rfl | rfl | rfl | rfl | rfl | rfl | rfl <;> decide
  funext x
  unfold wblk iblk5
  rw [View.read_apply]
  show V c main_arg12 _ = V c main_arg12 x
  congr 1
  funext a
  apply Fin.ext
  match a with
  | ⟨0, _⟩ => show win5_3.index t 0 * 32 + 1 * (x 0).val = (x 0).val; rw [hi.1]; omega
  | ⟨1, _⟩ => show win5_3.index t 1 * 10 + 1 * (x 1).val = (x 1).val; rw [hi.2]; omega

theorem cblk_eq (c : Dev nD) (t : Fin cfg5.N) : cblk V c t = bcArr V c := by
  have hi : win5_4.index t 0 = 0 ∧ win5_4.index t 1 = 0 := by
    rcases fin_N5 t with rfl | rfl | rfl | rfl | rfl | rfl | rfl | rfl | rfl | rfl <;> decide
  funext x
  unfold cblk iblk5
  rw [View.read_apply]
  show V c main_v57 _ = V c main_v57 x
  congr 1
  funext a
  apply Fin.ext
  match a with
  | ⟨0, _⟩ => show win5_4.index t 0 * 1 + 1 * (x 0).val = (x 0).val; rw [hi.1]; omega
  | ⟨1, _⟩ => show win5_4.index t 1 * 10 + 1 * (x 1).val = (x 1).val; rw [hi.2]; omega

def blockSum (c : Dev nD) (s : ℕ) (g : Fin 64) (f : Fin 32) : EReal :=
  if h : s < cfg5.N then ∑ r : Fin 10000, oh (bblk V c ⟨s, h⟩ (ix2 r (0 : Fin 1))) g * hblk V c ⟨s, h⟩ (ix2 r f) else 0

theorem blockSum_of_lt (c : Dev nD) (t : Fin cfg5.N) (g : Fin 64) (f : Fin 32) :
    blockSum V c t.val g f = ∑ r : Fin 10000, oh (bblk V c t (ix2 r (0 : Fin 1))) g * hblk V c t (ix2 r f) := by
  unfold blockSum; rw [dif_pos t.isLt]

theorem acc_A (c : Dev nD) (t : Fin cfg5.N) (h0 : t.val % 10 = 0) (h1 : ¬t.val % 10 = 9) (g : Fin 64) (f : Fin 32) :
    (outsAt5 V c t.val t.isLt).2 (ix2 g f) = blockSum V c t.val g f := by
  rw [outsAt5_A V c t h0 h1]
  dsimp only
  refine (congrFun (soutA_eq (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) scM5_0 (Memref.isWhole_whole _) ((hcond5_0 t).mpr h0) (fun h => h1 ((hcond5_1 t).mp h)) (iblk5 V c 0 t) (iblk5 V c 1 t) (iblk5 V c 2 t) (iblk5 V c 3 t) (iblk5 V c 4 t)) (ix2 g f)).trans ?_
  refine (pay2_apply (bblk V c t) (hblk V c t) (k5_pay1 (F := Ideal)) g f).trans ?_
  rw [pay5a_apply, zero_add, blockSum_of_lt]

theorem acc_B (c : Dev nD) (t : Fin cfg5.N) (h0 : ¬t.val % 10 = 0) (h1 : ¬t.val % 10 = 9) (g : Fin 64) (f : Fin 32) :
    (outsAt5 V c t.val t.isLt).2 (ix2 g f) = (outsAt5 V c (t.val - 1) (Nat.lt_of_le_of_lt (Nat.sub_le _ _) t.isLt)).2 (ix2 g f) + blockSum V c t.val g f := by
  rw [outsAt5_B V c t h0 h1]
  dsimp only
  refine (congrFun (soutB_eq (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) scM5_0 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) (outsAt5 V c (t.val - 1) (Nat.lt_of_le_of_lt (Nat.sub_le _ _) t.isLt)).2) (ix2 g f)).trans ?_
  refine (pay2_apply (bblk V c t) (hblk V c t) (outsAt5 V c (t.val - 1) (Nat.lt_of_le_of_lt (Nat.sub_le _ _) t.isLt)).2 g f).trans ?_
  rw [blockSum_of_lt]

theorem acc_C (c : Dev nD) (t : Fin cfg5.N) (h0 : ¬t.val % 10 = 0) (h1 : t.val % 10 = 9) (g : Fin 64) (f : Fin 32) :
    (outsAt5 V c t.val t.isLt).2 (ix2 g f) = (outsAt5 V c (t.val - 1) (Nat.lt_of_le_of_lt (Nat.sub_le _ _) t.isLt)).2 (ix2 g f) + blockSum V c t.val g f := by
  rw [outsAt5_C V c t h0 h1]
  dsimp only
  refine (congrFun (soutC_eq (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) scM5_0 (Memref.isWhole_whole _) (fun h => h0 ((hcond5_0 t).mp h)) ((hcond5_1 t).mpr h1) (iblk5 V c 0 t) (iblk5 V c 1 t) (iblk5 V c 2 t) (iblk5 V c 3 t) (iblk5 V c 4 t) (outsAt5 V c (t.val - 1) (Nat.lt_of_le_of_lt (Nat.sub_le _ _) t.isLt)).2) (ix2 g f)).trans ?_
  refine (pay2_apply (bblk V c t) (hblk V c t) (outsAt5 V c (t.val - 1) (Nat.lt_of_le_of_lt (Nat.sub_le _ _) t.isLt)).2 g f).trans ?_
  rw [blockSum_of_lt]

theorem acc_eq (c : Dev nD) (n : ℕ) : ∀ (hn : n < cfg5.N) (g : Fin 64) (f : Fin 32),
    (outsAt5 V c n hn).2 (ix2 g f) = ∑ s ∈ Finset.range (n + 1), blockSum V c s g f := by
  induction n with
  | zero =>
    intro hn g f
    rw [Finset.sum_range_one]
    exact acc_A V c ⟨0, hn⟩ (Nat.zero_mod _) (by show ¬(0 : ℕ) % 10 = 9; omega) g f
  | succ n ih =>
    intro hn g f
    have hN : n + 1 < 10 := lt_of_lt_of_eq hn (show cfg5.N = 10 from N_5)
    rw [Finset.sum_range_succ, ← ih (Nat.lt_of_succ_lt hn) g f]
    by_cases h1 : (n + 1) % 10 = 9
    · exact acc_C V c ⟨n + 1, hn⟩ (by show ¬(n + 1) % 10 = 0; omega) h1 g f
    · exact acc_B V c ⟨n + 1, hn⟩ (by show ¬(n + 1) % 10 = 0; omega) h1 g f

end Value

def pool5 (batch : Vec Ideal S100000x1 .i32) (h2 : Vec Ideal S100000x32 .f32) (cnt : Vec Ideal S64x1 .f32)
    (W : Vec Ideal S32x10 .f32) (b : Vec Ideal S1x10 .f32) (g : Fin 64) (k : Fin 10) : EReal :=
  (∑ f : Fin 32, Ideal.div (∑ R : Fin 100000, oh (batch (ix2 R (0 : Fin 1))) g * h2 (ix2 R f)) (max (cnt (ix2 g (0 : Fin 1))) 1) * W (ix2 f k))
    + b (ix2 (0 : Fin 1) k)

def G5 (batch : Vec Ideal S100000x1 .i32) (h2 : Vec Ideal S100000x32 .f32) (cnt : Vec Ideal S64x1 .f32)
    (W : Vec Ideal S32x10 .f32) (b : Vec Ideal S1x10 .f32) : Vec Ideal S64x10 .f32 :=
  fun j => pool5 batch h2 cnt W b (j 0) (j 1)

theorem G5_ix2 (batch : Vec Ideal S100000x1 .i32) (h2 : Vec Ideal S100000x32 .f32) (cnt : Vec Ideal S64x1 .f32)
    (W : Vec Ideal S32x10 .f32) (b : Vec Ideal S1x10 .f32) (g : Fin 64) (k : Fin 10) :
    G5 batch h2 cnt W b (ix2 g k) = pool5 batch h2 cnt W b g k := rfl

section Final
variable (V : (c : Dev nD) → (b : Ref sig .tc) → Buf (Elt Ideal) ((c : Thread nD τ).loc b))

theorem total_eq (c : Dev nD) (g : Fin 64) (f : Fin 32) :
    ∑ s ∈ Finset.range 10, blockSum V c s g f
      = ∑ R : Fin 100000, oh (batchArr V c (ix2 R (0 : Fin 1))) g * featArr V c (ix2 R f) := by
  rw [Finset.sum_range]
  refine Eq.trans ?_ (Cert.IdxSums.sum_fin_mul 10 10000
    (fun R : Fin (10 * 10000) => oh (batchArr V c (ix2 (R : Fin 100000) (0 : Fin 1))) g * featArr V c (ix2 (R : Fin 100000) f))).symm
  refine Finset.sum_congr rfl fun s _ => ?_
  have hs : s.val < cfg5.N := lt_of_lt_of_eq s.isLt (show cfg5.N = 10 from N_5).symm
  refine (blockSum_of_lt V c ⟨s.val, hs⟩ g f).trans ?_
  refine Finset.sum_congr rfl fun r _ => ?_
  rw [bblk_apply V c ⟨s.val, hs⟩ r ⟨s.val * 10000 + r.val, by have := s.isLt; have := r.isLt; omega⟩ rfl,
    hblk_apply V c ⟨s.val, hs⟩ r f ⟨s.val * 10000 + r.val, by have := s.isLt; have := r.isLt; omega⟩ rfl]

theorem after_last (c : Dev nD) : (outsAt5 V c t5_9.val t5_9.isLt).1 = G5 (batchArr V c) (featArr V c) (cntArr V c) (wcArr V c) (bcArr V c) := by
  have h0 : ¬t5_9.val % 10 = 0 := by decide
  have h1 : t5_9.val % 10 = 9 := by decide
  funext j
  obtain ⟨g, k, rfl⟩ : ∃ (g : Fin 64) (k : Fin 10), j = ix2 g k := ⟨j 0, j 1, eq_ix2 j⟩
  rw [outsAt5_C V c t5_9 h0 h1]
  dsimp only
  refine (congrFun (outC_eq (F := Ideal) c (grid5.coords t5_9) (ms5_0 t5_9) (hs5_0 t5_9) (ms5_1 t5_9) (hs5_1 t5_9) (ms5_2 t5_9) (hs5_2 t5_9) (ms5_3 t5_9) (hs5_3 t5_9) (ms5_4 t5_9) (hs5_4 t5_9) (ms5_5 t5_9) (hs5_5 t5_9) scM5_0 (Memref.isWhole_whole _) (fun h => h0 ((hcond5_0 t5_9).mp h)) ((hcond5_1 t5_9).mpr h1) (iblk5 V c 0 t5_9) (iblk5 V c 1 t5_9) (iblk5 V c 2 t5_9) (iblk5 V c 3 t5_9) (iblk5 V c 4 t5_9) (outsAt5 V c (t5_9.val - 1) (Nat.lt_of_le_of_lt (Nat.sub_le _ _) t5_9.isLt)).2) (ix2 g k)).trans ?_
  refine (pay3_apply (k5_pay2 (bblk V c t5_9) (hblk V c t5_9) (outsAt5 V c (t5_9.val - 1) (Nat.lt_of_le_of_lt (Nat.sub_le _ _) t5_9.isLt)).2) (gblk V c t5_9) (wblk V c t5_9) (cblk V c t5_9) g k).trans ?_
  rw [gblk_eq, wblk_eq, cblk_eq, G5_ix2]
  unfold pool5
  refine congrArg (· + bcArr V c (ix2 (0 : Fin 1) k)) ?_
  refine Finset.sum_congr rfl fun f _ => ?_
  refine congrArg (fun z => Ideal.div z (max (cntArr V c (ix2 g (0 : Fin 1))) 1) * wcArr V c (ix2 f k)) ?_
  refine (pay2_apply (bblk V c t5_9) (hblk V c t5_9) (outsAt5 V c (t5_9.val - 1) (Nat.lt_of_le_of_lt (Nat.sub_le _ _) t5_9.isLt)).2 g f).trans ?_
  rw [← blockSum_of_lt V c t5_9 g f, ← acc_C V c t5_9 h0 h1 g f]
  exact (acc_eq V c t5_9.val t5_9.isLt g f).trans (total_eq V c g f)

theorem flushed_eq (c : Dev nD) (t : Fin cfg5.N) (hf : (cfg5.win 5).flush t = true) :
    (dat5 V c).flushed 5 t = ((cfg5.win 5).blk t).view.read (Elt Ideal) (G5 (batchArr V c) (featArr V c) (cntArr V c) (wcArr V c) (bcArr V c)) := by
  have hN : cfg5.N = 10 := N_5
  have h1 : t.val = 9 := by have := (flush5_5 t).mp hf; have := t.isLt; omega
  obtain rfl : t = t5_9 := Fin.ext h1
  show (cfg5.win 5).cut (grid5.coords t5_9) ((dat5 V c).after 5 t5_9) = _
  rw [after5_5, after_last]
  have hz' : (fun a => win5_5.index t5_9 a * main_v58.ty.shape.size a) = fun _ => 0 := funext fun a => by fin_cases a <;> decide
  exact (Memref.read_access_unit_zero (Elt Ideal) main_v58 hz' (fun a => by rw [congrFun hz' a]; simp) (G5 (batchArr V c) (featArr V c) (cntArr V c) (wcArr V c) (bcArr V c))).symm

theorem final5 (c : Dev nD) : (dat5 (F := Ideal) V c).arrAt 5 cfg5.N
    = G5 (V c main_v51) (V c main_v37_0) (V c main_v56) (V c main_arg12) (V c main_v57) :=
  (dat5 V c).arrAt_eq_of_cover 5 (G5 (batchArr V c) (featArr V c) (cntArr V c) (wcArr V c) (bcArr V c)) (flushed_eq V c) fun i =>
    ⟨t5_9, (flush5_5 t5_9).mpr rfl, by
      show i ∈ ((View.whole main_v58).slice (win5_5.rect t5_9)).set
      rw [View.set_slice_whole, Rect.mem_set_unit]
      intro a
      have h0 : (i 0 : Nat) < 64 := (i 0).isLt
      have h1 : (i 1 : Nat) < 10 := (i 1).isLt
      match a with
      | ⟨0, _⟩ => show win5_5.index t5_9 0 * win5_5.size 0 ≤ (i 0 : Nat) ∧ (i 0 : Nat) < win5_5.index t5_9 0 * win5_5.size 0 + win5_5.xsize (grid5.coords t5_9) 0
                  rw [show win5_5.index t5_9 0 * win5_5.size 0 = 0 from by decide +kernel, show win5_5.xsize (grid5.coords t5_9) 0 = 64 from by decide +kernel]; omega
      | ⟨1, _⟩ => show win5_5.index t5_9 1 * win5_5.size 1 ≤ (i 1 : Nat) ∧ (i 1 : Nat) < win5_5.index t5_9 1 * win5_5.size 1 + win5_5.xsize (grid5.coords t5_9) 1
                  rw [show win5_5.index t5_9 1 * win5_5.size 1 = 0 from by decide +kernel, show win5_5.xsize (grid5.coords t5_9) 1 = 10 from by decide +kernel]; omega⟩

end Final

end Cert.KernelIdeal.Val

end
-- ==== Proof.KI.Chain.lean ====
import proofs.«418024_j36704790511896_3_alg».proof.Proof.KI.Fold
import proofs.«418024_j36704790511896_3_alg».proof.Proof.KI.Host
import proofs.«418024_j36704790511896_3_alg».proof.Proof.KI.V0
import proofs.«418024_j36704790511896_3_alg».proof.Proof.KI.V1
import proofs.«418024_j36704790511896_3_alg».proof.Proof.KI.V2
import proofs.«418024_j36704790511896_3_alg».proof.Proof.KI.V3
import proofs.«418024_j36704790511896_3_alg».proof.Proof.KI.V4
import proofs.«418024_j36704790511896_3_alg».proof.Proof.KI.V5

/-! The program's two results as formulas, traced through its regions and host stretches. -/

set_option maxRecDepth 16384

noncomputable section

namespace Cert.KernelIdeal.Val

open Cert.KernelIdeal Cert.KernelIdeal.Gen Cert.KernelIdeal.Reg
open Idealize.ShloMosaic Idealize.ShloMosaic.TcCoe Idealize.ShloMosaic.ValueIdx
open Cert.Graph Cert.Spec

abbrev FA (s : Shape) : Type := s.Idx → EReal
abbrev IA (s : Shape) : Type := s.Idx → BitVec 32

variable (m : (ℓ : Loc nD τ sig) → Buf (Elt Ideal) ℓ) (c : Dev nD)

abbrev aX : FA S100000x64 := m ((c : Thread nD τ).loc main_arg0)
abbrev aEi : IA S2x3200000 := m ((c : Thread nD τ).loc main_arg1)
abbrev aBatch : IA S100000 := m ((c : Thread nD τ).loc main_arg2)
abbrev aW1l : FA S64x16 := m ((c : Thread nD τ).loc main_arg3)
abbrev aB1 : FA S16 := m ((c : Thread nD τ).loc main_arg4)
abbrev aW1r : FA S64x16 := m ((c : Thread nD τ).loc main_arg5)
abbrev aW2l : FA S16x32 := m ((c : Thread nD τ).loc main_arg6)
abbrev aB2 : FA S32 := m ((c : Thread nD τ).loc main_arg7)
abbrev aW2r : FA S16x32 := m ((c : Thread nD τ).loc main_arg8)
abbrev aW3l : FA S32x21 := m ((c : Thread nD τ).loc main_arg9)
abbrev aB3 : FA S21 := m ((c : Thread nD τ).loc main_arg10)
abbrev aW3r : FA S32x21 := m ((c : Thread nD τ).loc main_arg11)
abbrev aWc : FA S32x10 := m ((c : Thread nD τ).loc main_arg12)
abbrev aBc : FA S10 := m ((c : Thread nD τ).loc main_arg13)

abbrev bInv1 : FA S100000x1 := W1 m c (Proc.devRef .tc main_v12)
abbrev bInv3 : FA S100000x1 := W3 m c (Proc.devRef .tc main_v12)
abbrev bInv5 : FA S100000x1 := W5 m c (Proc.devRef .tc main_v12)
abbrev bInv8 : FA S100000x1 := W8 m c (Proc.devRef .tc main_v12)
abbrev bP1 : FA S100000x16 := W2 m c (Proc.devRef .tc main_v13)
abbrev bAgg1 : FA S100000x16 := W3 m c (Proc.devRef .tc main_v23)
abbrev bB1 : FA S1x16 := W3 m c (Proc.devRef .tc main_v24)
abbrev bH : FA S100000x16 := W4 m c (Proc.devRef .tc main_v25)
abbrev bAgg2 : FA S100000x16 := W5 m c (Proc.devRef .tc main_v35)
abbrev bB2 : FA S1x32 := W5 m c (Proc.devRef .tc main_v36)
abbrev bH2 : FA S100000x32 := W6 m c (Proc.devRef .tc main_v37_0)
abbrev bH2r : FA S100000x32 := W6 m c (Proc.devRef .tc main_v37_1)
abbrev bP3 : FA S100000x21 := W7 m c (Proc.devRef .tc main_v38)
abbrev bAgg3 : FA S100000x21 := W8 m c (Proc.devRef .tc main_v48)
abbrev bB3 : FA S1x21 := W8 m c (Proc.devRef .tc main_v49)
abbrev bBatch : IA S100000x1 := W10 m c (Proc.devRef .tc main_v51)
abbrev bCnt : FA S64x1 := W10 m c (Proc.devRef .tc main_v56)
abbrev bBc : FA S1x10 := W10 m c (Proc.devRef .tc main_v57)

abbrev sH : Fin 100000 → Fin 16 → EReal :=
  relu (sageProj (hit (aEi m c)) (grow (aEi m c)) (cur2 (aX m c)) (cur2 (aW1l m c)) (cur2 (aW1r m c)) (cur1 (aB1 m c)))

abbrev sH2 : Fin 100000 → Fin 32 → EReal :=
  sageMean (hit (aEi m c)) (grow (aEi m c)) (sH m c) (cur2 (aW2l m c)) (cur2 (aW2r m c)) (cur1 (aB2 m c))

abbrev sColor : Fin 100000 → Fin 21 → EReal :=
  sageProj (hit (aEi m c)) (grow (aEi m c)) (relu (sH2 m c)) (cur2 (aW3l m c)) (cur2 (aW3r m c)) (cur1 (aB3 m c))

theorem src_at1 (e : Fin 3200000) : (W1 m c (Proc.devRef .tc main_v1) : IA S3200000) (ix1 e) = srcW (aEi m c) e :=
  h0_v1 (W0 m c) e
theorem dst_at1 (e : Fin 3200000) : (W1 m c (Proc.devRef .tc main_v3) : IA S3200000) (ix1 e) = dstW (aEi m c) e :=
  h0_v3 (W0 m c) e
theorem src_at2 (e : Fin 3200000) : (W2 m c (Proc.devRef .tc main_v1) : IA S3200000) (ix1 e) = srcW (aEi m c) e := by
  rw [W2_keep m c main_v1 (by decide)]; exact src_at1 m c e
theorem dst_at2 (e : Fin 3200000) : (W2 m c (Proc.devRef .tc main_v3) : IA S3200000) (ix1 e) = dstW (aEi m c) e := by
  rw [W2_keep m c main_v3 (by decide)]; exact dst_at1 m c e
theorem src_at4 (e : Fin 3200000) : (W4 m c (Proc.devRef .tc main_v1) : IA S3200000) (ix1 e) = srcW (aEi m c) e := by
  rw [W4_keep m c main_v1 (by decide), W3_keep m c main_v1 (by decide)]; exact src_at2 m c e
theorem dst_at4 (e : Fin 3200000) : (W4 m c (Proc.devRef .tc main_v3) : IA S3200000) (ix1 e) = dstW (aEi m c) e := by
  rw [W4_keep m c main_v3 (by decide), W3_keep m c main_v3 (by decide)]; exact dst_at2 m c e
theorem src_at7 (e : Fin 3200000) : (W7 m c (Proc.devRef .tc main_v1) : IA S3200000) (ix1 e) = srcW (aEi m c) e := by
  rw [W7_keep m c main_v1 (by decide), W6_keep m c main_v1 (by decide), W5_keep m c main_v1 (by decide)]; exact src_at4 m c e
theorem dst_at7 (e : Fin 3200000) : (W7 m c (Proc.devRef .tc main_v3) : IA S3200000) (ix1 e) = dstW (aEi m c) e := by
  rw [W7_keep m c main_v3 (by decide), W6_keep m c main_v3 (by decide), W5_keep m c main_v3 (by decide)]; exact dst_at4 m c e

theorem inv_at1 (n : Fin 100000) : bInv1 m c (ix2 n (0 : Fin 1)) = Ideal.div 1 (cmax (hit (aEi m c)) n) :=
  h0_v12 (W0 m c) n
theorem inv3_eq : bInv3 m c = bInv1 m c :=
  (W3_keep m c main_v12 (by decide)).trans (W2_keep m c main_v12 (by decide))
theorem inv5_eq : bInv5 m c = bInv1 m c :=
  (W5_keep m c main_v12 (by decide)).trans <| (W4_keep m c main_v12 (by decide)).trans (inv3_eq m c)
theorem inv8_eq : bInv8 m c = bInv1 m c :=
  (W8_keep m c main_v12 (by decide)).trans <| (W7_keep m c main_v12 (by decide)).trans <|
    (W6_keep m c main_v12 (by decide)).trans (inv5_eq m c)

theorem p1_eq : cur2 (bP1 m c) = mm (cur2 (aX m c)) (cur2 (aW1l m c)) := by
  funext n j
  rw [cur2_apply]
  show (W2 m c (Proc.devRef .tc main_v13) : FA S100000x16) (ix2 n j) = _
  rw [show W2 m c (Proc.devRef .tc main_v13) = _ from W2_arr m c 2, final0_2 (A1 m) c]
  show G0_2 (W1 m c (Proc.devRef .tc main_arg0)) (W1 m c (Proc.devRef .tc main_arg3)) (ix2 n j) = _
  rw [W1_launch m c main_arg0, W1_launch m c main_arg3]
  rfl

theorem agg1_eq : cur2 (bAgg1 m c) = agg (hit (aEi m c)) (grow (aEi m c)) (mm (cur2 (aX m c)) (cur2 (aW1l m c))) := by
  funext n j
  rw [cur2_apply, ← p1_eq m c]
  exact h1_v23 (W2 m c) (aEi m c) (src_at2 m c) (dst_at2 m c) n j

theorem b1_at3 (j : Fin 16) : bB1 m c (ix2 (0 : Fin 1) j) = aB1 m c (ix1 j) := by
  show (W3 m c (Proc.devRef .tc main_v24) : FA S1x16) (ix2 (0 : Fin 1) j) = _
  rw [show (W3 m c (Proc.devRef .tc main_v24) : FA S1x16) (ix2 (0 : Fin 1) j) = _ from h1_v24 (W2 m c) j, W2_launch m c main_arg4]

theorem h_eq : cur2 (bH m c) = sH m c := by
  funext n j
  rw [cur2_apply]
  show (W4 m c (Proc.devRef .tc main_v25) : FA S100000x16) (ix2 n j) = _
  rw [show W4 m c (Proc.devRef .tc main_v25) = _ from W4_arr m c 5, final1_5 (A3 m) c]
  show combineRelu1 (bAgg1 m c) (W3 m c (Proc.devRef .tc main_arg0)) (bInv3 m c)
    (W3 m c (Proc.devRef .tc main_arg5)) (bB1 m c) (ix2 n j) = _
  rw [W3_launch m c main_arg0, W3_launch m c main_arg5, inv3_eq m c]
  show max ((∑ k : Fin 64, aX m c (ix2 n k) * aW1r m c (ix2 k j))
      + bAgg1 m c (ix2 n j) * bInv1 m c (ix2 n (0 : Fin 1)) + bB1 m c (ix2 (0 : Fin 1) j)) 0 = _
  rw [inv_at1 m c n, b1_at3 m c j, ← cur2_apply (bAgg1 m c), agg1_eq m c]
  rfl

theorem h_at5 : (W5 m c (Proc.devRef .tc main_v25) : FA S100000x16) = bH m c :=
  W5_keep m c main_v25 (by decide)

theorem agg2_eq : cur2 (bAgg2 m c) = agg (hit (aEi m c)) (grow (aEi m c)) (sH m c) := by
  funext n j
  rw [cur2_apply, ← h_eq m c]
  exact h2_v35 (W4 m c) (aEi m c) (src_at4 m c) (dst_at4 m c) n j

theorem b2_at5 (j : Fin 32) : bB2 m c (ix2 (0 : Fin 1) j) = aB2 m c (ix1 j) := by
  show (W5 m c (Proc.devRef .tc main_v36) : FA S1x32) (ix2 (0 : Fin 1) j) = _
  rw [show (W5 m c (Proc.devRef .tc main_v36) : FA S1x32) (ix2 (0 : Fin 1) j) = _ from h2_v36 (W4 m c) j, W4_launch m c main_arg7]

theorem h2_eq : cur2 (bH2 m c) = sH2 m c := by
  funext n j
  rw [cur2_apply]
  show (W6 m c (Proc.devRef .tc main_v37_0) : FA S100000x32) (ix2 n j) = _
  rw [show W6 m c (Proc.devRef .tc main_v37_0) = _ from W6_arr m c 6, final2_6 (A5 m) c]
  show G2_6 (bAgg2 m c) (W5 m c (Proc.devRef .tc main_v25)) (bInv5 m c)
    (W5 m c (Proc.devRef .tc main_arg6)) (bB2 m c) (W5 m c (Proc.devRef .tc main_arg8)) (ix2 n j) = _
  rw [W5_launch m c main_arg6, W5_launch m c main_arg8, h_at5 m c, inv5_eq m c]
  show ((∑ k : Fin 16, (bAgg2 m c (ix2 n k) * bInv1 m c (ix2 n (0 : Fin 1))) * aW2l m c (ix2 k j))
      + ∑ k : Fin 16, bH m c (ix2 n k) * aW2r m c (ix2 k j)) + bB2 m c (ix2 (0 : Fin 1) j) = _
  rw [inv_at1 m c n, b2_at5 m c j]
  simp only [← cur2_apply (bAgg2 m c), ← cur2_apply (bH m c), agg2_eq m c, h_eq m c]
  rfl

theorem h2r_eq : cur2 (bH2r m c) = relu (sH2 m c) := by
  funext n j
  rw [cur2_apply, ← h2_eq m c]
  show (W6 m c (Proc.devRef .tc main_v37_1) : FA S100000x32) (ix2 n j) = max (bH2 m c (ix2 n j)) 0
  rw [show W6 m c (Proc.devRef .tc main_v37_1) = _ from W6_arr m c 7, final2_7 (A5 m) c,
    show bH2 m c = _ from (W6_arr m c 6).trans (final2_6 (A5 m) c)]
  rfl

theorem p3_eq : cur2 (bP3 m c) = mm (relu (sH2 m c)) (cur2 (aW3l m c)) := by
  funext n j
  rw [cur2_apply]
  show (W7 m c (Proc.devRef .tc main_v38) : FA S100000x21) (ix2 n j) = _
  rw [show W7 m c (Proc.devRef .tc main_v38) = _ from W7_arr m c 2, final3_2 (A6 m) c]
  show G3_2 (bH2r m c) (W6 m c (Proc.devRef .tc main_arg9)) (ix2 n j) = _
  rw [W6_launch m c main_arg9, ← h2r_eq m c]
  rfl

theorem agg3_eq : cur2 (bAgg3 m c) = agg (hit (aEi m c)) (grow (aEi m c)) (mm (relu (sH2 m c)) (cur2 (aW3l m c))) := by
  funext n j
  rw [cur2_apply, ← p3_eq m c]
  exact h4_v48 (W7 m c) (aEi m c) (src_at7 m c) (dst_at7 m c) n j

theorem b3_at8 (j : Fin 21) : bB3 m c (ix2 (0 : Fin 1) j) = aB3 m c (ix1 j) := by
  show (W8 m c (Proc.devRef .tc main_v49) : FA S1x21) (ix2 (0 : Fin 1) j) = _
  rw [show (W8 m c (Proc.devRef .tc main_v49) : FA S1x21) (ix2 (0 : Fin 1) j) = _ from h4_v49 (W7 m c) j, W7_launch m c main_arg10]

theorem h2r_at8 : (W8 m c (Proc.devRef .tc main_v37_1) : FA S100000x32) = bH2r m c :=
  (W8_keep m c main_v37_1 (by decide)).trans (W7_keep m c main_v37_1 (by decide))

theorem color_ker : (W11 m c (Proc.devRef .tc main_v50) : FA S100000x21) = fun y => sColor m c (y 0) (y 1) := by
  funext y
  obtain ⟨n, j, rfl⟩ : ∃ (n : Fin 100000) (j : Fin 21), y = ix2 n j := ⟨y 0, y 1, eq_ix2 y⟩
  rw [W11_main_v50 m c, final4_5 (A8 m) c]
  show combine4 (bAgg3 m c) (W8 m c (Proc.devRef .tc main_v37_1)) (bInv8 m c)
    (W8 m c (Proc.devRef .tc main_arg11)) (bB3 m c) (ix2 n j) = _
  rw [W8_launch m c main_arg11, h2r_at8 m c, inv8_eq m c]
  show (∑ k : Fin 32, bH2r m c (ix2 n k) * aW3r m c (ix2 k j))
      + bAgg3 m c (ix2 n j) * bInv1 m c (ix2 n (0 : Fin 1)) + bB3 m c (ix2 (0 : Fin 1) j) = _
  rw [inv_at1 m c n, b3_at8 m c j]
  simp only [← cur2_apply (bH2r m c), ← cur2_apply (bAgg3 m c), agg3_eq m c, h2r_eq m c]
  rfl

theorem batch_at10 (r : Fin 100000) : bBatch m c (ix2 r (0 : Fin 1)) = aBatch m c (ix1 r) := by
  show (W10 m c (Proc.devRef .tc main_v51) : IA S100000x1) (ix2 r (0 : Fin 1)) = _
  rw [show (W10 m c (Proc.devRef .tc main_v51) : IA S100000x1) (ix2 r (0 : Fin 1)) = _ from h5_v51 (W9 m c) r]
  show (W9 m c (Proc.devRef .tc main_arg2) : IA S100000) (ix1 r) = _
  rw [W9_launch m c main_arg2]

theorem gcnt_at10 (g : Fin 64) :
    bCnt m c (ix2 g (0 : Fin 1)) = ∑ r : Fin 100000, if inG (aBatch m c) r g then (1 : EReal) else 0 := by
  show (W10 m c (Proc.devRef .tc main_v56) : FA S64x1) (ix2 g (0 : Fin 1)) = _
  rw [show (W10 m c (Proc.devRef .tc main_v56) : FA S64x1) (ix2 g (0 : Fin 1)) = _ from h5_v56 (W9 m c) g]
  show (∑ r : Fin 100000, if inG (W9 m c (Proc.devRef .tc main_arg2) : IA S100000) r g then (1 : EReal) else 0) = _
  rw [W9_launch m c main_arg2]

theorem bc_at10 (j : Fin 10) : bBc m c (ix2 (0 : Fin 1) j) = aBc m c (ix1 j) := by
  show (W10 m c (Proc.devRef .tc main_v57) : FA S1x10) (ix2 (0 : Fin 1) j) = _
  rw [show (W10 m c (Proc.devRef .tc main_v57) : FA S1x10) (ix2 (0 : Fin 1) j) = _ from h5_v57 (W9 m c) j, W9_launch m c main_arg13]

theorem h2_at10 : (W10 m c (Proc.devRef .tc main_v37_0) : FA S100000x32) = bH2 m c :=
  (W10_keep m c main_v37_0 (by decide)).trans <| (W9_keep m c main_v37_0 (by decide)).trans <|
    (W8_keep m c main_v37_0 (by decide)).trans (W7_keep m c main_v37_0 (by decide))

theorem classif_ker : (W11 m c (Proc.devRef .tc main_v58) : FA S64x10)
    = fun y => poolKer (inG (aBatch m c)) (sH2 m c) (cur2 (aWc m c)) (cur1 (aBc m c)) (y 0) (y 1) := by
  funext y
  obtain ⟨g, j, rfl⟩ : ∃ (g : Fin 64) (j : Fin 10), y = ix2 g j := ⟨y 0, y 1, eq_ix2 y⟩
  rw [W11_main_v58 m c, final5 (A10 m) c]
  show G5 (bBatch m c) (W10 m c (Proc.devRef .tc main_v37_0)) (bCnt m c)
    (W10 m c (Proc.devRef .tc main_arg12)) (bBc m c) (ix2 g j) = _
  rw [W10_launch m c main_arg12, h2_at10 m c, G5_ix2]
  unfold pool5 oh
  simp only [batch_at10 m c, gcnt_at10 m c, bc_at10 m c, ← cur2_apply (bH2 m c), h2_eq m c]
  rfl

end Cert.KernelIdeal.Val

end
-- ==== Proof.Algebra.lean ====
import proofs.«418024_j36704790511896_3_alg».proof.Proof.Spec
import Mathlib.Data.EReal.Basic
import Mathlib.Data.EReal.Operations
import Mathlib.Data.EReal.Inv
import Mathlib.Algebra.BigOperators.Group.Finset.Basic
import Mathlib.Algebra.BigOperators.Ring.Finset
import Mathlib.Algebra.Order.BigOperators.Group.Finset
import Mathlib.Tactic.Ring
import Mathlib.Tactic.NormNum

/-! With real entries the two arrangements of a layer and of the pooling are equal: the laws of the real numbers. -/

noncomputable section

open scoped BigOperators

namespace Cert.Spec

open Idealize.ShloMosaic

theorem coe_sum {α : Type} (s : Finset α) (f : α → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_ite (p : Prop) [Decidable p] (x y : ℝ) :
    ((if p then x else y : ℝ) : EReal) = if p then (x : EReal) else (y : EReal) := by
  split <;> rfl

theorem coe_max (x y : ℝ) : ((max x y : ℝ) : EReal) = max (x : EReal) (y : EReal) :=
  EReal.coe_strictMono.monotone.map_max

variable {ν ε γ : Type} [Fintype ν] [Fintype ε]

section Graph

variable {hit : ε → ν → Prop} [∀ e n, Decidable (hit e n)] {g : ε → ν}

def cntR (hit : ε → ν → Prop) [∀ e n, Decidable (hit e n)] (n : ν) : ℝ :=
  ∑ e : ε, if hit e n then (1 : ℝ) else 0

def rho (hit : ε → ν → Prop) [∀ e n, Decidable (hit e n)] (n : ν) : ℝ := 1 / max (cntR hit n) 1

theorem cnt_coe (n : ν) : cnt hit n = (cntR hit n : EReal) := by
  rw [cnt, cntR, coe_sum]
  refine Finset.sum_congr rfl fun e _ => ?_
  rw [coe_ite, EReal.coe_one, EReal.coe_zero]

theorem cmax_coe (n : ν) : cmax hit n = ((max (cntR hit n) 1 : ℝ) : EReal) := by
  rw [cmax, cnt_coe, coe_max, EReal.coe_one]

theorem max_cntR_ne_zero (n : ν) : max (cntR hit n) 1 ≠ 0 :=
  (lt_of_lt_of_le one_pos (le_max_right _ _)).ne'

theorem div_cmax (x : EReal) (n : ν) : Ideal.div x (cmax hit n) = x * (rho hit n : EReal) := by
  rw [cmax_coe, Ideal.div_coe (max_cntR_ne_zero n), rho]

theorem div_one_cmax (n : ν) : Ideal.div 1 (cmax hit n) = (rho hit n : EReal) := by
  rw [div_cmax, one_mul]

end Graph

section Layer

variable {hit : ε → ν → Prop} [∀ e n, Decidable (hit e n)] {g : ε → ν}
variable {κ ι : Type} [Fintype κ]

def sageRefR (hit : ε → ν → Prop) [∀ e n, Decidable (hit e n)] (g : ε → ν)
    (v : ν → κ → ℝ) (Wl Wr : κ → ι → ℝ) (b : ι → ℝ) (n : ν) (j : ι) : ℝ :=
  (∑ k, ((∑ e, if hit e n then v (g e) k else 0) * rho hit n) * Wl k j + b j) + ∑ k, v n k * Wr k j

theorem sageRef_coe (v : ν → κ → ℝ) (Wl Wr : κ → ι → ℝ) (b : ι → ℝ) (n : ν) (j : ι) :
    sageRef hit g (fun a k => (v a k : EReal)) (fun k j => (Wl k j : EReal)) (fun k j => (Wr k j : EReal))
        (fun j => (b j : EReal)) n j
      = (sageRefR hit g v Wl Wr b n j : EReal) := by
  simp only [sageRef, sageRefR, mm, agg, div_cmax, EReal.coe_add, EReal.coe_mul, coe_sum, coe_ite,
    EReal.coe_zero]

theorem sageProj_coe (v : ν → κ → ℝ) (Wl Wr : κ → ι → ℝ) (b : ι → ℝ) (n : ν) (j : ι) :
    sageProj hit g (fun a k => (v a k : EReal)) (fun k j => (Wl k j : EReal)) (fun k j => (Wr k j : EReal))
        (fun j => (b j : EReal)) n j
      = (((∑ k, v n k * Wr k j + (∑ e, if hit e n then ∑ k, v (g e) k * Wl k j else 0) * rho hit n)
            + b j : ℝ) : EReal) := by
  simp only [sageProj, mm, agg, div_one_cmax, EReal.coe_add, EReal.coe_mul, coe_sum, coe_ite,
    EReal.coe_zero]

theorem proj_real (v : ν → κ → ℝ) (Wl : κ → ι → ℝ) (r : ℝ) (n : ν) (j : ι) :
    (∑ e, if hit e n then ∑ k, v (g e) k * Wl k j else 0) * r
      = ∑ k, ((∑ e, if hit e n then v (g e) k else 0) * r) * Wl k j := by
  have h1 : ∀ k, ((∑ e, if hit e n then v (g e) k else 0) * r) * Wl k j
      = ∑ e, (if hit e n then v (g e) k * Wl k j else 0) * r := by
    intro k
    rw [Finset.sum_mul, Finset.sum_mul]
    refine Finset.sum_congr rfl fun e _ => ?_
    split_ifs <;> ring
  have h2 : ∀ e, (if hit e n then ∑ k, v (g e) k * Wl k j else 0) * r
      = ∑ k, (if hit e n then v (g e) k * Wl k j else 0) * r := by
    intro e
    split_ifs
    · rw [Finset.sum_mul]
    · simp
  rw [Finset.sum_mul]
  simp only [h1, h2]
  exact Finset.sum_comm

end Layer

section Statements

variable {hit : ε → ν → Prop} [∀ e n, Decidable (hit e n)] {g : ε → ν}

section OneLayer

variable {κ ι : Type} [Fintype κ]
variable {v : ν → κ → EReal} {Wl Wr : κ → ι → EReal} {b : ι → EReal}

theorem Fin2.eq_coe {α β : Type} {u : α → β → EReal} (hu : Fin2 u) :
    ∃ u' : α → β → ℝ, u = fun a j => (u' a j : EReal) := by
  choose u' hu' using hu
  exact ⟨u', funext fun a => funext fun j => hu' a j⟩

theorem Fin1.eq_coe {β : Type} {u : β → EReal} (hu : Fin1 u) :
    ∃ u' : β → ℝ, u = fun j => (u' j : EReal) := by
  choose u' hu' using hu
  exact ⟨u', funext fun j => hu' j⟩

theorem sageRef_fin (hv : Fin2 v) (hWl : Fin2 Wl) (hWr : Fin2 Wr) (hb : Fin1 b) :
    Fin2 (sageRef hit g v Wl Wr b) := by
  obtain ⟨v', rfl⟩ := hv.eq_coe
  obtain ⟨Wl', rfl⟩ := hWl.eq_coe
  obtain ⟨Wr', rfl⟩ := hWr.eq_coe
  obtain ⟨b', rfl⟩ := hb.eq_coe
  intro n j
  exact ⟨_, sageRef_coe v' Wl' Wr' b' n j⟩

theorem relu_fin {α β : Type} {v : α → β → EReal} (hv : Fin2 v) : Fin2 (relu v) := by
  intro a j
  obtain ⟨r, hr⟩ := hv a j
  exact ⟨max r 0, by rw [relu, hr, coe_max, EReal.coe_zero]⟩

theorem sageProj_eq (hv : Fin2 v) (hWl : Fin2 Wl) (hWr : Fin2 Wr) (hb : Fin1 b) :
    sageProj hit g v Wl Wr b = sageRef hit g v Wl Wr b := by
  obtain ⟨v', rfl⟩ := hv.eq_coe
  obtain ⟨Wl', rfl⟩ := hWl.eq_coe
  obtain ⟨Wr', rfl⟩ := hWr.eq_coe
  obtain ⟨b', rfl⟩ := hb.eq_coe
  funext n j
  rw [sageProj_coe, sageRef_coe, sageRefR, proj_real]
  congr 1
  ring

theorem sageMean_eq (hv : Fin2 v) (hWl : Fin2 Wl) (hWr : Fin2 Wr) (hb : Fin1 b) :
    sageMean hit g v Wl Wr b = sageRef hit g v Wl Wr b := by
  funext n j
  simp only [sageMean, sageRef, div_cmax, one_mul]
  exact add_right_comm _ _ _

end OneLayer

section PoolStatement

variable {inG : ν → γ → Prop} [∀ r c, Decidable (inG r c)] {κ ι : Type} [Fintype κ]
variable {h : ν → κ → EReal} {Wc : κ → ι → EReal} {bc : ι → EReal}

theorem poolKer_eq : poolKer inG h Wc bc = poolRef inG h Wc bc := by
  funext c j
  simp only [poolKer, poolRef, ite_mul, one_mul, zero_mul]

end PoolStatement

section ThreeLayers

variable {inG : ν → γ → Prop} [∀ r c, Decidable (inG r c)]
variable {κ₀ κ₁ κ₂ κ₃ ι : Type} [Fintype κ₀] [Fintype κ₁] [Fintype κ₂]
variable {x : ν → κ₀ → EReal} {W1l W1r : κ₀ → κ₁ → EReal} {b1 : κ₁ → EReal}
  {W2l W2r : κ₁ → κ₂ → EReal} {b2 : κ₂ → EReal} {W3l W3r : κ₂ → κ₃ → EReal} {b3 : κ₃ → EReal}
  {Wc : κ₂ → ι → EReal} {bc : ι → EReal}

theorem color_eq (hx : Fin2 x) (h1l : Fin2 W1l) (h1r : Fin2 W1r) (hb1 : Fin1 b1)
    (h2l : Fin2 W2l) (h2r : Fin2 W2r) (hb2 : Fin1 b2) (h3l : Fin2 W3l) (h3r : Fin2 W3r) (hb3 : Fin1 b3) :
    sageProj hit g (relu (sageMean hit g (relu (sageProj hit g x W1l W1r b1)) W2l W2r b2)) W3l W3r b3
      = sageRef hit g (relu (sageRef hit g (relu (sageRef hit g x W1l W1r b1)) W2l W2r b2)) W3l W3r b3 := by
  have f1 : Fin2 (relu (sageRef hit g x W1l W1r b1)) := relu_fin (sageRef_fin hx h1l h1r hb1)
  have f2 : Fin2 (relu (sageRef hit g (relu (sageRef hit g x W1l W1r b1)) W2l W2r b2)) :=
    relu_fin (sageRef_fin f1 h2l h2r hb2)
  rw [sageProj_eq hx h1l h1r hb1, sageMean_eq f1 h2l h2r hb2, sageProj_eq f2 h3l h3r hb3]

theorem classif_eq (hx : Fin2 x) (h1l : Fin2 W1l) (h1r : Fin2 W1r) (hb1 : Fin1 b1)
    (h2l : Fin2 W2l) (h2r : Fin2 W2r) (hb2 : Fin1 b2) (h3l : Fin2 W3l) (h3r : Fin2 W3r) (hb3 : Fin1 b3) :
    poolKer inG (sageMean hit g (relu (sageProj hit g x W1l W1r b1)) W2l W2r b2) Wc bc
      = poolRef inG (sageRef hit g (relu (sageRef hit g x W1l W1r b1)) W2l W2r b2) Wc bc := by
  have f1 : Fin2 (relu (sageRef hit g x W1l W1r b1)) := relu_fin (sageRef_fin hx h1l h1r hb1)
  rw [poolKer_eq, sageProj_eq hx h1l h1r hb1, sageMean_eq f1 h2l h2r hb2]

end ThreeLayers

end Statements

end Cert.Spec

end
-- ==== Proof.Finite.lean ====
import proofs.«418024_j36704790511896_3_alg».proof.Pre_finite_inputs
import proofs.«418024_j36704790511896_3_alg».proof.Proof.Gen.Pre_finite_inputs
import proofs.«418024_j36704790511896_3_alg».proof.Proof.Graph
import Idealize.ShloMosaic.Lib.ReduceAll
import Idealize.ShloMosaic.Lib.ValueIdx
import Idealize.ShloMosaic.PureOps.Ideal

/-! Under the precondition every entry of each float argument is a real number. -/

noncomputable section

namespace Cert.Finite

open Idealize.ShloMosaic Idealize.ShloMosaic.ValueIdx
open Cert.Pre_finite_inputs Cert.Pre_finite_inputs.Facts

instance : Subsingleton S_.Idx := ⟨fun a b => funext fun d => d.elim0⟩

theorem inf_word : Ideal.ofBits .f32 0x7F800000#32 = (⊤ : EReal) := by
  simp [Ideal.ofBits, Ideal.ieee]

theorem real_of_abs_lt (x : EReal) (h : Ideal.cmp .olt (max x (-x)) (Ideal.ofBits .f32 0x7F800000#32) = 1#1) :
    ∃ r : ℝ, x = (r : EReal) := by
  rw [inf_word] at h
  induction x using EReal.rec with
  | bot => simp [Ideal.cmp] at h
  | coe r => exact ⟨r, rfl⟩
  | top => simp [Ideal.cmp] at h

theorem entry_real {s : Shape} {axes : List (Fin s.rank)} {dims : Fin S_.rank → Fin s.rank} (a : FVec Ideal s .f32)
    (bc : S_.BroadcastsInDim s dims) (h : s.ReducesTo axes S_) (hu : 0 < S_.numel)
    (e : Host.reduce IntOp.andi (cmpf .olt (Host.absf a) (broadcastInDim s dims bc (constant (F := Ideal) S_ .f32 0x7F800000#32)))
      (constantI S_ 1 1#1) h hu ix0 = 1#1) (i : s.Idx) : ∃ r : ℝ, a i = (r : EReal) :=
  real_of_abs_lt (a i) (Host.reduce_andi_all _ _ h hu ix0 e i)

theorem both (p q : IVec S_ 1) (h : andi p q ix0 = 1#1) : p ix0 = 1#1 ∧ q ix0 = 1#1 := IntOp.andi_eq_one.1 h

variable (x : FVec Ideal S100000x64 .f32) (ei : IVec S2x3200000 32) (batch : IVec S100000 32)
  (W1l : FVec Ideal S64x16 .f32) (b1 : FVec Ideal S16 .f32) (W1r : FVec Ideal S64x16 .f32)
  (W2l : FVec Ideal S16x32 .f32) (b2 : FVec Ideal S32 .f32) (W2r : FVec Ideal S16x32 .f32)
  (W3l : FVec Ideal S32x21 .f32) (b3 : FVec Ideal S21 .f32) (W3r : FVec Ideal S32x21 .f32)
  (Wc : FVec Ideal S32x10 .f32) (bc : FVec Ideal S10 .f32)

theorem fin_of_pre (h : Cert.Pre_finite_inputs.fn (F := Ideal) x ei batch W1l b1 W1r W2l b2 W2r W3l b3 W3r Wc bc = (fun _ => 1#1)) :
    Spec.Fin2 (Graph.cur2 x) ∧ Spec.Fin2 (Graph.cur2 W1l) ∧ Spec.Fin1 (Graph.cur1 b1) ∧ Spec.Fin2 (Graph.cur2 W1r)
      ∧ Spec.Fin2 (Graph.cur2 W2l) ∧ Spec.Fin1 (Graph.cur1 b2) ∧ Spec.Fin2 (Graph.cur2 W2r)
      ∧ Spec.Fin2 (Graph.cur2 W3l) ∧ Spec.Fin1 (Graph.cur1 b3) ∧ Spec.Fin2 (Graph.cur2 W3r)
      ∧ Spec.Fin2 (Graph.cur2 Wc) ∧ Spec.Fin1 (Graph.cur1 bc) := by
  have h0 := congrFun h ix0
  dsimp only [fn, fn_part1, fn_part2, fn_part3] at h0
  obtain ⟨h0, e12⟩ := both _ _ h0
  obtain ⟨h0, e11⟩ := both _ _ h0
  obtain ⟨h0, e10⟩ := both _ _ h0
  obtain ⟨h0, e9⟩ := both _ _ h0
  obtain ⟨h0, e8⟩ := both _ _ h0
  obtain ⟨h0, e7⟩ := both _ _ h0
  obtain ⟨h0, e6⟩ := both _ _ h0
  obtain ⟨h0, e5⟩ := both _ _ h0
  obtain ⟨h0, e4⟩ := both _ _ h0
  obtain ⟨h0, e3⟩ := both _ _ h0
  obtain ⟨e1, e2⟩ := both _ _ h0
  exact ⟨fun p q => entry_real x _ _ _ e1 (ix2 p q), fun p q => entry_real W1l _ _ _ e2 (ix2 p q),
    fun q => entry_real b1 _ _ _ e3 (ix1 q), fun p q => entry_real W1r _ _ _ e4 (ix2 p q),
    fun p q => entry_real W2l _ _ _ e5 (ix2 p q), fun q => entry_real b2 _ _ _ e6 (ix1 q),
    fun p q => entry_real W2r _ _ _ e7 (ix2 p q), fun p q => entry_real W3l _ _ _ e8 (ix2 p q),
    fun q => entry_real b3 _ _ _ e9 (ix1 q), fun p q => entry_real W3r _ _ _ e10 (ix2 p q),
    fun p q => entry_real Wc _ _ _ e11 (ix2 p q), fun q => entry_real bc _ _ _ e12 (ix1 q)⟩

end Cert.Finite

end
-- ==== Proof.Claims.lean ====
import proofs.«418024_j36704790511896_3_alg».proof.Defs
import proofs.«418024_j36704790511896_3_alg».proof.Proof.K.Run
import proofs.«418024_j36704790511896_3_alg».proof.Proof.KI.Run
import proofs.«418024_j36704790511896_3_alg».proof.Proof.KI.Chain
import proofs.«418024_j36704790511896_3_alg».proof.Proof.RefSide
import proofs.«418024_j36704790511896_3_alg».proof.Proof.Algebra
import proofs.«418024_j36704790511896_3_alg».proof.Proof.Finite

/-! The five claims, assembled from the runs, the values and the algebra. -/

set_option maxRecDepth 16384

noncomputable section

namespace Cert.Proof

open Idealize.ShloMosaic Idealize.ShloMosaic.TcCoe Idealize.ShloMosaic.ValueIdx Idealize.SL.Sem

theorem frame_k : Cert.frame_Kernel := fun m ρ _ =>
  (θ_run (Cert.Kernel.defs (F := Bits)) _ _).mono (fun r h c =>
    Cert.Kernel.Reg.args_kept (h c))
    (Cert.Kernel.Reg.run_all (F := Bits) m ρ)

theorem frame_ki : Cert.frame_KernelIdeal := fun m ρ _ =>
  (θ_run (Cert.KernelIdeal.defs (F := Ideal)) _ _).mono (fun r h c =>
    Cert.KernelIdeal.Reg.args_kept (h c))
    (Cert.KernelIdeal.Reg.run_all (F := Ideal) m ρ)

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

open Cert.KernelIdeal.Val Cert.Spec Cert.Graph in
theorem algebraic : Cert.algebraic_KernelIdeal_ReferenceIdeal := by
  intro m ρ m' ρ' hpre hagree
  refine ⟨fun c => Cert.KernelIdeal.Reg.W11 m c (Proc.devRef .tc Cert.KernelIdeal.main_v58),
    fun c => Cert.KernelIdeal.Reg.W11 m c (Proc.devRef .tc Cert.KernelIdeal.main_v50), ?_, ?_⟩
  · exact (θ_run (Cert.KernelIdeal.defs (F := Ideal)) _ _).mono (fun r h c =>
      ⟨h c _ (Cert.KernelIdeal.Reg.mem_uc Cert.KernelIdeal.main_v58 (by decide)),
       h c _ (Cert.KernelIdeal.Reg.mem_uc Cert.KernelIdeal.main_v50 (by decide)),
       Cert.KernelIdeal.Reg.args_kept (h c)⟩)
      (Cert.KernelIdeal.Reg.run_all (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    all_goals obtain ⟨hx, h1l, hb1, h1r, h2l, hb2, h2r, h3l, hb3, h3r, hwc, hbc⟩ := Cert.Finite.fin_of_pre _ _ _ _ _ _ _ _ _ _ _ _ _ _ (hpre c)
    all_goals obtain ⟨a0, a1, a2, a3, a4, a5, a6, a7, a8, a9, a10, a11, a12, a13⟩ := hagree c
    · rw [Cert.ReferenceIdeal.Read.val_main_v96_eq]
      simp only [a0, a1, a2, a3, a4, a5, a6, a7, a8, a9, a10, a11, a12, a13]
      rw [Cert.ReferenceIdeal.RefSide.ref_classif_fun]
      show _ = Cert.KernelIdeal.Reg.W11 m c (Proc.devRef .tc Cert.KernelIdeal.main_v58)
      rw [classif_ker m c, classif_eq hx h1l h1r hb1 h2l h2r hb2 h3l h3r hb3]
      rfl
    · rw [Cert.ReferenceIdeal.Read.val_main_v80_eq]
      simp only [a0, a1, a2, a3, a4, a5, a6, a7, a8, a9, a10, a11, a12, a13]
      rw [Cert.ReferenceIdeal.RefSide.ref_color_fun]
      show _ = Cert.KernelIdeal.Reg.W11 m c (Proc.devRef .tc Cert.KernelIdeal.main_v50)
      rw [color_ker m c]
      unfold sColor sH2 sH
      rw [color_eq hx h1l h1r hb1 h2l h2r hb2 h3l h3r hb3]
      rfl

end Cert.Proof

end
-- ==== Proof.lean ====
import proofs.«418024_j36704790511896_3_alg».proof.Defs
import proofs.«418024_j36704790511896_3_alg».proof.Proof.Gen.Kernel
import proofs.«418024_j36704790511896_3_alg».proof.Proof.Gen.KernelIdeal
import proofs.«418024_j36704790511896_3_alg».proof.Proof.Gen.ReferenceIdeal
import proofs.«418024_j36704790511896_3_alg».proof.Proof.Gen.Pre_finite_inputs
import proofs.«418024_j36704790511896_3_alg».proof.Proof.Claims
import Idealize.ShloMosaic.Adequacy
import Idealize.ShloMosaic.Init

noncomputable section

namespace Cert.Proof

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
